-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x2048 : Shape := ⟨3, ![32, 8, 2048]⟩
abbrev S32x8x4096 : Shape := ⟨3, ![32, 8, 4096]⟩
abbrev S2048x2048 : Shape := ⟨2, ![2048, 2048]⟩
abbrev S4096x4096 : Shape := ⟨2, ![4096, 4096]⟩
abbrev S2x4x2048 : Shape := ⟨3, ![2, 4, 2048]⟩
abbrev S2x4x4096 : Shape := ⟨3, ![2, 4, 4096]⟩
abbrev S8192x1024 : Shape := ⟨2, ![8192, 1024]⟩
abbrev S1024 : Shape := ⟨1, ![1024]⟩
abbrev S1024x1024 : Shape := ⟨2, ![1024, 1024]⟩
abbrev S1024x256 : Shape := ⟨2, ![1024, 256]⟩
abbrev S256 : Shape := ⟨1, ![256]⟩
abbrev S_ : Shape := ⟨0, ![]⟩

class Facts : Prop where
  bcast_S_S32x8x2048 : S_.BroadcastsInDim S32x8x2048 (![] : Fin 0 → Fin S32x8x2048.rank)
  reducesTo_S32x8x2048_S_d0_1_2 : S32x8x2048.ReducesTo [0, 1, 2] S_
  h_S_ : 0 < S_.numel
  bcast_S_S32x8x4096 : S_.BroadcastsInDim S32x8x4096 (![] : Fin 0 → Fin S32x8x4096.rank)
  reducesTo_S32x8x4096_S_d0_1_2 : S32x8x4096.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S2x4x2048 : S_.BroadcastsInDim S2x4x2048 (![] : Fin 0 → Fin S2x4x2048.rank)
  reducesTo_S2x4x2048_S_d0_1_2 : S2x4x2048.ReducesTo [0, 1, 2] S_
  bcast_S_S2x4x4096 : S_.BroadcastsInDim S2x4x4096 (![] : Fin 0 → Fin S2x4x4096.rank)
  reducesTo_S2x4x4096_S_d0_1_2 : S2x4x4096.ReducesTo [0, 1, 2] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_

variable [Facts]

def fn_part4 {F : FTy → Type} [FloatOps F] (main_arg14 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  main_v73

def fn_part3 {F : FTy → Type} [FloatOps F] (main_arg11 : FVec F S1024x1024 .f32) (main_arg12 : FVec F S1024 .f32) (main_arg13 : FVec F S1024x256 .f32) (main_arg14 : FVec F S256 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x256 .f32 := Host.absf main_arg13
  let main_cst_24 : FVec F S_ .f32 := constant S_ .f32 0x7F800000#32
  let main_v65 : FVec F S1024x256 .f32 := broadcastInDim S1024x256 ![] bcast_S_S1024x256 main_cst_24
  let main_v66 : IVec S1024x256 1 := cmpf .olt main_v64 main_v65
  let main_c_25 : IVec S_ 1 := constantI S_ 1 1#1
  let main_v67 : IVec S_ 1 := (fun x v => Host.reduce IntOp.andi x v reducesTo_S1024x256_S_d0_1 h_S_) main_v66 main_c_25
  fn_part4 (F := F) main_arg14 main_v63 main_v67

def fn_part2 {F : FTy → Type} [FloatOps F] (main_arg7 : FVec F S2x4x4096 .f32) (main_arg8 : FVec F S2x4x2048 .f32) (main_arg9 : FVec F S8192x1024 .f32) (main_arg10 : FVec F S1024 .f32) (main_arg11 : FVec F S1024x1024 .f32) (main_arg12 : FVec F S1024 .f32) (main_arg13 : FVec F S1024x256 .f32) (main_arg14 : FVec F S256 .f32) (main_v33 : IVec S_ 1) : IVec S_ 1 :=
  let main_v34 : FVec F S2x4x4096 .f32 := Host.absf main_arg7
  let main_cst_12 : FVec F S_ .f32 := constant S_ .f32 0x7F800000#32
  let main_v35 : FVec F S2x4x4096 .f32 := broadcastInDim S2x4x4096 ![] bcast_S_S2x4x4096 main_cst_12
  let main_v36 : IVec S2x4x4096 1 := cmpf .olt main_v34 main_v35
  let main_c_13 : IVec S_ 1 := constantI S_ 1 1#1
  let main_v37 : IVec S_ 1 := (fun x v => Host.reduce IntOp.andi x v reducesTo_S2x4x4096_S_d0_1_2 h_S_) main_v36 main_c_13
  let main_v38 : IVec S_ 1 := andi main_v33 main_v37
  let main_v39 : FVec F S2x4x2048 .f32 := Host.absf main_arg8
  let main_cst_14 : FVec F S_ .f32 := constant S_ .f32 0x7F800000#32
  let main_v40 : FVec F S2x4x2048 .f32 := broadcastInDim S2x4x2048 ![] bcast_S_S2x4x2048 main_cst_14
  let main_v41 : IVec S2x4x2048 1 := cmpf .olt main_v39 main_v40
  let main_c_15 : IVec S_ 1 := constantI S_ 1 1#1
  let main_v42 : IVec S_ 1 := (fun x v => Host.reduce IntOp.andi x v reducesTo_S2x4x2048_S_d0_1_2 h_S_) main_v41 main_c_15
  let main_v43 : IVec S_ 1 := andi main_v38 main_v42
  let main_v44 : FVec F S8192x1024 .f32 := Host.absf main_arg9
  let main_cst_16 : FVec F S_ .f32 := constant S_ .f32 0x7F800000#32
  let main_v45 : FVec F S8192x1024 .f32 := broadcastInDim S8192x1024 ![] bcast_S_S8192x1024 main_cst_16
  let main_v46 : IVec S8192x1024 1 := cmpf .olt main_v44 main_v45
  let main_c_17 : IVec S_ 1 := constantI S_ 1 1#1
  let main_v47 : IVec S_ 1 := (fun x v => Host.reduce IntOp.andi x v reducesTo_S8192x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_v48 main_v49 main_v50

def fn_part1 {F : FTy → Type} [FloatOps F] (main_arg4 : FVec F S4096x4096 .f32) (main_arg5 : FVec F S2048x2048 .f32) (main_arg6 : FVec F S2x4x2048 .f32) (main_arg7 : FVec F S2x4x4096 .f32) (main_arg8 : FVec F S2x4x2048 .f32) (main_arg9 : FVec F S8192x1024 .f32) (main_arg10 : FVec F S1024 .f32) (main_arg11 : FVec F S1024x1024 .f32) (main_arg12 : FVec F S1024 .f32) (main_arg13 : FVec F S1024x256 .f32) (main_arg14 : FVec F S256 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2x4x2048 .f32 := Host.absf main_arg6
  let main_cst_10 : FVec F S_ .f32 := constant S_ .f32 0x7F800000#32
  let main_v30 : FVec F S2x4x2048 .f32 := broadcastInDim S2x4x2048 ![] bcast_S_S2x4x2048 main_cst_10
  let main_v31 : IVec S2x4x2048 1 := cmpf .olt main_v29 main_v30
  let main_c_11 : IVec S_ 1 := constantI S_ 1 1#1
  let main_v32 : IVec S_ 1 := (fun x v => Host.reduce IntOp.andi x v reducesTo_S2x4x2048_S_d0_1_2 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S32x8x2048 .f32) (main_arg1 : FVec F S32x8x4096 .f32) (main_arg2 : FVec F S32x8x2048 .f32) (main_arg3 : FVec F S2048x2048 .f32) (main_arg4 : FVec F S4096x4096 .f32) (main_arg5 : FVec F S2048x2048 .f32) (main_arg6 : FVec F S2x4x2048 .f32) (main_arg7 : FVec F S2x4x4096 .f32) (main_arg8 : FVec F S2x4x2048 .f32) (main_arg9 : FVec F S8192x1024 .f32) (main_arg10 : FVec F S1024 .f32) (main_arg11 : FVec F S1024x1024 .f32) (main_arg12 : FVec F S1024 .f32) (main_arg13 : FVec F S1024x256 .f32) (main_arg14 : FVec F S256 .f32) : IVec S_ 1 :=
  let main_v0 : FVec F S32x8x2048 .f32 := Host.absf main_arg0
  let main_cst : FVec F S_ .f32 := constant S_ .f32 0x7F800000#32
  let main_v1 : FVec F S32x8x2048 .f32 := broadcastInDim S32x8x2048 ![] bcast_S_S32x8x2048 main_cst
  let main_v2 : IVec S32x8x2048 1 := cmpf .olt main_v0 main_v1
  let main_c : IVec S_ 1 := constantI S_ 1 1#1
  let main_v3 : IVec S_ 1 := (fun x v => Host.reduce IntOp.andi x v reducesTo_S32x8x2048_S_d0_1_2 h_S_) main_v2 main_c
  let main_v4 : FVec F S32x8x4096 .f32 := Host.absf main_arg1
  let main_cst_0 : FVec F S_ .f32 := constant S_ .f32 0x7F800000#32
  let main_v5 : FVec F S32x8x4096 .f32 := broadcastInDim S32x8x4096 ![] bcast_S_S32x8x4096 main_cst_0
  let main_v6 : IVec S32x8x4096 1 := cmpf .olt main_v4 main_v5
  let main_c_1 : IVec S_ 1 := constantI S_ 1 1#1
  let main_v7 : IVec S_ 1 := (fun x v => Host.reduce IntOp.andi x v reducesTo_S32x8x4096_S_d0_1_2 h_S_) main_v6 main_c_1
  let main_v8 : IVec S_ 1 := andi main_v3 main_v7
  let main_v9 : FVec F S32x8x2048 .f32 := Host.absf main_arg2
  let main_cst_2 : FVec F S_ .f32 := constant S_ .f32 0x7F800000#32
  let main_v10 : FVec F S32x8x2048 .f32 := broadcastInDim S32x8x2048 ![] bcast_S_S32x8x2048 main_cst_2
  let main_v11 : IVec S32x8x2048 1 := cmpf .olt main_v9 main_v10
  let main_c_3 : IVec S_ 1 := constantI S_ 1 1#1
  let main_v12 : IVec S_ 1 := (fun x v => Host.reduce IntOp.andi x v reducesTo_S32x8x2048_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S32x8x2048 : Shape := ⟨3, ![32, 8, 2048]⟩
abbrev S32x8x4096 : Shape := ⟨3, ![32, 8, 4096]⟩
abbrev S2048x2048 : Shape := ⟨2, ![2048, 2048]⟩
abbrev S4096x4096 : Shape := ⟨2, ![4096, 4096]⟩
abbrev S2x4x2048 : Shape := ⟨3, ![2, 4, 2048]⟩
abbrev S2x4x4096 : Shape := ⟨3, ![2, 4, 4096]⟩
abbrev S8192x1024 : Shape := ⟨2, ![8192, 1024]⟩
abbrev S1024 : Shape := ⟨1, ![1024]⟩
abbrev S1024x1024 : Shape := ⟨2, ![1024, 1024]⟩
abbrev S1024x256 : Shape := ⟨2, ![1024, 256]⟩
abbrev S256 : Shape := ⟨1, ![256]⟩
abbrev S256x2048 : Shape := ⟨2, ![256, 2048]⟩
abbrev S1x4x2048 : Shape := ⟨3, ![1, 4, 2048]⟩
abbrev S4x2048 : Shape := ⟨2, ![4, 2048]⟩
abbrev S256x1024 : Shape := ⟨2, ![256, 1024]⟩
abbrev S4x1024 : Shape := ⟨2, ![4, 1024]⟩
abbrev S1x1024 : Shape := ⟨2, ![1, 1024]⟩
abbrev S256x4096 : Shape := ⟨2, ![256, 4096]⟩
abbrev S1x4x4096 : Shape := ⟨3, ![1, 4, 4096]⟩
abbrev S4x4096 : Shape := ⟨2, ![4, 4096]⟩
abbrev S32x8x8192 : Shape := ⟨3, ![32, 8, 8192]⟩
abbrev S_ : Shape := ⟨0, ![]⟩
abbrev S32x8192 : Shape := ⟨2, ![32, 8192]⟩
abbrev S32x1024 : Shape := ⟨2, ![32, 1024]⟩
abbrev S32x256 : Shape := ⟨2, ![32, 256]⟩
abbrev S1x256 : Shape := ⟨2, ![1, 256]⟩

abbrev nBuf : Space → Nat
  | .hbm => 60
  | .vmem => 54
  | .smem => 0
  | _ => 0

abbrev bufTy : (tb : Table) → Fin (tcTables nBuf tb) → BufTy
  | .hbm, ⟨0, _⟩ => ⟨S32x8x2048, .f32⟩
  | .hbm, ⟨1, _⟩ => ⟨S32x8x4096, .f32⟩
  | .hbm, ⟨2, _⟩ => ⟨S32x8x2048, .f32⟩
  | .hbm, ⟨3, _⟩ => ⟨S2048x2048, .f32⟩
  | .hbm, ⟨4, _⟩ => ⟨S4096x4096, .f32⟩
  | .hbm, ⟨5, _⟩ => ⟨S2048x2048, .f32⟩
  | .hbm, ⟨6, _⟩ => ⟨S2x4x2048, .f32⟩
  | .hbm, ⟨7, _⟩ => ⟨S2x4x4096, .f32⟩
  | .hbm, ⟨8, _⟩ => ⟨S2x4x2048, .f32⟩
  | .hbm, ⟨9, _⟩ => ⟨S8192x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x256, .f32⟩
  | .hbm, ⟨14, _⟩ => ⟨S256, .f32⟩
  | .hbm, ⟨15, _⟩ => ⟨S256x2048, .f32⟩
  | .hbm, ⟨16, _⟩ => ⟨S1x4x2048, .f32⟩
  | .hbm, ⟨17, _⟩ => ⟨S4x2048, .f32⟩
  | .hbm, ⟨18, _⟩ => ⟨S256x2048, .f32⟩
  | .hbm, ⟨19, _⟩ => ⟨S1x4x2048, .f32⟩
  | .hbm, ⟨20, _⟩ => ⟨S4x2048, .f32⟩
  | .hbm, ⟨21, _⟩ => ⟨S256x2048, .f32⟩
  | .hbm, ⟨22, _⟩ => ⟨S32x8x2048, .f32⟩
  | .hbm, ⟨23, _⟩ => ⟨S256x4096, .f32⟩
  | .hbm, ⟨24, _⟩ => ⟨S1x4x4096, .f32⟩
  | .hbm, ⟨25, _⟩ => ⟨S4x4096, .f32⟩
  | .hbm, ⟨26, _⟩ => ⟨S256x4096, .f32⟩
  | .hbm, ⟨27, _⟩ => ⟨S1x4x4096, .f32⟩
  | .hbm, ⟨28, _⟩ => ⟨S4x4096, .f32⟩
  | .hbm, ⟨29, _⟩ => ⟨S256x4096, .f32⟩
  | .hbm, ⟨30, _⟩ => ⟨S32x8x4096, .f32⟩
  | .hbm, ⟨31, _⟩ => ⟨S256x2048, .f32⟩
  | .hbm, ⟨32, _⟩ => ⟨S1x4x2048, .f32⟩
  | .hbm, ⟨33, _⟩ => ⟨S4x2048, .f32⟩
  | .hbm, ⟨34, _⟩ => ⟨S256x2048, .f32⟩
  | .hbm, ⟨35, _⟩ => ⟨S1x4x2048, .f32⟩
  | .hbm, ⟨36, _⟩ => ⟨S4x2048, .f32⟩
  | .hbm, ⟨37, _⟩ => ⟨S256x2048, .f32⟩
  | .hbm, ⟨38, _⟩ => ⟨S32x8x2048, .f32⟩
  | .hbm, ⟨39, _⟩ => ⟨S32x8x8192, .f32⟩
  | .hbm, ⟨40, _⟩ => ⟨S_, .f32⟩
  | .hbm, ⟨41, _⟩ => ⟨S32x8192, .f32⟩
  | .hbm, ⟨42, _⟩ => ⟨S32x1024, .f32⟩
  | .hbm, ⟨43, _⟩ => ⟨S1x1024, .f32⟩
  | .hbm, ⟨44, _⟩ => ⟨S32x1024, .f32⟩
  | .hbm, ⟨45, _⟩ => ⟨S32x1024, .f32⟩
  | .hbm, ⟨46, _⟩ => ⟨S_, .f32⟩
  | .hbm, ⟨47, _⟩ => ⟨S32x1024, .f32⟩
  | .hbm, ⟨48, _⟩ => ⟨S32x1024, .f32⟩
  | .hbm, ⟨49, _⟩ => ⟨S32x1024, .f32⟩
  | .hbm, ⟨50, _⟩ => ⟨S1x1024, .f32⟩
  | .hbm, ⟨51, _⟩ => ⟨S32x1024, .f32⟩
  | .hbm, ⟨52, _⟩ => ⟨S32x1024, .f32⟩
  | .hbm, ⟨53, _⟩ => ⟨S_, .f32⟩
  | .hbm, ⟨54, _⟩ => ⟨S32x1024, .f32⟩
  | .hbm, ⟨55, _⟩ => ⟨S32x1024, .f32⟩
  | .hbm, ⟨56, _⟩ => ⟨S32x256, .f32⟩
  | .hbm, ⟨57, _⟩ => ⟨S1x256, .f32⟩
  | .hbm, ⟨58, _⟩ => ⟨S32x256, .f32⟩
  | .hbm, ⟨59, _⟩ => ⟨S32x256, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S4x1024, .f32⟩
  | .local _ .vmem, ⟨5, _⟩ => ⟨S4x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1024x1024, .f32⟩
  | .local _ .vmem, ⟨12, _⟩ => ⟨S1024x1024, .f32⟩
  | .local _ .vmem, ⟨13, _⟩ => ⟨S4x1024, .f32⟩
  | .local _ .vmem, ⟨14, _⟩ => ⟨S4x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S1024x1024, .f32⟩
  | .local _ .vmem, ⟨21, _⟩ => ⟨S1024x1024, .f32⟩
  | .local _ .vmem, ⟨22, _⟩ => ⟨S4x1024, .f32⟩
  | .local _ .vmem, ⟨23, _⟩ => ⟨S4x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S1024x1024, .f32⟩
  | .local _ .vmem, ⟨30, _⟩ => ⟨S1024x1024, .f32⟩
  | .local _ .vmem, ⟨31, _⟩ => ⟨S4x1024, .f32⟩
  | .local _ .vmem, ⟨32, _⟩ => ⟨S4x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S1024x1024, .f32⟩
  | .local _ .vmem, ⟨39, _⟩ => ⟨S1024x1024, .f32⟩
  | .local _ .vmem, ⟨40, _⟩ => ⟨S4x1024, .f32⟩
  | .local _ .vmem, ⟨41, _⟩ => ⟨S4x1024, .f32⟩
  | .local _ .vmem, ⟨42, _⟩ => ⟨S256x1024, .f32⟩
  | .local _ .vmem, ⟨43, _⟩ => ⟨S256x1024, .f32⟩
  | .local _ .vmem, ⟨44, _⟩ => ⟨S256x1024, .f32⟩
  | .local _ .vmem, ⟨45, _⟩ => ⟨S256x1024, .f32⟩
  | .local _ .vmem, ⟨46, _⟩ => ⟨S256x1024, .f32⟩
  | .local _ .vmem, ⟨47, _⟩ => ⟨S1024x1024, .f32⟩
  | .local _ .vmem, ⟨48, _⟩ => ⟨S1024x1024, .f32⟩
  | .local _ .vmem, ⟨49, _⟩ => ⟨S4x1024, .f32⟩
  | .local _ .vmem, ⟨50, _⟩ => ⟨S4x1024, .f32⟩
  | .local _ .vmem, ⟨51, _⟩ => ⟨S256x1024, .f32⟩
  | .local _ .vmem, ⟨52, _⟩ => ⟨S256x1024, .f32⟩
  | .local _ .vmem, ⟨53, _⟩ => ⟨S256x1024, .f32⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_call1_cst : Ref sig .tc := ⟨.hbm, 53, rfl⟩
abbrev main_call1_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg2_1 : Ref sig .tc := ⟨.vmem, 41, rfl⟩
abbrev cc4_stg3_0 : Ref sig .tc := ⟨.vmem, 42, rfl⟩
abbrev cc4_stg3_1 : Ref sig .tc := ⟨.vmem, 43, rfl⟩
abbrev cc4_scratch0 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg2_1 : Ref sig .tc := ⟨.vmem, 50, rfl⟩
abbrev cc5_stg3_0 : Ref sig .tc := ⟨.vmem, 51, rfl⟩
abbrev cc5_stg3_1 : Ref sig .tc := ⟨.vmem, 52, rfl⟩
abbrev cc5_scratch0 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc5_sem0_0 : DmaSem sig := 40
abbrev cc5_sem0_1 : DmaSem sig := 41
abbrev cc5_sem1_0 : DmaSem sig := 42
abbrev cc5_sem1_1 : DmaSem sig := 43
abbrev cc5_sem2_0 : DmaSem sig := 44
abbrev cc5_sem2_1 : DmaSem sig := 45
abbrev cc5_sem3_0 : DmaSem sig := 46
abbrev cc5_sem3_1 : DmaSem sig := 47

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 2], ![false, false]⟩

def k1_cond2 (i : grid1.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S4x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![4, 4], ![false, false]⟩

def k3_cond2 (i : grid3.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S4x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 2 → Memref sig .tc .vmem S256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev grid4 : Pipeline.Grid := ⟨2, ![2, 2], ![false, false]⟩

def k4_cond2 (i : grid4.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S256x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S4x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S256x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![2, 2], ![false, false]⟩

def k5_cond2 (i : grid5.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_8 : BitVec 32 := 0#32
  let v16 : BitVec 1 := Scalar.cmpi .ne v15 c0_i32_8
  v16

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage5_0 : Fin 2 → Memref sig .tc .vmem S256x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S1024x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S4x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 2 → Memref sig .tc .vmem S256x1024 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, false]

class Facts₀ : Prop where
  shapeCasts_S32x8x2048_S256x2048 : S32x8x2048.ShapeCasts S256x2048
  slices_S2x4x2048_S1x4x2048_0_0_0 : S2x4x2048.Slices ![0, 0, 0] S1x4x2048
  shapeCasts_S1x4x2048_S4x2048 : S1x4x2048.ShapeCasts S4x2048
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  slices_S4x1024_o0_0_S1x1024 : S4x1024.Slices ![0, 0] S1x1024
  broadcasts_S1x1024_S256x1024 : S1x1024.Broadcasts S256x1024
  slices_S4x1024_o1_0_S1x1024 : S4x1024.Slices ![1, 0] S1x1024
  slices_S4x1024_o2_0_S1x1024 : S4x1024.Slices ![2, 0] S1x1024
  slices_S4x1024_o3_0_S1x1024 : S4x1024.Slices ![3, 0] S1x1024
  slices_S2x4x2048_S1x4x2048_1_0_0 : S2x4x2048.Slices ![1, 0, 0] S1x4x2048
  shapeCasts_S256x2048_S32x8x2048 : S256x2048.ShapeCasts S32x8x2048
  shapeCasts_S32x8x4096_S256x4096 : S32x8x4096.ShapeCasts S256x4096
  slices_S2x4x4096_S1x4x4096_0_0_0 : S2x4x4096.Slices ![0, 0, 0] S1x4x4096
  shapeCasts_S1x4x4096_S4x4096 : S1x4x4096.ShapeCasts S4x4096
  slices_S2x4x4096_S1x4x4096_1_0_0 : S2x4x4096.Slices ![1, 0, 0] S1x4x4096
  shapeCasts_S256x4096_S32x8x4096 : S256x4096.ShapeCasts S32x8x4096
  concatenates_S32x8x2048_S32x8x4096_S32x8x2048_S32x8x8192_d2 : Shape.Concatenates [S32x8x2048, S32x8x4096, S32x8x2048] S32x8x8192 2
  reducesTo_S32x8x8192_S32x8192_d1 : S32x8x8192.ReducesTo [1] S32x8192
  h_S_ : 0 < S_.numel
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  dot_S256x1024_S1024x1024_S256x1024_1_1_0_0_n_n_wf : DotDims.WF S256x1024 S1024x1024 S256x1024 [1] [1] [0] [0] [] []
  dot_S32x8192_S8192x1024_S32x1024_1_0_0_1_n_n_wf : DotDims.WF S32x8192 S8192x1024 S32x1024 [1] [0] [0] [1] [] []
  dot_S32x1024_S1024x1024_S32x1024_1_0_0_1_n_n_wf : DotDims.WF S32x1024 S1024x1024 S32x1024 [1] [0] [0] [1] [] []
  dot_S32x1024_S1024x256_S32x256_1_0_0_1_n_n_wf : DotDims.WF S32x1024 S1024x256 S32x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x2048.size a
  hwx0_0 : ∀ i : grid0.Coords, EltTy.bits .f32 = 32 ∨ (Rect.block (s := S256x2048) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S2048x2048.size a
  hwx0_1 : ∀ i : grid0.Coords, EltTy.bits .f32 = 32 ∨ (Rect.block (s := S2048x2048) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x2048.size a
  hwx0_2 : ∀ i : grid0.Coords, EltTy.bits .f32 = 32 ∨ (Rect.block (s := S4x2048) S4x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x2048.size a
  hwx0_3 : ∀ i : grid0.Coords, EltTy.bits .f32 = 32 ∨ (Rect.block (s := S256x2048) S256x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S256x2048.size a
  hwx1_0 : ∀ i : grid1.Coords, EltTy.bits .f32 = 32 ∨ (Rect.block (s := S256x2048) S256x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S2048x2048.size a
  hwx1_1 : ∀ i : grid1.Coords, EltTy.bits .f32 = 32 ∨ (Rect.block (s := S2048x2048) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x1024.size a ≤ S4x2048.size a
  hwx1_2 : ∀ i : grid1.Coords, EltTy.bits .f32 = 32 ∨ (Rect.block (s := S4x2048) S4x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1024.size a ≤ S256x2048.size a
  hwx1_3 : ∀ i : grid1.Coords, EltTy.bits .f32 = 32 ∨ (Rect.block (s := S256x2048) S256x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S256x4096.size a
  hwx2_0 : ∀ i : grid2.Coords, EltTy.bits .f32 = 32 ∨ (Rect.block (s := S256x4096) S256x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .f32 = 32 ∨ (Rect.block (s := S4096x4096) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4x1024.size a ≤ S4x4096.size a
  hwx2_2 : ∀ i : grid2.Coords, EltTy.bits .f32 = 32 ∨ (Rect.block (s := S4x4096) S4x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1024.size a ≤ S256x4096.size a
  hwx2_3 : ∀ i : grid2.Coords, EltTy.bits .f32 = 32 ∨ (Rect.block (s := S256x4096) S256x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x1024.size a ≤ S256x4096.size a
  hwx3_0 : ∀ i : grid3.Coords, EltTy.bits .f32 = 32 ∨ (Rect.block (s := S256x4096) S256x1024.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S4096x4096.size a
  hwx3_1 : ∀ i : grid3.Coords, EltTy.bits .f32 = 32 ∨ (Rect.block (s := S4096x4096) S1024x1024.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4x1024.size a ≤ S4x4096.size a
  hwx3_2 : ∀ i : grid3.Coords, EltTy.bits .f32 = 32 ∨ (Rect.block (s := S4x4096) S4x1024.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S256x1024.size a ≤ S256x4096.size a
  hwx3_3 : ∀ i : grid3.Coords, EltTy.bits .f32 = 32 ∨ (Rect.block (s := S256x4096) S256x1024.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S256x1024.size a ≤ S256x2048.size a
  hwx4_0 : ∀ i : grid4.Coords, EltTy.bits .f32 = 32 ∨ (Rect.block (s := S256x2048) S256x1024.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S2048x2048.size a
  hwx4_1 : ∀ i : grid4.Coords, EltTy.bits .f32 = 32 ∨ (Rect.block (s := S2048x2048) S1024x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4x1024.size a ≤ S4x2048.size a
  hwx4_2 : ∀ i : grid4.Coords, EltTy.bits .f32 = 32 ∨ (Rect.block (s := S4x2048) S4x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S256x1024.size a ≤ S256x2048.size a
  hwx4_3 : ∀ i : grid4.Coords, EltTy.bits .f32 = 32 ∨ (Rect.block (s := S256x2048) S256x1024.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S256x1024.size a ≤ S256x2048.size a
  hwx5_0 : ∀ i : grid5.Coords, EltTy.bits .f32 = 32 ∨ (Rect.block (s := S256x2048) S256x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x1024.size a ≤ S2048x2048.size a
  hwx5_1 : ∀ i : grid5.Coords, EltTy.bits .f32 = 32 ∨ (Rect.block (s := S2048x2048) S1024x1024.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4x1024.size a ≤ S4x2048.size a
  hwx5_2 : ∀ i : grid5.Coords, EltTy.bits .f32 = 32 ∨ (Rect.block (s := S4x2048) S4x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S256x1024.size a ≤ S256x2048.size a
  hwx5_3 : ∀ i : grid5.Coords, EltTy.bits .f32 = 32 ∨ (Rect.block (s := S256x2048) S256x1024.size (cc5_transform_3 i) (hinb5_3 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S32x8192_S8192x1024_S32x1024_1_0_0_1_n_n : DotDims S32x8192 S8192x1024 S32x1024 where
  lhsContracting := [1]
  rhsContracting := [0]
  lhsNonContracting := [0]
  rhsNonContracting := [1]
  lhsBatch := []
  rhsBatch := []
  wf := dot_S32x8192_S8192x1024_S32x1024_1_0_0_1_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x1024_S1024x256_S32x256_1_0_0_1_n_n : DotDims S32x1024 S1024x256 S32x256 where
  lhsContracting := [1]
  rhsContracting := [0]
  lhsNonContracting := [0]
  rhsNonContracting := [1]
  lhsBatch := []
  rhsBatch := []
  wf := dot_S32x1024_S1024x256_S32x256_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v3) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S4x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S256x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v8) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S4x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v11) S256x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v11) S256x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S4x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v14) S256x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v16) S256x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S1024x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v18) S4x1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v19) S256x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v19) S256x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S1024x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v21) S4x1024.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v22) S256x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

class Facts : Prop extends Facts₀ where

variable [Facts]
-- ==== ReferenceIdeal.lean ====
abbrev S32x8x2048 : Shape := ⟨3, ![32, 8, 2048]⟩
abbrev S32x8x4096 : Shape := ⟨3, ![32, 8, 4096]⟩
abbrev S2048x2048 : Shape := ⟨2, ![2048, 2048]⟩
abbrev S4096x4096 : Shape := ⟨2, ![4096, 4096]⟩
abbrev S2x4x2048 : Shape := ⟨3, ![2, 4, 2048]⟩
abbrev S2x4x4096 : Shape := ⟨3, ![2, 4, 4096]⟩
abbrev S8192x1024 : Shape := ⟨2, ![8192, 1024]⟩
abbrev S1024 : Shape := ⟨1, ![1024]⟩
abbrev S1024x1024 : Shape := ⟨2, ![1024, 1024]⟩
abbrev S1024x256 : Shape := ⟨2, ![1024, 256]⟩
abbrev S256 : Shape := ⟨1, ![256]⟩
abbrev S32x8x1x2048 : Shape := ⟨4, ![32, 8, 1, 2048]⟩
abbrev S1x4x2048 : Shape := ⟨3, ![1, 4, 2048]⟩
abbrev S4x2048 : Shape := ⟨2, ![4, 2048]⟩
abbrev S1x1x4x2048 : Shape := ⟨4, ![1, 1, 4, 2048]⟩
abbrev S32x8x4x2048 : Shape := ⟨4, ![32, 8, 4, 2048]⟩
abbrev S_ : Shape := ⟨0, ![]⟩
abbrev S32x8x1x4096 : Shape := ⟨4, ![32, 8, 1, 4096]⟩
abbrev S1x4x4096 : Shape := ⟨3, ![1, 4, 4096]⟩
abbrev S4x4096 : Shape := ⟨2, ![4, 4096]⟩
abbrev S1x1x4x4096 : Shape := ⟨4, ![1, 1, 4, 4096]⟩
abbrev S32x8x4x4096 : Shape := ⟨4, ![32, 8, 4, 4096]⟩
abbrev S32x8x8192 : Shape := ⟨3, ![32, 8, 8192]⟩
abbrev S32x8192 : Shape := ⟨2, ![32, 8192]⟩
abbrev S32x1024 : Shape := ⟨2, ![32, 1024]⟩
abbrev S1x1024 : Shape := ⟨2, ![1, 1024]⟩
abbrev S32x256 : Shape := ⟨2, ![32, 256]⟩
abbrev S1x256 : Shape := ⟨2, ![1, 256]⟩

abbrev nBuf : Space → Nat
  | .hbm => 114
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S32x8x4096, .f32⟩
  | .hbm, ⟨2, _⟩ => ⟨S32x8x2048, .f32⟩
  | .hbm, ⟨3, _⟩ => ⟨S2048x2048, .f32⟩
  | .hbm, ⟨4, _⟩ => ⟨S4096x4096, .f32⟩
  | .hbm, ⟨5, _⟩ => ⟨S2048x2048, .f32⟩
  | .hbm, ⟨6, _⟩ => ⟨S2x4x2048, .f32⟩
  | .hbm, ⟨7, _⟩ => ⟨S2x4x4096, .f32⟩
  | .hbm, ⟨8, _⟩ => ⟨S2x4x2048, .f32⟩
  | .hbm, ⟨9, _⟩ => ⟨S8192x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x256, .f32⟩
  | .hbm, ⟨14, _⟩ => ⟨S256, .f32⟩
  | .hbm, ⟨15, _⟩ => ⟨S32x8x2048, .f32⟩
  | .hbm, ⟨16, _⟩ => ⟨S32x8x1x2048, .f32⟩
  | .hbm, ⟨17, _⟩ => ⟨S1x4x2048, .f32⟩
  | .hbm, ⟨18, _⟩ => ⟨S4x2048, .f32⟩
  | .hbm, ⟨19, _⟩ => ⟨S1x1x4x2048, .f32⟩
  | .hbm, ⟨20, _⟩ => ⟨S32x8x4x2048, .f32⟩
  | .hbm, ⟨21, _⟩ => ⟨S32x8x4x2048, .f32⟩
  | .hbm, ⟨22, _⟩ => ⟨S32x8x4x2048, .f32⟩
  | .hbm, ⟨23, _⟩ => ⟨S_, .f32⟩
  | .hbm, ⟨24, _⟩ => ⟨S32x8x4x2048, .f32⟩
  | .hbm, ⟨25, _⟩ => ⟨S32x8x4x2048, .f32⟩
  | .hbm, ⟨26, _⟩ => ⟨S_, .f32⟩
  | .hbm, ⟨27, _⟩ => ⟨S32x8x2048, .f32⟩
  | .hbm, ⟨28, _⟩ => ⟨S32x8x2048, .f32⟩
  | .hbm, ⟨29, _⟩ => ⟨S32x8x1x2048, .f32⟩
  | .hbm, ⟨30, _⟩ => ⟨S1x4x2048, .f32⟩
  | .hbm, ⟨31, _⟩ => ⟨S4x2048, .f32⟩
  | .hbm, ⟨32, _⟩ => ⟨S1x1x4x2048, .f32⟩
  | .hbm, ⟨33, _⟩ => ⟨S32x8x4x2048, .f32⟩
  | .hbm, ⟨34, _⟩ => ⟨S32x8x4x2048, .f32⟩
  | .hbm, ⟨35, _⟩ => ⟨S32x8x4x2048, .f32⟩
  | .hbm, ⟨36, _⟩ => ⟨S_, .f32⟩
  | .hbm, ⟨37, _⟩ => ⟨S32x8x4x2048, .f32⟩
  | .hbm, ⟨38, _⟩ => ⟨S32x8x4x2048, .f32⟩
  | .hbm, ⟨39, _⟩ => ⟨S_, .f32⟩
  | .hbm, ⟨40, _⟩ => ⟨S32x8x2048, .f32⟩
  | .hbm, ⟨41, _⟩ => ⟨S32x8x4096, .f32⟩
  | .hbm, ⟨42, _⟩ => ⟨S32x8x1x4096, .f32⟩
  | .hbm, ⟨43, _⟩ => ⟨S1x4x4096, .f32⟩
  | .hbm, ⟨44, _⟩ => ⟨S4x4096, .f32⟩
  | .hbm, ⟨45, _⟩ => ⟨S1x1x4x4096, .f32⟩
  | .hbm, ⟨46, _⟩ => ⟨S32x8x4x4096, .f32⟩
  | .hbm, ⟨47, _⟩ => ⟨S32x8x4x4096, .f32⟩
  | .hbm, ⟨48, _⟩ => ⟨S32x8x4x4096, .f32⟩
  | .hbm, ⟨49, _⟩ => ⟨S_, .f32⟩
  | .hbm, ⟨50, _⟩ => ⟨S32x8x4x4096, .f32⟩
  | .hbm, ⟨51, _⟩ => ⟨S32x8x4x4096, .f32⟩
  | .hbm, ⟨52, _⟩ => ⟨S_, .f32⟩
  | .hbm, ⟨53, _⟩ => ⟨S32x8x4096, .f32⟩
  | .hbm, ⟨54, _⟩ => ⟨S32x8x4096, .f32⟩
  | .hbm, ⟨55, _⟩ => ⟨S32x8x1x4096, .f32⟩
  | .hbm, ⟨56, _⟩ => ⟨S1x4x4096, .f32⟩
  | .hbm, ⟨57, _⟩ => ⟨S4x4096, .f32⟩
  | .hbm, ⟨58, _⟩ => ⟨S1x1x4x4096, .f32⟩
  | .hbm, ⟨59, _⟩ => ⟨S32x8x4x4096, .f32⟩
  | .hbm, ⟨60, _⟩ => ⟨S32x8x4x4096, .f32⟩
  | .hbm, ⟨61, _⟩ => ⟨S32x8x4x4096, .f32⟩
  | .hbm, ⟨62, _⟩ => ⟨S_, .f32⟩
  | .hbm, ⟨63, _⟩ => ⟨S32x8x4x4096, .f32⟩
  | .hbm, ⟨64, _⟩ => ⟨S32x8x4x4096, .f32⟩
  | .hbm, ⟨65, _⟩ => ⟨S_, .f32⟩
  | .hbm, ⟨66, _⟩ => ⟨S32x8x4096, .f32⟩
  | .hbm, ⟨67, _⟩ => ⟨S32x8x2048, .f32⟩
  | .hbm, ⟨68, _⟩ => ⟨S32x8x1x2048, .f32⟩
  | .hbm, ⟨69, _⟩ => ⟨S1x4x2048, .f32⟩
  | .hbm, ⟨70, _⟩ => ⟨S4x2048, .f32⟩
  | .hbm, ⟨71, _⟩ => ⟨S1x1x4x2048, .f32⟩
  | .hbm, ⟨72, _⟩ => ⟨S32x8x4x2048, .f32⟩
  | .hbm, ⟨73, _⟩ => ⟨S32x8x4x2048, .f32⟩
  | .hbm, ⟨74, _⟩ => ⟨S32x8x4x2048, .f32⟩
  | .hbm, ⟨75, _⟩ => ⟨S_, .f32⟩
  | .hbm, ⟨76, _⟩ => ⟨S32x8x4x2048, .f32⟩
  | .hbm, ⟨77, _⟩ => ⟨S32x8x4x2048, .f32⟩
  | .hbm, ⟨78, _⟩ => ⟨S_, .f32⟩
  | .hbm, ⟨79, _⟩ => ⟨S32x8x2048, .f32⟩
  | .hbm, ⟨80, _⟩ => ⟨S32x8x2048, .f32⟩
  | .hbm, ⟨81, _⟩ => ⟨S32x8x1x2048, .f32⟩
  | .hbm, ⟨82, _⟩ => ⟨S1x4x2048, .f32⟩
  | .hbm, ⟨83, _⟩ => ⟨S4x2048, .f32⟩
  | .hbm, ⟨84, _⟩ => ⟨S1x1x4x2048, .f32⟩
  | .hbm, ⟨85, _⟩ => ⟨S32x8x4x2048, .f32⟩
  | .hbm, ⟨86, _⟩ => ⟨S32x8x4x2048, .f32⟩
  | .hbm, ⟨87, _⟩ => ⟨S32x8x4x2048, .f32⟩
  | .hbm, ⟨88, _⟩ => ⟨S_, .f32⟩
  | .hbm, ⟨89, _⟩ => ⟨S32x8x4x2048, .f32⟩
  | .hbm, ⟨90, _⟩ => ⟨S32x8x4x2048, .f32⟩
  | .hbm, ⟨91, _⟩ => ⟨S_, .f32⟩
  | .hbm, ⟨92, _⟩ => ⟨S32x8x2048, .f32⟩
  | .hbm, ⟨93, _⟩ => ⟨S32x8x8192, .f32⟩
  | .hbm, ⟨94, _⟩ => ⟨S_, .f32⟩
  | .hbm, ⟨95, _⟩ => ⟨S32x8192, .f32⟩
  | .hbm, ⟨96, _⟩ => ⟨S32x1024, .f32⟩
  | .hbm, ⟨97, _⟩ => ⟨S1x1024, .f32⟩
  | .hbm, ⟨98, _⟩ => ⟨S32x1024, .f32⟩
  | .hbm, ⟨99, _⟩ => ⟨S32x1024, .f32⟩
  | .hbm, ⟨100, _⟩ => ⟨S_, .f32⟩
  | .hbm, ⟨101, _⟩ => ⟨S32x1024, .f32⟩
  | .hbm, ⟨102, _⟩ => ⟨S32x1024, .f32⟩
  | .hbm, ⟨103, _⟩ => ⟨S32x1024, .f32⟩
  | .hbm, ⟨104, _⟩ => ⟨S1x1024, .f32⟩
  | .hbm, ⟨105, _⟩ => ⟨S32x1024, .f32⟩
  | .hbm, ⟨106, _⟩ => ⟨S32x1024, .f32⟩
  | .hbm, ⟨107, _⟩ => ⟨S_, .f32⟩
  | .hbm, ⟨108, _⟩ => ⟨S32x1024, .f32⟩
  | .hbm, ⟨109, _⟩ => ⟨S32x1024, .f32⟩
  | .hbm, ⟨110, _⟩ => ⟨S32x256, .f32⟩
  | .hbm, ⟨111, _⟩ => ⟨S1x256, .f32⟩
  | .hbm, ⟨112, _⟩ => ⟨S32x256, .f32⟩
  | .hbm, ⟨113, _⟩ => ⟨S32x256, .f32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call0_cst : Ref sig .tc := ⟨.hbm, 23, rfl⟩
abbrev main_call0_v0 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call1_cst : Ref sig .tc := ⟨.hbm, 36, rfl⟩
abbrev main_call1_v0 : Ref sig .tc := ⟨.hbm, 37, rfl⟩
abbrev main_v18 : Ref sig .tc := ⟨.hbm, 38, rfl⟩
abbrev main_cst_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_call2_cst : Ref sig .tc := ⟨.hbm, 49, rfl⟩
abbrev main_call2_v0 : Ref sig .tc := ⟨.hbm, 50, rfl⟩
abbrev main_v28 : Ref sig .tc := ⟨.hbm, 51, rfl⟩
abbrev main_cst_1 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_call3_cst : Ref sig .tc := ⟨.hbm, 62, rfl⟩
abbrev main_call3_v0 : Ref sig .tc := ⟨.hbm, 63, rfl⟩
abbrev main_v38 : Ref sig .tc := ⟨.hbm, 64, rfl⟩
abbrev main_cst_2 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call4_cst : Ref sig .tc := ⟨.hbm, 75, rfl⟩
abbrev main_call4_v0 : Ref sig .tc := ⟨.hbm, 76, rfl⟩
abbrev main_v48 : Ref sig .tc := ⟨.hbm, 77, rfl⟩
abbrev main_cst_3 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_call5_cst : Ref sig .tc := ⟨.hbm, 88, rfl⟩
abbrev main_call5_v0 : Ref sig .tc := ⟨.hbm, 89, rfl⟩
abbrev main_v58 : Ref sig .tc := ⟨.hbm, 90, rfl⟩
abbrev main_cst_4 : Ref sig .tc := ⟨.hbm, 91, rfl⟩
abbrev main_v59 : Ref sig .tc := ⟨.hbm, 92, rfl⟩
abbrev main_v60 : Ref sig .tc := ⟨.hbm, 93, rfl⟩
abbrev main_cst_5 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_call6_cst : Ref sig .tc := ⟨.hbm, 100, rfl⟩
abbrev main_call6_v0 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_call7_cst : Ref sig .tc := ⟨.hbm, 107, rfl⟩
abbrev main_call7_v0 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩

abbrev nD : Nat := 1
abbrev τ : Topo := Topo.v7x

variable {F : FTy → Type} [FloatOps F]

class Facts₀ : Prop where
  bcast_S32x8x2048_S32x8x1x2048_0_1_3 : S32x8x2048.BroadcastsInDim S32x8x1x2048 (![0, 1, 3] : Fin 3 → Fin S32x8x1x2048.rank)
  slices_S2x4x2048_S1x4x2048_0_0_0 : S2x4x2048.Slices ![0, 0, 0] S1x4x2048
  shapeCasts_S1x4x2048_S4x2048 : S1x4x2048.ShapeCasts S4x2048
  bcast_S4x2048_S1x1x4x2048_2_3 : S4x2048.BroadcastsInDim S1x1x4x2048 (![2, 3] : Fin 2 → Fin S1x1x4x2048.rank)
  bcast_S32x8x1x2048_S32x8x4x2048_0_1_2_3 : S32x8x1x2048.BroadcastsInDim S32x8x4x2048 (![0, 1, 2, 3] : Fin 4 → Fin S32x8x4x2048.rank)
  bcast_S1x1x4x2048_S32x8x4x2048_0_1_2_3 : S1x1x4x2048.BroadcastsInDim S32x8x4x2048 (![0, 1, 2, 3] : Fin 4 → Fin S32x8x4x2048.rank)
  bcast_S_S32x8x4x2048 : S_.BroadcastsInDim S32x8x4x2048 (![] : Fin 0 → Fin S32x8x4x2048.rank)
  reducesTo_S32x8x4x2048_S32x8x2048_d2 : S32x8x4x2048.ReducesTo [2] S32x8x2048
  h_S_ : 0 < S_.numel
  slices_S2x4x2048_S1x4x2048_1_0_0 : S2x4x2048.Slices ![1, 0, 0] S1x4x2048
  bcast_S32x8x4096_S32x8x1x4096_0_1_3 : S32x8x4096.BroadcastsInDim S32x8x1x4096 (![0, 1, 3] : Fin 3 → Fin S32x8x1x4096.rank)
  slices_S2x4x4096_S1x4x4096_0_0_0 : S2x4x4096.Slices ![0, 0, 0] S1x4x4096
  shapeCasts_S1x4x4096_S4x4096 : S1x4x4096.ShapeCasts S4x4096
  bcast_S4x4096_S1x1x4x4096_2_3 : S4x4096.BroadcastsInDim S1x1x4x4096 (![2, 3] : Fin 2 → Fin S1x1x4x4096.rank)
  bcast_S32x8x1x4096_S32x8x4x4096_0_1_2_3 : S32x8x1x4096.BroadcastsInDim S32x8x4x4096 (![0, 1, 2, 3] : Fin 4 → Fin S32x8x4x4096.rank)
  bcast_S1x1x4x4096_S32x8x4x4096_0_1_2_3 : S1x1x4x4096.BroadcastsInDim S32x8x4x4096 (![0, 1, 2, 3] : Fin 4 → Fin S32x8x4x4096.rank)
  bcast_S_S32x8x4x4096 : S_.BroadcastsInDim S32x8x4x4096 (![] : Fin 0 → Fin S32x8x4x4096.rank)
  reducesTo_S32x8x4x4096_S32x8x4096_d2 : S32x8x4x4096.ReducesTo [2] S32x8x4096
  slices_S2x4x4096_S1x4x4096_1_0_0 : S2x4x4096.Slices ![1, 0, 0] S1x4x4096
  concatenates_S32x8x2048_S32x8x4096_S32x8x2048_S32x8x8192_d2 : Shape.Concatenates [S32x8x2048, S32x8x4096, S32x8x2048] S32x8x8192 2
  reducesTo_S32x8x8192_S32x8192_d1 : S32x8x8192.ReducesTo [1] S32x8192
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S_S32x1024 : S_.BroadcastsInDim S32x1024 (![] : Fin 0 → Fin S32x1024.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  dot_S32x8x2048_S2048x2048_S32x8x2048_2_1_01_0_n_n_wf : DotDims.WF S32x8x2048 S2048x2048 S32x8x2048 [2] [1] [0, 1] [0] [] []
  dot_S32x8x4096_S4096x4096_S32x8x4096_2_1_01_0_n_n_wf : DotDims.WF S32x8x4096 S4096x4096 S32x8x4096 [2] [1] [0, 1] [0] [] []
  dot_S32x8192_S8192x1024_S32x1024_1_0_0_1_n_n_wf : DotDims.WF S32x8192 S8192x1024 S32x1024 [1] [0] [0] [1] [] []
  dot_S32x1024_S1024x1024_S32x1024_1_0_0_1_n_n_wf : DotDims.WF S32x1024 S1024x1024 S32x1024 [1] [0] [0] [1] [] []
  dot_S32x1024_S1024x256_S32x256_1_0_0_1_n_n_wf : DotDims.WF S32x1024 S1024x256 S32x256 [1] [0] [0] [1] [] []

variable [Facts₀]

def dot_S32x8x2048_S2048x2048_S32x8x2048_2_1_01_0_n_n : DotDims S32x8x2048 S2048x2048 S32x8x2048 where
  lhsContracting := [2]
  rhsContracting := [1]
  lhsNonContracting := [0, 1]
  rhsNonContracting := [0]
  lhsBatch := []
  rhsBatch := []
  wf := dot_S32x8x2048_S2048x2048_S32x8x2048_2_1_01_0_n_n_wf
def dot_S32x8x4096_S4096x4096_S32x8x4096_2_1_01_0_n_n : DotDims S32x8x4096 S4096x4096 S32x8x4096 where
  lhsContracting := [2]
  rhsContracting := [1]
  lhsNonContracting := [0, 1]
  rhsNonContracting := [0]
  lhsBatch := []
  rhsBatch := []
  wf := dot_S32x8x4096_S4096x4096_S32x8x4096_2_1_01_0_n_n_wf
def dot_S32x8192_S8192x1024_S32x1024_1_0_0_1_n_n : DotDims S32x8192 S8192x1024 S32x1024 where
  lhsContracting := [1]
  rhsContracting := [0]
  lhsNonContracting := [0]
  rhsNonContracting := [1]
  lhsBatch := []
  rhsBatch := []
  wf := dot_S32x8192_S8192x1024_S32x1024_1_0_0_1_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf
def dot_S32x1024_S1024x256_S32x256_1_0_0_1_n_n : DotDims S32x1024 S1024x256 S32x256 where
  lhsContracting := [1]
  rhsContracting := [0]
  lhsNonContracting := [0]
  rhsNonContracting := [1]
  lhsBatch := []
  rhsBatch := []
  wf := dot_S32x1024_S1024x256_S32x256_1_0_0_1_n_n_wf

class Facts : Prop extends Facts₀ where

variable [Facts]
-- ==== Proof.Body0.lean ====
import proofs.«146132_j71485435675282_1_alg».proof.Proof.Gen.KernelIdeal.Launch
import proofs.«146132_j71485435675282_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tests of the body on the contraction step j: whether it is the first, and whether it is the last. -/
abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1

variable (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S4x1024 .f32) (harg4 : arg4.IsWhole) (arg5 : Memref sig .tc .vmem S256x1024 .f32) (harg5 : arg5.IsWhole) (arg6 : Memref sig .tc .vmem S256x1024 .f32) (harg6 : arg6.IsWhole)

set_option maxHeartbeats 1000000 in
/-- A first step that is not the last: the accumulator, whatever it held, ends at a list of stores; the three inputs and the output block come back as they were. -/
noncomputable def kernelRun0_A (hc0 : cond0_0 i) (hc1 : ¬cond0_1 i)
    (x0 : Vec F S256x1024 .f32) (x1 : Vec F S1024x1024 .f32) (x2 : Vec F S4x1024 .f32) :
    { LS0 : List (View.Piece (Elt F) S256x1024 .f32) //
      ∀ (xi3 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__scnn_layer_kernel i arg2 harg2 arg3 harg3 arg4 harg4 arg5 harg5 arg6 harg6) K } := by
  refine ⟨?_, fun xi3 E K => ?run⟩
  case run =>
    simp only [cc0__scnn_layer_kernel_eq_skeleton]; unfold cc0__scnn_layer_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- A step that is neither first nor last: the same, from an accumulator whose contents are known. -/
noncomputable def kernelRun0_B (hc0 : ¬cond0_0 i) (hc1 : ¬cond0_1 i)
    (x0 : Vec F S256x1024 .f32) (x1 : Vec F S1024x1024 .f32) (x2 : Vec F S4x1024 .f32) (xs0 : Vec F S256x1024 .f32) :
    { LS0 : List (View.Piece (Elt F) S256x1024 .f32) //
      ∀ (xi3 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__scnn_layer_kernel i arg2 harg2 arg3 harg3 arg4 harg4 arg5 harg5 arg6 harg6) K } := by
  refine ⟨?_, fun xi3 E K => ?run⟩
  case run =>
    simp only [cc0__scnn_layer_kernel_eq_skeleton]; unfold cc0__scnn_layer_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- A last step that is not the first: the accumulator and the output block both end at lists of stores. -/
noncomputable def kernelRun0_C (hc0 : ¬cond0_0 i) (hc1 : cond0_1 i)
    (x0 : Vec F S256x1024 .f32) (x1 : Vec F S1024x1024 .f32) (x2 : Vec F S4x1024 .f32) (xs0 : Vec F S256x1024 .f32) :
    Σ' (L3 : List (View.Piece (Elt F) S256x1024 .f32)), { LS0 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__scnn_layer_kernel i arg2 harg2 arg3 harg3 arg4 harg4 arg5 harg5 arg6 harg6) K } := by
  refine ⟨?_, ?_, fun E K => ?run⟩
  case run =>
    simp only [cc0__scnn_layer_kernel_eq_skeleton]; unfold cc0__scnn_layer_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

theorem hzr0 : (![0, 0] : Fin 2 → Nat) = fun _ => 0 := funext fun a => match a with | ⟨0, _⟩ => rfl | ⟨1, _⟩ => rfl

/-- The stores of a first step cover the accumulator and read back as the block product added onto the zero block. -/
theorem readA0 (hc0 : cond0_0 i) (hc1 : ¬cond0_1 i) (x0 : Vec F S256x1024 .f32) (x1 : Vec F S1024x1024 .f32) (x2 : Vec F S4x1024 .f32) {v : View sig .tc .vmem S256x1024 .f32} {f : v.ty.Contents (Elt F)} :
    v.read (Elt F) (v.writes (Elt F) f (kernelRun0_A c i arg2 harg2 arg3 harg3 arg4 harg4 arg5 harg5 arg6 harg6 hc0 hc1 x0 x1 x2).1) = k0_pay2 x0 x1 k0_pay1 := by
  rw [View.read_writes_eq_canon _ _ _ (View.cover_of_tiledL (kernelRun0_A c i arg2 harg2 arg3 harg3 arg4 harg4 arg5 harg5 arg6 harg6 hc0 hc1 x0 x1 x2).1 S256x1024.size (by sl_kernel_rfl))]
  unfold kernelRun0_A
  dsimp only
  sl_unfold_words
  rw [View.canon_cons_unit_zero (S := S256x1024) hzr0]
  simp only [View.readAt_eq_ld, harg2.read_unread, harg3.read_unread, harg4.read_unread, harg6.read_unread, View.ld_unit_zero (S := S256x1024) hzr0, View.ld_unit_zero (S := S1024x1024) hzr0, View.ld_unit_zero (S := S4x1024) hzr0, View.readCov_unit_zero (S := S256x1024) _ hzr0]

/-- Those of a later step read back as the block product added onto what the accumulator held. -/
theorem readB0 (hc0 : ¬cond0_0 i) (hc1 : ¬cond0_1 i) (x0 : Vec F S256x1024 .f32) (x1 : Vec F S1024x1024 .f32) (x2 : Vec F S4x1024 .f32) (xs0 : Vec F S256x1024 .f32) {v : View sig .tc .vmem S256x1024 .f32} {f : v.ty.Contents (Elt F)} :
    v.read (Elt F) (v.writes (Elt F) f (kernelRun0_B c i arg2 harg2 arg3 harg3 arg4 harg4 arg5 harg5 arg6 harg6 hc0 hc1 x0 x1 x2 xs0).1) = k0_pay2 x0 x1 xs0 := by
  rw [View.read_writes_eq_canon _ _ _ (View.cover_of_tiledL (kernelRun0_B c i arg2 harg2 arg3 harg3 arg4 harg4 arg5 harg5 arg6 harg6 hc0 hc1 x0 x1 x2 xs0).1 S256x1024.size (by sl_kernel_rfl))]
  unfold kernelRun0_B
  dsimp only
  sl_unfold_words
  rw [View.canon_unit_zero (S := S256x1024) hzr0]
  simp only [View.readAt_eq_ld, harg2.read_unread, harg3.read_unread, harg4.read_unread, harg6.read_unread, View.ld_unit_zero (S := S256x1024) hzr0, View.ld_unit_zero (S := S1024x1024) hzr0, View.ld_unit_zero (S := S4x1024) hzr0, View.readCov_unit_zero (S := S256x1024) _ hzr0]

theorem readC0 (hc0 : ¬cond0_0 i) (hc1 : cond0_1 i) (x0 : Vec F S256x1024 .f32) (x1 : Vec F S1024x1024 .f32) (x2 : Vec F S4x1024 .f32) (xs0 : Vec F S256x1024 .f32) {v : View sig .tc .vmem S256x1024 .f32} {f : v.ty.Contents (Elt F)} :
    v.read (Elt F) (v.writes (Elt F) f (kernelRun0_C c i arg2 harg2 arg3 harg3 arg4 harg4 arg5 harg5 arg6 harg6 hc0 hc1 x0 x1 x2 xs0).2.1) = k0_pay2 x0 x1 xs0 := by
  rw [View.read_writes_eq_canon _ _ _ (View.cover_of_tiledL (kernelRun0_C c i arg2 harg2 arg3 harg3 arg4 harg4 arg5 harg5 arg6 harg6 hc0 hc1 x0 x1 x2 xs0).2.1 S256x1024.size (by sl_kernel_rfl))]
  unfold kernelRun0_C
  dsimp only
  sl_unfold_words
  rw [View.canon_unit_zero (S := S256x1024) hzr0]
  simp only [View.readAt_eq_ld, harg2.read_unread, harg3.read_unread, harg4.read_unread, harg6.read_unread, View.ld_unit_zero (S := S256x1024) hzr0, View.ld_unit_zero (S := S1024x1024) hzr0, View.ld_unit_zero (S := S4x1024) hzr0, View.readCov_unit_zero (S := S256x1024) _ hzr0]

/-- The output block of a last step reads back as the filter sum of the accumulator just stored. -/
theorem readOut0 (hc0 : ¬cond0_0 i) (hc1 : cond0_1 i) (x0 : Vec F S256x1024 .f32) (x1 : Vec F S1024x1024 .f32) (x2 : Vec F S4x1024 .f32) (xs0 : Vec F S256x1024 .f32) {v : View sig .tc .vmem S256x1024 .f32} {f : v.ty.Contents (Elt F)} :
    v.read (Elt F) (v.writes (Elt F) f (kernelRun0_C c i arg2 harg2 arg3 harg3 arg4 harg4 arg5 harg5 arg6 harg6 hc0 hc1 x0 x1 x2 xs0).1) = k0_pay3 (k0_pay2 x0 x1 xs0) x2 := by
  rw [View.read_writes_eq_canon _ _ _ (View.cover_of_tiledL (kernelRun0_C c i arg2 harg2 arg3 harg3 arg4 harg4 arg5 harg5 arg6 harg6 hc0 hc1 x0 x1 x2 xs0).1 S256x1024.size (by sl_kernel_rfl))]
  unfold kernelRun0_C
  dsimp only
  sl_unfold_words
  rw [View.canon_unit_zero (S := S256x1024) hzr0]
  simp only [View.readAt_eq_ld, harg2.read_unread, harg3.read_unread, harg4.read_unread, harg6.read_unread, View.ld_unit_zero (S := S256x1024) hzr0, View.ld_unit_zero (S := S1024x1024) hzr0, View.ld_unit_zero (S := S4x1024) hzr0, View.readCov_unit_zero (S := S256x1024) _ hzr0]

end Cert.KernelIdeal.Reg

end
-- ==== Proof.Reg0.lean ====
import proofs.«146132_j71485435675282_1_alg».proof.Proof.Gen.KernelIdeal.Points
import proofs.«146132_j71485435675282_1_alg».proof.Proof.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem hcond0_0 : ∀ t : Fin cfg0.N, cond0_0 (grid0.coords t) ↔ t.val % 2 = 0 :=
  (by decide +kernel : ∀ t : Fin grid0.N, cond0_0 (grid0.coords t) ↔ t.val % 2 = 0)

theorem hcond0_1 : ∀ t : Fin cfg0.N, cond0_1 (grid0.coords t) ↔ t.val % 2 = 1 :=
  (by decide +kernel : ∀ t : Fin grid0.N, cond0_1 (grid0.coords t) ↔ t.val % 2 = 1)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)

abbrev scM0_0 : Memref sig .tc .vmem S256x1024 .f32 := Memref.whole cc0_scratch0

abbrev restBut0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0_0 fullShare d) ∗ restBut0 c) ∗ (∃ r, prngReg c r)) := by
  unfold Pipeline.ΦA; rw [scopedRest0_split]; simp only [scM0_0, owns_whole]; try rfl

def outIdle0 : Vec F S256x1024 .f32 := View.canon []

abbrev runA0 (c : Dev nD) (t : Fin cfg0.N) (hc0 : cond0_0 (grid0.coords t)) (hc1 : ¬cond0_1 (grid0.coords t)) :=
  kernelRun0_A (F := F) c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t)
abbrev runB0 (c : Dev nD) (t : Fin cfg0.N) (hc0 : ¬cond0_0 (grid0.coords t)) (hc1 : ¬cond0_1 (grid0.coords t)) (xs0 : Vec F S256x1024 .f32) :=
  kernelRun0_B (F := F) c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t) xs0
abbrev runC0 (c : Dev nD) (t : Fin cfg0.N) (hc0 : ¬cond0_0 (grid0.coords t)) (hc1 : cond0_1 (grid0.coords t)) (xs0 : Vec F S256x1024 .f32) :=
  kernelRun0_C (F := F) c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t) xs0

/-- The accumulator after point n: the product of the point's signal and operator blocks, added onto zero when j = 0 and onto the accumulator after point n - 1 otherwise. -/
def accAt0 (c : Dev nD) : (n : ℕ) → n < cfg0.N → Vec F S256x1024 .f32
  | 0, hn => k0_pay2 (iblk0 V c 0 ⟨0, hn⟩) (iblk0 V c 1 ⟨0, hn⟩) k0_pay1
  | n + 1, hn => k0_pay2 (iblk0 V c 0 ⟨n + 1, hn⟩) (iblk0 V c 1 ⟨n + 1, hn⟩)
      (if (n + 1) % 2 = 0 then k0_pay1 else accAt0 c n (Nat.lt_of_succ_lt hn))

theorem accAt0_first (c : Dev nD) (t : Fin cfg0.N) (h0 : t.val % 2 = 0) :
    accAt0 V c t.val t.isLt = k0_pay2 (iblk0 V c 0 t) (iblk0 V c 1 t) k0_pay1 := by
  obtain ⟨n, hn⟩ := t
  cases n with
  | zero => rfl
  | succ n => show k0_pay2 _ _ (if (n + 1) % 2 = 0 then _ else _) = _; rw [if_pos h0]

theorem accAt0_next (c : Dev nD) (t : Fin cfg0.N) (h0 : ¬t.val % 2 = 0) :
    accAt0 V c t.val t.isLt = k0_pay2 (iblk0 V c 0 t) (iblk0 V c 1 t) (accAt0 V c (t.val - 1) (Nat.lt_of_le_of_lt (Nat.sub_le _ _) t.isLt)) := by
  obtain ⟨n, hn⟩ := t
  cases n with
  | zero => exact absurd (Nat.zero_mod _) h0
  | succ n => show k0_pay2 _ _ (if (n + 1) % 2 = 0 then _ else _) = _; rw [if_neg h0]; rfl

/-- The output block after point t: at the last j the filter sum of the accumulator; elsewhere nothing consults it. -/
def outAt0 (c : Dev nD) (t : Fin cfg0.N) : Vec F S256x1024 .f32 :=
  if t.val % 2 = 1 then k0_pay3 (accAt0 V c t.val t.isLt) (iblk0 V c 2 t) else outIdle0

/-- The invariant between points: before the first the entry invariant, afterwards the accumulator at the previous point's value beside the untouched rest. -/
def PhiS0 (c : Dev nD) : (n : ℕ) → n ≤ cfg0.N → sProp 𝕄
  | 0, _ => Pipeline.ΦA spec0 c
  | n + 1, hn => iprop(iprop(owns (c : Thread nD τ) scM0_0 fullShare (accAt0 V c n hn) ∗ restBut0 c) ∗ (∃ r, prngReg c r))

/-- Forgetting what the accumulator holds. -/
theorem PhiS0_weaken (c : Dev nD) (n : ℕ) (h : n ≤ cfg0.N) :
    PhiS0 V c n h ⊢ iprop(iprop((∃ d, owns (c : Thread nD τ) scM0_0 fullShare d) ∗ restBut0 c) ∗ (∃ r, prngReg c r)) := by
  cases n with
  | zero => rw [show PhiS0 V c 0 h = Pipeline.ΦA spec0 c from rfl, PhiA0_eq]
  | succ n =>
    show iprop(iprop(owns (c : Thread nD τ) scM0_0 fullShare (accAt0 V c n h) ∗ restBut0 c) ∗ (∃ r, prngReg c r)) ⊢ _
    iintro ⟨⟨HS0, Hsr⟩, Hg⟩
    isplitl [HS0 Hsr]
    · isplitl [HS0]
      · iexists _; iexact HS0
      iexact Hsr
    iexact Hg

theorem PhiS0_pos (c : Dev nD) (n : ℕ) (h : n ≤ cfg0.N) (hz : n ≠ 0) :
    PhiS0 V c n h = iprop(iprop(owns (c : Thread nD τ) scM0_0 fullShare (accAt0 V c (n - 1) (by omega)) ∗ restBut0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

theorem bodyAt0_eq (t : Fin cfg0.N) : bodyAt0 (F := F) t = cc0__scnn_layer_kernel (grid0.coords t) (ms0_0 t) (hs0_0 t) (ms0_1 t) (hs0_1 t) (ms0_2 t) (hs0_2 t) (ms0_3 t) (hs0_3 t) scM0_0 (Memref.isWhole_whole _) := rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- One point of the grid. The residue of t says which case the body runs; the invariant hands it the accumulator and takes it back at this point's value, and where nothing is stored into the output block it goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  rw [bodyAt0_eq]
  simp only [before0_0, before0_1, before0_2]
  rw [show (dat0 V c).owesAt () t.succ = (dat0 V c).owesAt () t.castSucc from rfl]
  rw [show (dat0 V c).Φ t.succ = iprop(iprop(owns (c : Thread nD τ) scM0_0 fullShare (accAt0 V c t.val t.isLt) ∗ restBut0 c) ∗ (∃ r, prngReg c r)) from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [PhiS0_castSucc V c t]
  by_cases h1 : t.val % 2 = 1
  · have h0 : ¬t.val % 2 = 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    rw [show outAt0 V c t = k0_pay3 (accAt0 V c t.val t.isLt) (iblk0 V c 2 t) from if_pos h1, accAt0_next V c t h0,
      PhiS0_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runC0 V c t (fun h => h0 ((hcond0_0 t).mp h)) ((hcond0_1 t).mpr h1) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hsr Hg]
    · isplitl [HS0 Hsr]
      · isplitl [HS0]
        · unfold owns; iexists _; isplitr
          swap; · iexact HS0
          ipureintro; apply readC0
        iexact Hsr
      iexact Hg
    isplitl [Ho]; · iexact Ho
    isplitl [H0]; · iexact H0
    isplitl [H1]; · iexact H1
    isplitl [H2]; · iexact H2
    unfold owns; iexists _; isplitr
    swap; · iexact H3
    ipureintro; apply readOut0
  rw [Dat.leavesExact_idle (dat0 V c) 3 t (idleAt0_3 t (fun h => h1 ((hcond0_1 t).mp h))) (noFlush0_3 t (fun h => h1 ((hcond0_1 t).mp h)))]
  by_cases h0 : t.val % 2 = 0
  · rw [accAt0_first V c t h0]
    iintro ⟨HP, Ho, ⟨%d0, H0⟩, ⟨%d1, H1⟩, ⟨%d2, H2⟩, ⟨%d3, H3⟩⟩
    ihave HQ := (PhiS0_weaken V c _ _) $$ HP
    icases HQ with ⟨⟨HS0, Hsr⟩, Hg⟩
    iapply ((runA0 V c t ((hcond0_0 t).mpr h0) (fun h => h1 ((hcond0_1 t).mp h))).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readA0
        iexact Hsr
      iexact Hg
    isplitl [Ho]; · iexact Ho
    isplitl [H0]; · iexact H0
    isplitl [H1]; · iexact H1
    isplitl [H2]; · iexact H2
    iexists _; iexact H3
  · rw [accAt0_next V c t h0, PhiS0_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runB0 V c t (fun h => h0 ((hcond0_0 t).mp h)) (fun h => h1 ((hcond0_1 t).mp h)) _).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readB0
        iexact Hsr
      iexact Hg
    isplitl [Ho]; · iexact Ho
    isplitl [H0]; · iexact H0
    isplitl [H1]; · iexact H1
    isplitl [H2]; · iexact H2
    iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = Pipeline.ΦA spec0 c from rfl]

theorem hout0 (c : Dev nD) : (dat0 V c).Φ (Fin.last cfg0.N) ⊢ (Pipeline.ΦA spec0 c : sProp 𝕄) := by
  rw [PhiA0_eq, show (dat0 V c).Φ (Fin.last cfg0.N) = PhiS0 V c (Fin.last cfg0.N).val (Nat.le_of_lt_succ (Fin.last cfg0.N).isLt) from rfl]
  exact PhiS0_weaken V c _ _

end Cert.KernelIdeal.Reg

end
-- ==== Proof.Reg1.lean ====

import proofs.«146132_j71485435675282_1_alg».proof.Proof.Gen.KernelIdeal.Points
import proofs.«146132_j71485435675282_1_alg».proof.Proof.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem hcond1_0 : ∀ t : Fin cfg1.N, cond0_0 (grid1.coords t) ↔ t.val % 2 = 0 :=
  (by decide +kernel : ∀ t : Fin grid1.N, cond0_0 (grid1.coords t) ↔ t.val % 2 = 0)

theorem hcond1_1 : ∀ t : Fin cfg1.N, cond0_1 (grid1.coords t) ↔ t.val % 2 = 1 :=
  (by decide +kernel : ∀ t : Fin grid1.N, cond0_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond0_1 (grid1.coords t) → cfg1.idle 3 (grid1.coords t) = true := by decide +kernel
theorem noFlush1_3 : ∀ t : Fin cfg1.N, ¬cond0_1 (grid1.coords t) → (cfg1.win 3).flush t = false := by decide +kernel
theorem liveAt1_3 : ∀ t : Fin cfg1.N, cond0_1 (grid1.coords t) → cfg1.idle 3 (grid1.coords t) = false := by decide +kernel

abbrev ms1_0 (t : Fin cfg1.N) : Memref sig .tc .vmem S256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .f32 := win1_3.stage (cfg1.slots t 3)
abbrev hs1_3 (t : Fin cfg1.N) : (ms1_3 t).IsWhole := hstage1_3 ((cfg1.slots t 3).cast nbuf1_3)

abbrev scM1_0 : Memref sig .tc .vmem S256x1024 .f32 := Memref.whole cc1_scratch0

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ restBut1 c) ∗ (∃ r, prngReg c r)) := by
  unfold Pipeline.ΦA; rw [scopedRest1_split]; simp only [scM1_0, owns_whole]; try rfl

def outIdle1 : Vec F S256x1024 .f32 := View.canon []

abbrev runA1 (c : Dev nD) (t : Fin cfg1.N) (hc0 : cond0_0 (grid1.coords t)) (hc1 : ¬cond0_1 (grid1.coords t)) :=
  kernelRun0_A (F := F) c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t)
abbrev runB1 (c : Dev nD) (t : Fin cfg1.N) (hc0 : ¬cond0_0 (grid1.coords t)) (hc1 : ¬cond0_1 (grid1.coords t)) (xs0 : Vec F S256x1024 .f32) :=
  kernelRun0_B (F := F) c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) xs0
abbrev runC1 (c : Dev nD) (t : Fin cfg1.N) (hc0 : ¬cond0_0 (grid1.coords t)) (hc1 : cond0_1 (grid1.coords t)) (xs0 : Vec F S256x1024 .f32) :=
  kernelRun0_C (F := F) c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) xs0

/-- The accumulator after point n: the product of the point's signal and operator blocks, added onto zero when j = 0 and onto the accumulator after point n - 1 otherwise. -/
def accAt1 (c : Dev nD) : (n : ℕ) → n < cfg1.N → Vec F S256x1024 .f32
  | 0, hn => k0_pay2 (iblk1 V c 0 ⟨0, hn⟩) (iblk1 V c 1 ⟨0, hn⟩) k0_pay1
  | n + 1, hn => k0_pay2 (iblk1 V c 0 ⟨n + 1, hn⟩) (iblk1 V c 1 ⟨n + 1, hn⟩)
      (if (n + 1) % 2 = 0 then k0_pay1 else accAt1 c n (Nat.lt_of_succ_lt hn))

theorem accAt1_first (c : Dev nD) (t : Fin cfg1.N) (h0 : t.val % 2 = 0) :
    accAt1 V c t.val t.isLt = k0_pay2 (iblk1 V c 0 t) (iblk1 V c 1 t) k0_pay1 := by
  obtain ⟨n, hn⟩ := t
  cases n with
  | zero => rfl
  | succ n => show k0_pay2 _ _ (if (n + 1) % 2 = 0 then _ else _) = _; rw [if_pos h0]

theorem accAt1_next (c : Dev nD) (t : Fin cfg1.N) (h0 : ¬t.val % 2 = 0) :
    accAt1 V c t.val t.isLt = k0_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => show k0_pay2 _ _ (if (n + 1) % 2 = 0 then _ else _) = _; rw [if_neg h0]; rfl

/-- The output block after point t: at the last j the filter sum of the accumulator; elsewhere nothing consults it. -/
def outAt1 (c : Dev nD) (t : Fin cfg1.N) : Vec F S256x1024 .f32 :=
  if t.val % 2 = 1 then k0_pay3 (accAt1 V c t.val t.isLt) (iblk1 V c 2 t) else outIdle1

/-- The invariant between points: before the first the entry invariant, afterwards the accumulator at the previous point's value beside the untouched rest. -/
def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ restBut1 c) ∗ (∃ r, prngReg c r))

/-- Forgetting what the accumulator holds. -/
theorem PhiS1_weaken (c : Dev nD) (n : ℕ) (h : n ≤ cfg1.N) :
    PhiS1 V c n h ⊢ iprop(iprop((∃ d, owns (c : Thread nD τ) scM1_0 fullShare d) ∗ restBut1 c) ∗ (∃ r, prngReg c r)) := by
  cases n with
  | zero => rw [show PhiS1 V c 0 h = Pipeline.ΦA spec1 c from rfl, PhiA1_eq]
  | succ n =>
    show iprop(iprop(owns (c : Thread nD τ) scM1_0 fullShare (accAt1 V c n h) ∗ restBut1 c) ∗ (∃ r, prngReg c r)) ⊢ _
    iintro ⟨⟨HS0, Hsr⟩, Hg⟩
    isplitl [HS0 Hsr]
    · isplitl [HS0]
      · iexists _; iexact HS0
      iexact Hsr
    iexact Hg

theorem PhiS1_pos (c : Dev nD) (n : ℕ) (h : n ≤ cfg1.N) (hz : n ≠ 0) :
    PhiS1 V c n h = iprop(iprop(owns (c : Thread nD τ) scM1_0 fullShare (accAt1 V c (n - 1) (by omega)) ∗ restBut1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

theorem bodyAt1_eq (t : Fin cfg1.N) : bodyAt1 (F := F) t = cc0__scnn_layer_kernel (grid1.coords t) (ms1_0 t) (hs1_0 t) (ms1_1 t) (hs1_1 t) (ms1_2 t) (hs1_2 t) (ms1_3 t) (hs1_3 t) scM1_0 (Memref.isWhole_whole _) := rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- One point of the grid. The residue of t says which case the body runs; the invariant hands it the accumulator and takes it back at this point's value, and where nothing is stored into the output block it goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  rw [bodyAt1_eq]
  simp only [before1_0, before1_1, before1_2]
  rw [show (dat1 V c).owesAt () t.succ = (dat1 V c).owesAt () t.castSucc from rfl]
  rw [show (dat1 V c).Φ t.succ = iprop(iprop(owns (c : Thread nD τ) scM1_0 fullShare (accAt1 V c t.val t.isLt) ∗ restBut1 c) ∗ (∃ r, prngReg c r)) from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [PhiS1_castSucc V c t]
  by_cases h1 : t.val % 2 = 1
  · have h0 : ¬t.val % 2 = 0 := by omega
    rw [show (dat1 V c).leavesExact 3 t = owns (c : Thread nD τ) (ms1_3 t) fullShare ((dat1 V c).after 3 t) from by
      unfold Dat.leavesExact; rw [liveAt1_3 t ((hcond1_1 t).mpr h1)], after1_3]
    rw [show outAt1 V c t = k0_pay3 (accAt1 V c t.val t.isLt) (iblk1 V c 2 t) from if_pos h1, accAt1_next V c t h0,
      PhiS1_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runC1 V c t (fun h => h0 ((hcond1_0 t).mp h)) ((hcond1_1 t).mpr h1) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hsr Hg]
    · isplitl [HS0 Hsr]
      · isplitl [HS0]
        · unfold owns; iexists _; isplitr
          swap; · iexact HS0
          ipureintro; apply readC0
        iexact Hsr
      iexact Hg
    isplitl [Ho]; · iexact Ho
    isplitl [H0]; · iexact H0
    isplitl [H1]; · iexact H1
    isplitl [H2]; · iexact H2
    unfold owns; iexists _; isplitr
    swap; · iexact H3
    ipureintro; apply readOut0
  rw [Dat.leavesExact_idle (dat1 V c) 3 t (idleAt1_3 t (fun h => h1 ((hcond1_1 t).mp h))) (noFlush1_3 t (fun h => h1 ((hcond1_1 t).mp h)))]
  by_cases h0 : t.val % 2 = 0
  · rw [accAt1_first V c t h0]
    iintro ⟨HP, Ho, ⟨%d0, H0⟩, ⟨%d1, H1⟩, ⟨%d2, H2⟩, ⟨%d3, H3⟩⟩
    ihave HQ := (PhiS1_weaken V c _ _) $$ HP
    icases HQ with ⟨⟨HS0, Hsr⟩, Hg⟩
    iapply ((runA1 V c t ((hcond1_0 t).mpr h0) (fun h => h1 ((hcond1_1 t).mp h))).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readA0
        iexact Hsr
      iexact Hg
    isplitl [Ho]; · iexact Ho
    isplitl [H0]; · iexact H0
    isplitl [H1]; · iexact H1
    isplitl [H2]; · iexact H2
    iexists _; iexact H3
  · rw [accAt1_next V c t h0, PhiS1_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runB1 V c t (fun h => h0 ((hcond1_0 t).mp h)) (fun h => h1 ((hcond1_1 t).mp h)) _).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readB0
        iexact Hsr
      iexact Hg
    isplitl [Ho]; · iexact Ho
    isplitl [H0]; · iexact H0
    isplitl [H1]; · iexact H1
    isplitl [H2]; · iexact H2
    iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = Pipeline.ΦA spec1 c from rfl]

theorem hout1 (c : Dev nD) : (dat1 V c).Φ (Fin.last cfg1.N) ⊢ (Pipeline.ΦA spec1 c : sProp 𝕄) := by
  rw [PhiA1_eq, show (dat1 V c).Φ (Fin.last cfg1.N) = PhiS1 V c (Fin.last cfg1.N).val (Nat.le_of_lt_succ (Fin.last cfg1.N).isLt) from rfl]
  exact PhiS1_weaken V c _ _

end Cert.KernelIdeal.Reg

end
-- ==== Proof.Body2.lean ====
import proofs.«146132_j71485435675282_1_alg».proof.Proof.Gen.KernelIdeal.Launch
import proofs.«146132_j71485435675282_1_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tests of the body on the contraction step j: whether it is the first, and whether it is the last. -/
abbrev cond2_0 (i : grid2.Coords) : Prop := (Scalar.cmpi .ne (Scalar.extui (Scalar.cmpi .eq (BitVec.ofNat 32 (i 1).val) 0#32)) 0#32) = 1#1
abbrev cond2_1 (i : grid2.Coords) : Prop := k2_cond2 i = 1#1

variable (c : Dev nD) (i : grid2.Coords) (arg2 : Memref sig .tc .vmem S256x1024 .f32) (harg2 : arg2.IsWhole) (arg3 : Memref sig .tc .vmem S1024x1024 .f32) (harg3 : arg3.IsWhole) (arg4 : Memref sig .tc .vmem S4x1024 .f32) (harg4 : arg4.IsWhole) (arg5 : Memref sig .tc .vmem S256x1024 .f32) (harg5 : arg5.IsWhole) (arg6 : Memref sig .tc .vmem S256x1024 .f32) (harg6 : arg6.IsWhole)

set_option maxHeartbeats 1000000 in
/-- A first step that is not the last: the accumulator, whatever it held, ends at a list of stores; the three inputs and the output block come back as they were. -/
noncomputable def kernelRun2_A (hc0 : cond2_0 i) (hc1 : ¬cond2_1 i)
    (x0 : Vec F S256x1024 .f32) (x1 : Vec F S1024x1024 .f32) (x2 : Vec F S4x1024 .f32) :
    { LS0 : List (View.Piece (Elt F) S256x1024 .f32) //
      ∀ (xi3 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scnn_layer_kernel i arg2 harg2 arg3 harg3 arg4 harg4 arg5 harg5 arg6 harg6) K } := by
  refine ⟨?_, fun xi3 E K => ?run⟩
  case run =>
    simp only [cc2__scnn_layer_kernel_eq_skeleton]; unfold cc2__scnn_layer_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- A step that is neither first nor last: the same, from an accumulator whose contents are known. -/
noncomputable def kernelRun2_B (hc0 : ¬cond2_0 i) (hc1 : ¬cond2_1 i)
    (x0 : Vec F S256x1024 .f32) (x1 : Vec F S1024x1024 .f32) (x2 : Vec F S4x1024 .f32) (xs0 : Vec F S256x1024 .f32) :
    { LS0 : List (View.Piece (Elt F) S256x1024 .f32) //
      ∀ (xi3 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scnn_layer_kernel i arg2 harg2 arg3 harg3 arg4 harg4 arg5 harg5 arg6 harg6) K } := by
  refine ⟨?_, fun xi3 E K => ?run⟩
  case run =>
    simp only [cc2__scnn_layer_kernel_eq_skeleton]; unfold cc2__scnn_layer_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- A last step that is not the first: the accumulator and the output block both end at lists of stores. -/
noncomputable def kernelRun2_C (hc0 : ¬cond2_0 i) (hc1 : cond2_1 i)
    (x0 : Vec F S256x1024 .f32) (x1 : Vec F S1024x1024 .f32) (x2 : Vec F S4x1024 .f32) (xs0 : Vec F S256x1024 .f32) :
    Σ' (L3 : List (View.Piece (Elt F) S256x1024 .f32)), { LS0 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__scnn_layer_kernel i arg2 harg2 arg3 harg3 arg4 harg4 arg5 harg5 arg6 harg6) K } := by
  refine ⟨?_, ?_, fun E K => ?run⟩
  case run =>
    simp only [cc2__scnn_layer_kernel_eq_skeleton]; unfold cc2__scnn_layer_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

theorem hzr2 : (![0, 0] : Fin 2 → Nat) = fun _ => 0 := funext fun a => match a with | ⟨0, _⟩ => rfl | ⟨1, _⟩ => rfl

/-- The stores of a first step cover the accumulator and read back as the block product added onto the zero block. -/
theorem readA2 (hc0 : cond2_0 i) (hc1 : ¬cond2_1 i) (x0 : Vec F S256x1024 .f32) (x1 : Vec F S1024x1024 .f32) (x2 : Vec F S4x1024 .f32) {v : View sig .tc .vmem S256x1024 .f32} {f : v.ty.Contents (Elt F)} :
    v.read (Elt F) (v.writes (Elt F) f (kernelRun2_A c i arg2 harg2 arg3 harg3 arg4 harg4 arg5 harg5 arg6 harg6 hc0 hc1 x0 x1 x2).1) = k2_pay2 x0 x1 k2_pay1 := by
  rw [View.read_writes_eq_canon _ _ _ (View.cover_of_tiledL (kernelRun2_A c i arg2 harg2 arg3 harg3 arg4 harg4 arg5 harg5 arg6 harg6 hc0 hc1 x0 x1 x2).1 S256x1024.size (by sl_kernel_rfl))]
  unfold kernelRun2_A
  dsimp only
  sl_unfold_words
  rw [View.canon_cons_unit_zero (S := S256x1024) hzr2]
  simp only [View.readAt_eq_ld, harg2.read_unread, harg3.read_unread, harg4.read_unread, harg6.read_unread, View.ld_unit_zero (S := S256x1024) hzr2, View.ld_unit_zero (S := S1024x1024) hzr2, View.ld_unit_zero (S := S4x1024) hzr2, View.readCov_unit_zero (S := S256x1024) _ hzr2]

/-- Those of a later step read back as the block product added onto what the accumulator held. -/
theorem readB2 (hc0 : ¬cond2_0 i) (hc1 : ¬cond2_1 i) (x0 : Vec F S256x1024 .f32) (x1 : Vec F S1024x1024 .f32) (x2 : Vec F S4x1024 .f32) (xs0 : Vec F S256x1024 .f32) {v : View sig .tc .vmem S256x1024 .f32} {f : v.ty.Contents (Elt F)} :
    v.read (Elt F) (v.writes (Elt F) f (kernelRun2_B c i arg2 harg2 arg3 harg3 arg4 harg4 arg5 harg5 arg6 harg6 hc0 hc1 x0 x1 x2 xs0).1) = k2_pay2 x0 x1 xs0 := by
  rw [View.read_writes_eq_canon _ _ _ (View.cover_of_tiledL (kernelRun2_B c i arg2 harg2 arg3 harg3 arg4 harg4 arg5 harg5 arg6 harg6 hc0 hc1 x0 x1 x2 xs0).1 S256x1024.size (by sl_kernel_rfl))]
  unfold kernelRun2_B
  dsimp only
  sl_unfold_words
  rw [View.canon_unit_zero (S := S256x1024) hzr2]
  simp only [View.readAt_eq_ld, harg2.read_unread, harg3.read_unread, harg4.read_unread, harg6.read_unread, View.ld_unit_zero (S := S256x1024) hzr2, View.ld_unit_zero (S := S1024x1024) hzr2, View.ld_unit_zero (S := S4x1024) hzr2, View.readCov_unit_zero (S := S256x1024) _ hzr2]

theorem readC2 (hc0 : ¬cond2_0 i) (hc1 : cond2_1 i) (x0 : Vec F S256x1024 .f32) (x1 : Vec F S1024x1024 .f32) (x2 : Vec F S4x1024 .f32) (xs0 : Vec F S256x1024 .f32) {v : View sig .tc .vmem S256x1024 .f32} {f : v.ty.Contents (Elt F)} :
    v.read (Elt F) (v.writes (Elt F) f (kernelRun2_C c i arg2 harg2 arg3 harg3 arg4 harg4 arg5 harg5 arg6 harg6 hc0 hc1 x0 x1 x2 xs0).2.1) = k2_pay2 x0 x1 xs0 := by
  rw [View.read_writes_eq_canon _ _ _ (View.cover_of_tiledL (kernelRun2_C c i arg2 harg2 arg3 harg3 arg4 harg4 arg5 harg5 arg6 harg6 hc0 hc1 x0 x1 x2 xs0).2.1 S256x1024.size (by sl_kernel_rfl))]
  unfold kernelRun2_C
  dsimp only
  sl_unfold_words
  rw [View.canon_unit_zero (S := S256x1024) hzr2]
  simp only [View.readAt_eq_ld, harg2.read_unread, harg3.read_unread, harg4.read_unread, harg6.read_unread, View.ld_unit_zero (S := S256x1024) hzr2, View.ld_unit_zero (S := S1024x1024) hzr2, View.ld_unit_zero (S := S4x1024) hzr2, View.readCov_unit_zero (S := S256x1024) _ hzr2]

/-- The output block of a last step reads back as the filter sum of the accumulator just stored. -/
theorem readOut2 (hc0 : ¬cond2_0 i) (hc1 : cond2_1 i) (x0 : Vec F S256x1024 .f32) (x1 : Vec F S1024x1024 .f32) (x2 : Vec F S4x1024 .f32) (xs0 : Vec F S256x1024 .f32) {v : View sig .tc .vmem S256x1024 .f32} {f : v.ty.Contents (Elt F)} :
    v.read (Elt F) (v.writes (Elt F) f (kernelRun2_C c i arg2 harg2 arg3 harg3 arg4 harg4 arg5 harg5 arg6 harg6 hc0 hc1 x0 x1 x2 xs0).1) = k2_pay3 (k2_pay2 x0 x1 xs0) x2 := by
  rw [View.read_writes_eq_canon _ _ _ (View.cover_of_tiledL (kernelRun2_C c i arg2 harg2 arg3 harg3 arg4 harg4 arg5 harg5 arg6 harg6 hc0 hc1 x0 x1 x2 xs0).1 S256x1024.size (by sl_kernel_rfl))]
  unfold kernelRun2_C
  dsimp only
  sl_unfold_words
  rw [View.canon_unit_zero (S := S256x1024) hzr2]
  simp only [View.readAt_eq_ld, harg2.read_unread, harg3.read_unread, harg4.read_unread, harg6.read_unread, View.ld_unit_zero (S := S256x1024) hzr2, View.ld_unit_zero (S := S1024x1024) hzr2, View.ld_unit_zero (S := S4x1024) hzr2, View.readCov_unit_zero (S := S256x1024) _ hzr2]

end Cert.KernelIdeal.Reg

end
-- ==== Proof.Reg2.lean ====

import proofs.«146132_j71485435675282_1_alg».proof.Proof.Gen.KernelIdeal.Points
import proofs.«146132_j71485435675282_1_alg».proof.Proof.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem hcond2_0 : ∀ t : Fin cfg2.N, cond2_0 (grid2.coords t) ↔ t.val % 4 = 0 :=
  (by decide +kernel : ∀ t : Fin grid2.N, cond2_0 (grid2.coords t) ↔ t.val % 4 = 0)

theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

abbrev ms2_0 (t : Fin cfg2.N) : Memref sig .tc .vmem S256x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x1024 .f32 := win2_3.stage (cfg2.slots t 3)
abbrev hs2_3 (t : Fin cfg2.N) : (ms2_3 t).IsWhole := hstage2_3 ((cfg2.slots t 3).cast nbuf2_3)

abbrev scM2_0 : Memref sig .tc .vmem S256x1024 .f32 := Memref.whole cc2_scratch0

abbrev restBut2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ restBut2 c) ∗ (∃ r, prngReg c r)) := by
  unfold Pipeline.ΦA; rw [scopedRest2_split]; simp only [scM2_0, owns_whole]; try rfl

def outIdle2 : Vec F S256x1024 .f32 := View.canon []

abbrev runA2 (c : Dev nD) (t : Fin cfg2.N) (hc0 : cond2_0 (grid2.coords t)) (hc1 : ¬cond2_1 (grid2.coords t)) :=
  kernelRun2_A (F := F) c (grid2.coords t) (ms2_0 t) (hs2_0 t) (ms2_1 t) (hs2_1 t) (ms2_2 t) (hs2_2 t) (ms2_3 t) (hs2_3 t) scM2_0 (Memref.isWhole_whole _) hc0 hc1 (iblk2 V c 0 t) (iblk2 V c 1 t) (iblk2 V c 2 t)
abbrev runB2 (c : Dev nD) (t : Fin cfg2.N) (hc0 : ¬cond2_0 (grid2.coords t)) (hc1 : ¬cond2_1 (grid2.coords t)) (xs0 : Vec F S256x1024 .f32) :=
  kernelRun2_B (F := F) c (grid2.coords t) (ms2_0 t) (hs2_0 t) (ms2_1 t) (hs2_1 t) (ms2_2 t) (hs2_2 t) (ms2_3 t) (hs2_3 t) scM2_0 (Memref.isWhole_whole _) hc0 hc1 (iblk2 V c 0 t) (iblk2 V c 1 t) (iblk2 V c 2 t) xs0
abbrev runC2 (c : Dev nD) (t : Fin cfg2.N) (hc0 : ¬cond2_0 (grid2.coords t)) (hc1 : cond2_1 (grid2.coords t)) (xs0 : Vec F S256x1024 .f32) :=
  kernelRun2_C (F := F) c (grid2.coords t) (ms2_0 t) (hs2_0 t) (ms2_1 t) (hs2_1 t) (ms2_2 t) (hs2_2 t) (ms2_3 t) (hs2_3 t) scM2_0 (Memref.isWhole_whole _) hc0 hc1 (iblk2 V c 0 t) (iblk2 V c 1 t) (iblk2 V c 2 t) xs0

/-- The accumulator after point n: the product of the point's signal and operator blocks, added onto zero when j = 0 and onto the accumulator after point n - 1 otherwise. -/
def accAt2 (c : Dev nD) : (n : ℕ) → n < cfg2.N → Vec F S256x1024 .f32
  | 0, hn => k2_pay2 (iblk2 V c 0 ⟨0, hn⟩) (iblk2 V c 1 ⟨0, hn⟩) k2_pay1
  | n + 1, hn => k2_pay2 (iblk2 V c 0 ⟨n + 1, hn⟩) (iblk2 V c 1 ⟨n + 1, hn⟩)
      (if (n + 1) % 4 = 0 then k2_pay1 else accAt2 c n (Nat.lt_of_succ_lt hn))

theorem accAt2_first (c : Dev nD) (t : Fin cfg2.N) (h0 : t.val % 4 = 0) :
    accAt2 V c t.val t.isLt = k2_pay2 (iblk2 V c 0 t) (iblk2 V c 1 t) k2_pay1 := by
  obtain ⟨n, hn⟩ := t
  cases n with
  | zero => rfl
  | succ n => show k2_pay2 _ _ (if (n + 1) % 4 = 0 then _ else _) = _; rw [if_pos h0]

theorem accAt2_next (c : Dev nD) (t : Fin cfg2.N) (h0 : ¬t.val % 4 = 0) :
    accAt2 V c t.val t.isLt = k2_pay2 (iblk2 V c 0 t) (iblk2 V c 1 t) (accAt2 V c (t.val - 1) (Nat.lt_of_le_of_lt (Nat.sub_le _ _) t.isLt)) := by
  obtain ⟨n, hn⟩ := t
  cases n with
  | zero => exact absurd (Nat.zero_mod _) h0
  | succ n => show k2_pay2 _ _ (if (n + 1) % 4 = 0 then _ else _) = _; rw [if_neg h0]; rfl

/-- The output block after point t: at the last j the filter sum of the accumulator; elsewhere nothing consults it. -/
def outAt2 (c : Dev nD) (t : Fin cfg2.N) : Vec F S256x1024 .f32 :=
  if t.val % 4 = 3 then k2_pay3 (accAt2 V c t.val t.isLt) (iblk2 V c 2 t) else outIdle2

/-- The invariant between points: before the first the entry invariant, afterwards the accumulator at the previous point's value beside the untouched rest. -/
def PhiS2 (c : Dev nD) : (n : ℕ) → n ≤ cfg2.N → sProp 𝕄
  | 0, _ => Pipeline.ΦA spec2 c
  | n + 1, hn => iprop(iprop(owns (c : Thread nD τ) scM2_0 fullShare (accAt2 V c n hn) ∗ restBut2 c) ∗ (∃ r, prngReg c r))

/-- Forgetting what the accumulator holds. -/
theorem PhiS2_weaken (c : Dev nD) (n : ℕ) (h : n ≤ cfg2.N) :
    PhiS2 V c n h ⊢ iprop(iprop((∃ d, owns (c : Thread nD τ) scM2_0 fullShare d) ∗ restBut2 c) ∗ (∃ r, prngReg c r)) := by
  cases n with
  | zero => rw [show PhiS2 V c 0 h = Pipeline.ΦA spec2 c from rfl, PhiA2_eq]
  | succ n =>
    show iprop(iprop(owns (c : Thread nD τ) scM2_0 fullShare (accAt2 V c n h) ∗ restBut2 c) ∗ (∃ r, prngReg c r)) ⊢ _
    iintro ⟨⟨HS0, Hsr⟩, Hg⟩
    isplitl [HS0 Hsr]
    · isplitl [HS0]
      · iexists _; iexact HS0
      iexact Hsr
    iexact Hg

theorem PhiS2_pos (c : Dev nD) (n : ℕ) (h : n ≤ cfg2.N) (hz : n ≠ 0) :
    PhiS2 V c n h = iprop(iprop(owns (c : Thread nD τ) scM2_0 fullShare (accAt2 V c (n - 1) (by omega)) ∗ restBut2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

theorem bodyAt2_eq (t : Fin cfg2.N) : bodyAt2 (F := F) t = cc2__scnn_layer_kernel (grid2.coords t) (ms2_0 t) (hs2_0 t) (ms2_1 t) (hs2_1 t) (ms2_2 t) (hs2_2 t) (ms2_3 t) (hs2_3 t) scM2_0 (Memref.isWhole_whole _) := rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- One point of the grid. The residue of t says which case the body runs; the invariant hands it the accumulator and takes it back at this point's value, and where nothing is stored into the output block it goes back as it came. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  rw [bodyAt2_eq]
  simp only [before2_0, before2_1, before2_2]
  rw [show (dat2 V c).owesAt () t.succ = (dat2 V c).owesAt () t.castSucc from rfl]
  rw [show (dat2 V c).Φ t.succ = iprop(iprop(owns (c : Thread nD τ) scM2_0 fullShare (accAt2 V c t.val t.isLt) ∗ restBut2 c) ∗ (∃ r, prngReg c r)) from rfl]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [PhiS2_castSucc V c t]
  by_cases h1 : t.val % 4 = 3
  · have h0 : ¬t.val % 4 = 0 := by omega
    rw [show (dat2 V c).leavesExact 3 t = owns (c : Thread nD τ) (ms2_3 t) fullShare ((dat2 V c).after 3 t) from by
      unfold Dat.leavesExact; rw [liveAt2_3 t ((hcond2_1 t).mpr h1)], after2_3]
    rw [show outAt2 V c t = k2_pay3 (accAt2 V c t.val t.isLt) (iblk2 V c 2 t) from if_pos h1, accAt2_next V c t h0,
      PhiS2_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runC2 V c t (fun h => h0 ((hcond2_0 t).mp h)) ((hcond2_1 t).mpr h1) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hsr Hg]
    · isplitl [HS0 Hsr]
      · isplitl [HS0]
        · unfold owns; iexists _; isplitr
          swap; · iexact HS0
          ipureintro; apply readC2
        iexact Hsr
      iexact Hg
    isplitl [Ho]; · iexact Ho
    isplitl [H0]; · iexact H0
    isplitl [H1]; · iexact H1
    isplitl [H2]; · iexact H2
    unfold owns; iexists _; isplitr
    swap; · iexact H3
    ipureintro; apply readOut2
  rw [Dat.leavesExact_idle (dat2 V c) 3 t (idleAt2_3 t (fun h => h1 ((hcond2_1 t).mp h))) (noFlush2_3 t (fun h => h1 ((hcond2_1 t).mp h)))]
  by_cases h0 : t.val % 4 = 0
  · rw [accAt2_first V c t h0]
    iintro ⟨HP, Ho, ⟨%d0, H0⟩, ⟨%d1, H1⟩, ⟨%d2, H2⟩, ⟨%d3, H3⟩⟩
    ihave HQ := (PhiS2_weaken V c _ _) $$ HP
    icases HQ with ⟨⟨HS0, Hsr⟩, Hg⟩
    iapply ((runA2 V c t ((hcond2_0 t).mpr h0) (fun h => h1 ((hcond2_1 t).mp h))).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readA2
        iexact Hsr
      iexact Hg
    isplitl [Ho]; · iexact Ho
    isplitl [H0]; · iexact H0
    isplitl [H1]; · iexact H1
    isplitl [H2]; · iexact H2
    iexists _; iexact H3
  · rw [accAt2_next V c t h0, PhiS2_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runB2 V c t (fun h => h0 ((hcond2_0 t).mp h)) (fun h => h1 ((hcond2_1 t).mp h)) _).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readB2
        iexact Hsr
      iexact Hg
    isplitl [Ho]; · iexact Ho
    isplitl [H0]; · iexact H0
    isplitl [H1]; · iexact H1
    isplitl [H2]; · iexact H2
    iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = Pipeline.ΦA spec2 c from rfl]

theorem hout2 (c : Dev nD) : (dat2 V c).Φ (Fin.last cfg2.N) ⊢ (Pipeline.ΦA spec2 c : sProp 𝕄) := by
  rw [PhiA2_eq, show (dat2 V c).Φ (Fin.last cfg2.N) = PhiS2 V c (Fin.last cfg2.N).val (Nat.le_of_lt_succ (Fin.last cfg2.N).isLt) from rfl]
  exact PhiS2_weaken V c _ _

end Cert.KernelIdeal.Reg

end
-- ==== Proof.Reg3.lean ====

import proofs.«146132_j71485435675282_1_alg».proof.Proof.Gen.KernelIdeal.Points
import proofs.«146132_j71485435675282_1_alg».proof.Proof.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region is entered with. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem hcond3_0 : ∀ t : Fin cfg3.N, cond2_0 (grid3.coords t) ↔ t.val % 4 = 0 :=
  (by decide +kernel : ∀ t : Fin grid3.N, cond2_0 (grid3.coords t) ↔ t.val % 4 = 0)

theorem hcond3_1 : ∀ t : Fin cfg3.N, cond2_1 (grid3.coords t) ↔ t.val % 4 = 3 :=
  (by decide +kernel : ∀ t : Fin grid3.N, cond2_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3 : ∀ t : Fin cfg3.N, ¬cond2_1 (grid3.coords t) → cfg3.idle 3 (grid3.coords t) = true := by decide +kernel
theorem noFlush3_3 : ∀ t : Fin cfg3.N, ¬cond2_1 (grid3.coords t) → (cfg3.win 3).flush t = false := by decide +kernel
theorem liveAt3_3 : ∀ t : Fin cfg3.N, cond2_1 (grid3.coords t) → cfg3.idle 3 (grid3.coords t) = false := by decide +kernel

abbrev ms3_0 (t : Fin cfg3.N) : Memref sig .tc .vmem S256x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S4x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S256x1024 .f32 := win3_3.stage (cfg3.slots t 3)
abbrev hs3_3 (t : Fin cfg3.N) : (ms3_3 t).IsWhole := hstage3_3 ((cfg3.slots t 3).cast nbuf3_3)

abbrev scM3_0 : Memref sig .tc .vmem S256x1024 .f32 := Memref.whole cc3_scratch0

abbrev restBut3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop((∃ d, owns (c : Thread nD τ) scM3_0 fullShare d) ∗ restBut3 c) ∗ (∃ r, prngReg c r)) := by
  unfold Pipeline.ΦA; rw [scopedRest3_split]; simp only [scM3_0, owns_whole]; try rfl

def outIdle3 : Vec F S256x1024 .f32 := View.canon []

abbrev runA3 (c : Dev nD) (t : Fin cfg3.N) (hc0 : cond2_0 (grid3.coords t)) (hc1 : ¬cond2_1 (grid3.coords t)) :=
  kernelRun2_A (F := F) c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t)
abbrev runB3 (c : Dev nD) (t : Fin cfg3.N) (hc0 : ¬cond2_0 (grid3.coords t)) (hc1 : ¬cond2_1 (grid3.coords t)) (xs0 : Vec F S256x1024 .f32) :=
  kernelRun2_B (F := F) c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t) xs0
abbrev runC3 (c : Dev nD) (t : Fin cfg3.N) (hc0 : ¬cond2_0 (grid3.coords t)) (hc1 : cond2_1 (grid3.coords t)) (xs0 : Vec F S256x1024 .f32) :=
  kernelRun2_C (F := F) c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t) xs0

/-- The accumulator after point n: the product of the point's signal and operator blocks, added onto zero when j = 0 and onto the accumulator after point n - 1 otherwise. -/
def accAt3 (c : Dev nD) : (n : ℕ) → n < cfg3.N → Vec F S256x1024 .f32
  | 0, hn => k2_pay2 (iblk3 V c 0 ⟨0, hn⟩) (iblk3 V c 1 ⟨0, hn⟩) k2_pay1
  | n + 1, hn => k2_pay2 (iblk3 V c 0 ⟨n + 1, hn⟩) (iblk3 V c 1 ⟨n + 1, hn⟩)
      (if (n + 1) % 4 = 0 then k2_pay1 else accAt3 c n (Nat.lt_of_succ_lt hn))

theorem accAt3_first (c : Dev nD) (t : Fin cfg3.N) (h0 : t.val % 4 = 0) :
    accAt3 V c t.val t.isLt = k2_pay2 (iblk3 V c 0 t) (iblk3 V c 1 t) k2_pay1 := by
  obtain ⟨n, hn⟩ := t
  cases n with
  | zero => rfl
  | succ n => show k2_pay2 _ _ (if (n + 1) % 4 = 0 then _ else _) = _; rw [if_pos h0]

theorem accAt3_next (c : Dev nD) (t : Fin cfg3.N) (h0 : ¬t.val % 4 = 0) :
    accAt3 V c t.val t.isLt = k2_pay2 (iblk3 V c 0 t) (iblk3 V c 1 t) (accAt3 V c (t.val - 1) (Nat.lt_of_le_of_lt (Nat.sub_le _ _) t.isLt)) := by
  obtain ⟨n, hn⟩ := t
  cases n with
  | zero => exact absurd (Nat.zero_mod _) h0
  | succ n => show k2_pay2 _ _ (if (n + 1) % 4 = 0 then _ else _) = _; rw [if_neg h0]; rfl

/-- The output block after point t: at the last j the filter sum of the accumulator; elsewhere nothing consults it. -/
def outAt3 (c : Dev nD) (t : Fin cfg3.N) : Vec F S256x1024 .f32 :=
  if t.val % 4 = 3 then k2_pay3 (accAt3 V c t.val t.isLt) (iblk3 V c 2 t) else outIdle3

/-- The invariant between points: before the first the entry invariant, afterwards the accumulator at the previous point's value beside the untouched rest. -/
def PhiS3 (c : Dev nD) : (n : ℕ) → n ≤ cfg3.N → sProp 𝕄
  | 0, _ => Pipeline.ΦA spec3 c
  | n + 1, hn => iprop(iprop(owns (c : Thread nD τ) scM3_0 fullShare (accAt3 V c n hn) ∗ restBut3 c) ∗ (∃ r, prngReg c r))

/-- Forgetting what the accumulator holds. -/
theorem PhiS3_weaken (c : Dev nD) (n : ℕ) (h : n ≤ cfg3.N) :
    PhiS3 V c n h ⊢ iprop(iprop((∃ d, owns (c : Thread nD τ) scM3_0 fullShare d) ∗ restBut3 c) ∗ (∃ r, prngReg c r)) := by
  cases n with
  | zero => rw [show PhiS3 V c 0 h = Pipeline.ΦA spec3 c from rfl, PhiA3_eq]
  | succ n =>
    show iprop(iprop(owns (c : Thread nD τ) scM3_0 fullShare (accAt3 V c n h) ∗ restBut3 c) ∗ (∃ r, prngReg c r)) ⊢ _
    iintro ⟨⟨HS0, Hsr⟩, Hg⟩
    isplitl [HS0 Hsr]
    · isplitl [HS0]
      · iexists _; iexact HS0
      iexact Hsr
    iexact Hg

theorem PhiS3_pos (c : Dev nD) (n : ℕ) (h : n ≤ cfg3.N) (hz : n ≠ 0) :
    PhiS3 V c n h = iprop(iprop(owns (c : Thread nD τ) scM3_0 fullShare (accAt3 V c (n - 1) (by omega)) ∗ restBut3 c) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outAt3 V c t := by dsimp only [dat3]
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

theorem bodyAt3_eq (t : Fin cfg3.N) : bodyAt3 (F := F) t = cc2__scnn_layer_kernel (grid3.coords t) (ms3_0 t) (hs3_0 t) (ms3_1 t) (hs3_1 t) (ms3_2 t) (hs3_2 t) (ms3_3 t) (hs3_3 t) scM3_0 (Memref.isWhole_whole _) := rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- One point of the grid. The residue of t says which case the body runs; the invariant hands it the accumulator and takes it back at this point's value, and where nothing is stored into the output block it goes back as it came. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3
  rw [bodyAt3_eq]
  simp only [before3_0, before3_1, before3_2]
  rw [show (dat3 V c).owesAt () t.succ = (dat3 V c).owesAt () t.castSucc from rfl]
  rw [show (dat3 V c).Φ t.succ = iprop(iprop(owns (c : Thread nD τ) scM3_0 fullShare (accAt3 V c t.val t.isLt) ∗ restBut3 c) ∗ (∃ r, prngReg c r)) from rfl]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [PhiS3_castSucc V c t]
  by_cases h1 : t.val % 4 = 3
  · have h0 : ¬t.val % 4 = 0 := by omega
    rw [show (dat3 V c).leavesExact 3 t = owns (c : Thread nD τ) (ms3_3 t) fullShare ((dat3 V c).after 3 t) from by
      unfold Dat.leavesExact; rw [liveAt3_3 t ((hcond3_1 t).mpr h1)], after3_3]
    rw [show outAt3 V c t = k2_pay3 (accAt3 V c t.val t.isLt) (iblk3 V c 2 t) from if_pos h1, accAt3_next V c t h0,
      PhiS3_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runC3 V c t (fun h => h0 ((hcond3_0 t).mp h)) ((hcond3_1 t).mpr h1) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hsr Hg]
    · isplitl [HS0 Hsr]
      · isplitl [HS0]
        · unfold owns; iexists _; isplitr
          swap; · iexact HS0
          ipureintro; apply readC2
        iexact Hsr
      iexact Hg
    isplitl [Ho]; · iexact Ho
    isplitl [H0]; · iexact H0
    isplitl [H1]; · iexact H1
    isplitl [H2]; · iexact H2
    unfold owns; iexists _; isplitr
    swap; · iexact H3
    ipureintro; apply readOut2
  rw [Dat.leavesExact_idle (dat3 V c) 3 t (idleAt3_3 t (fun h => h1 ((hcond3_1 t).mp h))) (noFlush3_3 t (fun h => h1 ((hcond3_1 t).mp h)))]
  by_cases h0 : t.val % 4 = 0
  · rw [accAt3_first V c t h0]
    iintro ⟨HP, Ho, ⟨%d0, H0⟩, ⟨%d1, H1⟩, ⟨%d2, H2⟩, ⟨%d3, H3⟩⟩
    ihave HQ := (PhiS3_weaken V c _ _) $$ HP
    icases HQ with ⟨⟨HS0, Hsr⟩, Hg⟩
    iapply ((runA3 V c t ((hcond3_0 t).mpr h0) (fun h => h1 ((hcond3_1 t).mp h))).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readA2
        iexact Hsr
      iexact Hg
    isplitl [Ho]; · iexact Ho
    isplitl [H0]; · iexact H0
    isplitl [H1]; · iexact H1
    isplitl [H2]; · iexact H2
    iexists _; iexact H3
  · rw [accAt3_next V c t h0, PhiS3_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runB3 V c t (fun h => h0 ((hcond3_0 t).mp h)) (fun h => h1 ((hcond3_1 t).mp h)) _).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readB2
        iexact Hsr
      iexact Hg
    isplitl [Ho]; · iexact Ho
    isplitl [H0]; · iexact H0
    isplitl [H1]; · iexact H1
    isplitl [H2]; · iexact H2
    iexists _; iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = Pipeline.ΦA spec3 c from rfl]

theorem hout3 (c : Dev nD) : (dat3 V c).Φ (Fin.last cfg3.N) ⊢ (Pipeline.ΦA spec3 c : sProp 𝕄) := by
  rw [PhiA3_eq, show (dat3 V c).Φ (Fin.last cfg3.N) = PhiS3 V c (Fin.last cfg3.N).val (Nat.le_of_lt_succ (Fin.last cfg3.N).isLt) from rfl]
  exact PhiS3_weaken V c _ _

end Cert.KernelIdeal.Reg

end
-- ==== Proof.Reg4.lean ====

import proofs.«146132_j71485435675282_1_alg».proof.Proof.Gen.KernelIdeal.Points
import proofs.«146132_j71485435675282_1_alg».proof.Proof.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region is entered with. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem hcond4_0 : ∀ t : Fin cfg4.N, cond0_0 (grid4.coords t) ↔ t.val % 2 = 0 :=
  (by decide +kernel : ∀ t : Fin grid4.N, cond0_0 (grid4.coords t) ↔ t.val % 2 = 0)

theorem hcond4_1 : ∀ t : Fin cfg4.N, cond0_1 (grid4.coords t) ↔ t.val % 2 = 1 :=
  (by decide +kernel : ∀ t : Fin grid4.N, cond0_1 (grid4.coords t) ↔ t.val % 2 = 1)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond0_1 (grid4.coords t) → cfg4.idle 3 (grid4.coords t) = true := by decide +kernel
theorem noFlush4_3 : ∀ t : Fin cfg4.N, ¬cond0_1 (grid4.coords t) → (cfg4.win 3).flush t = false := by decide +kernel
theorem liveAt4_3 : ∀ t : Fin cfg4.N, cond0_1 (grid4.coords t) → cfg4.idle 3 (grid4.coords t) = false := by decide +kernel

abbrev ms4_0 (t : Fin cfg4.N) : Memref sig .tc .vmem S256x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S4x1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S256x1024 .f32 := win4_3.stage (cfg4.slots t 3)
abbrev hs4_3 (t : Fin cfg4.N) : (ms4_3 t).IsWhole := hstage4_3 ((cfg4.slots t 3).cast nbuf4_3)

abbrev scM4_0 : Memref sig .tc .vmem S256x1024 .f32 := Memref.whole cc4_scratch0

abbrev restBut4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop((∃ d, owns (c : Thread nD τ) scM4_0 fullShare d) ∗ restBut4 c) ∗ (∃ r, prngReg c r)) := by
  unfold Pipeline.ΦA; rw [scopedRest4_split]; simp only [scM4_0, owns_whole]; try rfl

def outIdle4 : Vec F S256x1024 .f32 := View.canon []

abbrev runA4 (c : Dev nD) (t : Fin cfg4.N) (hc0 : cond0_0 (grid4.coords t)) (hc1 : ¬cond0_1 (grid4.coords t)) :=
  kernelRun0_A (F := F) c (grid4.coords t) (ms4_0 t) (hs4_0 t) (ms4_1 t) (hs4_1 t) (ms4_2 t) (hs4_2 t) (ms4_3 t) (hs4_3 t) scM4_0 (Memref.isWhole_whole _) hc0 hc1 (iblk4 V c 0 t) (iblk4 V c 1 t) (iblk4 V c 2 t)
abbrev runB4 (c : Dev nD) (t : Fin cfg4.N) (hc0 : ¬cond0_0 (grid4.coords t)) (hc1 : ¬cond0_1 (grid4.coords t)) (xs0 : Vec F S256x1024 .f32) :=
  kernelRun0_B (F := F) c (grid4.coords t) (ms4_0 t) (hs4_0 t) (ms4_1 t) (hs4_1 t) (ms4_2 t) (hs4_2 t) (ms4_3 t) (hs4_3 t) scM4_0 (Memref.isWhole_whole _) hc0 hc1 (iblk4 V c 0 t) (iblk4 V c 1 t) (iblk4 V c 2 t) xs0
abbrev runC4 (c : Dev nD) (t : Fin cfg4.N) (hc0 : ¬cond0_0 (grid4.coords t)) (hc1 : cond0_1 (grid4.coords t)) (xs0 : Vec F S256x1024 .f32) :=
  kernelRun0_C (F := F) c (grid4.coords t) (ms4_0 t) (hs4_0 t) (ms4_1 t) (hs4_1 t) (ms4_2 t) (hs4_2 t) (ms4_3 t) (hs4_3 t) scM4_0 (Memref.isWhole_whole _) hc0 hc1 (iblk4 V c 0 t) (iblk4 V c 1 t) (iblk4 V c 2 t) xs0

/-- The accumulator after point n: the product of the point's signal and operator blocks, added onto zero when j = 0 and onto the accumulator after point n - 1 otherwise. -/
def accAt4 (c : Dev nD) : (n : ℕ) → n < cfg4.N → Vec F S256x1024 .f32
  | 0, hn => k0_pay2 (iblk4 V c 0 ⟨0, hn⟩) (iblk4 V c 1 ⟨0, hn⟩) k0_pay1
  | n + 1, hn => k0_pay2 (iblk4 V c 0 ⟨n + 1, hn⟩) (iblk4 V c 1 ⟨n + 1, hn⟩)
      (if (n + 1) % 2 = 0 then k0_pay1 else accAt4 c n (Nat.lt_of_succ_lt hn))

theorem accAt4_first (c : Dev nD) (t : Fin cfg4.N) (h0 : t.val % 2 = 0) :
    accAt4 V c t.val t.isLt = k0_pay2 (iblk4 V c 0 t) (iblk4 V c 1 t) k0_pay1 := by
  obtain ⟨n, hn⟩ := t
  cases n with
  | zero => rfl
  | succ n => show k0_pay2 _ _ (if (n + 1) % 2 = 0 then _ else _) = _; rw [if_pos h0]

theorem accAt4_next (c : Dev nD) (t : Fin cfg4.N) (h0 : ¬t.val % 2 = 0) :
    accAt4 V c t.val t.isLt = k0_pay2 (iblk4 V c 0 t) (iblk4 V c 1 t) (accAt4 V c (t.val - 1) (Nat.lt_of_le_of_lt (Nat.sub_le _ _) t.isLt)) := by
  obtain ⟨n, hn⟩ := t
  cases n with
  | zero => exact absurd (Nat.zero_mod _) h0
  | succ n => show k0_pay2 _ _ (if (n + 1) % 2 = 0 then _ else _) = _; rw [if_neg h0]; rfl

/-- The output block after point t: at the last j the filter sum of the accumulator; elsewhere nothing consults it. -/
def outAt4 (c : Dev nD) (t : Fin cfg4.N) : Vec F S256x1024 .f32 :=
  if t.val % 2 = 1 then k0_pay3 (accAt4 V c t.val t.isLt) (iblk4 V c 2 t) else outIdle4

/-- The invariant between points: before the first the entry invariant, afterwards the accumulator at the previous point's value beside the untouched rest. -/
def PhiS4 (c : Dev nD) : (n : ℕ) → n ≤ cfg4.N → sProp 𝕄
  | 0, _ => Pipeline.ΦA spec4 c
  | n + 1, hn => iprop(iprop(owns (c : Thread nD τ) scM4_0 fullShare (accAt4 V c n hn) ∗ restBut4 c) ∗ (∃ r, prngReg c r))

/-- Forgetting what the accumulator holds. -/
theorem PhiS4_weaken (c : Dev nD) (n : ℕ) (h : n ≤ cfg4.N) :
    PhiS4 V c n h ⊢ iprop(iprop((∃ d, owns (c : Thread nD τ) scM4_0 fullShare d) ∗ restBut4 c) ∗ (∃ r, prngReg c r)) := by
  cases n with
  | zero => rw [show PhiS4 V c 0 h = Pipeline.ΦA spec4 c from rfl, PhiA4_eq]
  | succ n =>
    show iprop(iprop(owns (c : Thread nD τ) scM4_0 fullShare (accAt4 V c n h) ∗ restBut4 c) ∗ (∃ r, prngReg c r)) ⊢ _
    iintro ⟨⟨HS0, Hsr⟩, Hg⟩
    isplitl [HS0 Hsr]
    · isplitl [HS0]
      · iexists _; iexact HS0
      iexact Hsr
    iexact Hg

theorem PhiS4_pos (c : Dev nD) (n : ℕ) (h : n ≤ cfg4.N) (hz : n ≠ 0) :
    PhiS4 V c n h = iprop(iprop(owns (c : Thread nD τ) scM4_0 fullShare (accAt4 V c (n - 1) (by omega)) ∗ restBut4 c) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outAt4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = outAt4 V c t := by dsimp only [dat4]
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

theorem bodyAt4_eq (t : Fin cfg4.N) : bodyAt4 (F := F) t = cc0__scnn_layer_kernel (grid4.coords t) (ms4_0 t) (hs4_0 t) (ms4_1 t) (hs4_1 t) (ms4_2 t) (hs4_2 t) (ms4_3 t) (hs4_3 t) scM4_0 (Memref.isWhole_whole _) := rfl

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- One point of the grid. The residue of t says which case the body runs; the invariant hands it the accumulator and takes it back at this point's value, and where nothing is stored into the output block it goes back as it came. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4
  rw [bodyAt4_eq]
  simp only [before4_0, before4_1, before4_2]
  rw [show (dat4 V c).owesAt () t.succ = (dat4 V c).owesAt () t.castSucc from rfl]
  rw [show (dat4 V c).Φ t.succ = iprop(iprop(owns (c : Thread nD τ) scM4_0 fullShare (accAt4 V c t.val t.isLt) ∗ restBut4 c) ∗ (∃ r, prngReg c r)) from rfl]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [PhiS4_castSucc V c t]
  by_cases h1 : t.val % 2 = 1
  · have h0 : ¬t.val % 2 = 0 := by omega
    rw [show (dat4 V c).leavesExact 3 t = owns (c : Thread nD τ) (ms4_3 t) fullShare ((dat4 V c).after 3 t) from by
      unfold Dat.leavesExact; rw [liveAt4_3 t ((hcond4_1 t).mpr h1)], after4_3]
    rw [show outAt4 V c t = k0_pay3 (accAt4 V c t.val t.isLt) (iblk4 V c 2 t) from if_pos h1, accAt4_next V c t h0,
      PhiS4_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runC4 V c t (fun h => h0 ((hcond4_0 t).mp h)) ((hcond4_1 t).mpr h1) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hsr Hg]
    · isplitl [HS0 Hsr]
      · isplitl [HS0]
        · unfold owns; iexists _; isplitr
          swap; · iexact HS0
          ipureintro; apply readC0
        iexact Hsr
      iexact Hg
    isplitl [Ho]; · iexact Ho
    isplitl [H0]; · iexact H0
    isplitl [H1]; · iexact H1
    isplitl [H2]; · iexact H2
    unfold owns; iexists _; isplitr
    swap; · iexact H3
    ipureintro; apply readOut0
  rw [Dat.leavesExact_idle (dat4 V c) 3 t (idleAt4_3 t (fun h => h1 ((hcond4_1 t).mp h))) (noFlush4_3 t (fun h => h1 ((hcond4_1 t).mp h)))]
  by_cases h0 : t.val % 2 = 0
  · rw [accAt4_first V c t h0]
    iintro ⟨HP, Ho, ⟨%d0, H0⟩, ⟨%d1, H1⟩, ⟨%d2, H2⟩, ⟨%d3, H3⟩⟩
    ihave HQ := (PhiS4_weaken V c _ _) $$ HP
    icases HQ with ⟨⟨HS0, Hsr⟩, Hg⟩
    iapply ((runA4 V c t ((hcond4_0 t).mpr h0) (fun h => h1 ((hcond4_1 t).mp h))).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readA0
        iexact Hsr
      iexact Hg
    isplitl [Ho]; · iexact Ho
    isplitl [H0]; · iexact H0
    isplitl [H1]; · iexact H1
    isplitl [H2]; · iexact H2
    iexists _; iexact H3
  · rw [accAt4_next V c t h0, PhiS4_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runB4 V c t (fun h => h0 ((hcond4_0 t).mp h)) (fun h => h1 ((hcond4_1 t).mp h)) _).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readB0
        iexact Hsr
      iexact Hg
    isplitl [Ho]; · iexact Ho
    isplitl [H0]; · iexact H0
    isplitl [H1]; · iexact H1
    isplitl [H2]; · iexact H2
    iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [show (dat4 V c).Φ 0 = Pipeline.ΦA spec4 c from rfl]

theorem hout4 (c : Dev nD) : (dat4 V c).Φ (Fin.last cfg4.N) ⊢ (Pipeline.ΦA spec4 c : sProp 𝕄) := by
  rw [PhiA4_eq, show (dat4 V c).Φ (Fin.last cfg4.N) = PhiS4 V c (Fin.last cfg4.N).val (Nat.le_of_lt_succ (Fin.last cfg4.N).isLt) from rfl]
  exact PhiS4_weaken V c _ _

end Cert.KernelIdeal.Reg

end
-- ==== Proof.Reg5.lean ====

import proofs.«146132_j71485435675282_1_alg».proof.Proof.Gen.KernelIdeal.Points
import proofs.«146132_j71485435675282_1_alg».proof.Proof.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region is entered with. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem hcond5_0 : ∀ t : Fin cfg5.N, cond0_0 (grid5.coords t) ↔ t.val % 2 = 0 :=
  (by decide +kernel : ∀ t : Fin grid5.N, cond0_0 (grid5.coords t) ↔ t.val % 2 = 0)

theorem hcond5_1 : ∀ t : Fin cfg5.N, cond0_1 (grid5.coords t) ↔ t.val % 2 = 1 :=
  (by decide +kernel : ∀ t : Fin grid5.N, cond0_1 (grid5.coords t) ↔ t.val % 2 = 1)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem idleAt5_3 : ∀ t : Fin cfg5.N, ¬cond0_1 (grid5.coords t) → cfg5.idle 3 (grid5.coords t) = true := by decide +kernel
theorem noFlush5_3 : ∀ t : Fin cfg5.N, ¬cond0_1 (grid5.coords t) → (cfg5.win 3).flush t = false := by decide +kernel
theorem liveAt5_3 : ∀ t : Fin cfg5.N, cond0_1 (grid5.coords t) → cfg5.idle 3 (grid5.coords t) = false := by decide +kernel

abbrev ms5_0 (t : Fin cfg5.N) : Memref sig .tc .vmem S256x1024 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x1024 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S4x1024 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S256x1024 .f32 := win5_3.stage (cfg5.slots t 3)
abbrev hs5_3 (t : Fin cfg5.N) : (ms5_3 t).IsWhole := hstage5_3 ((cfg5.slots t 3).cast nbuf5_3)

abbrev scM5_0 : Memref sig .tc .vmem S256x1024 .f32 := Memref.whole cc5_scratch0

abbrev restBut5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop((∃ d, owns (c : Thread nD τ) scM5_0 fullShare d) ∗ restBut5 c) ∗ (∃ r, prngReg c r)) := by
  unfold Pipeline.ΦA; rw [scopedRest5_split]; simp only [scM5_0, owns_whole]; try rfl

def outIdle5 : Vec F S256x1024 .f32 := View.canon []

abbrev runA5 (c : Dev nD) (t : Fin cfg5.N) (hc0 : cond0_0 (grid5.coords t)) (hc1 : ¬cond0_1 (grid5.coords t)) :=
  kernelRun0_A (F := F) c (grid5.coords t) (ms5_0 t) (hs5_0 t) (ms5_1 t) (hs5_1 t) (ms5_2 t) (hs5_2 t) (ms5_3 t) (hs5_3 t) scM5_0 (Memref.isWhole_whole _) hc0 hc1 (iblk5 V c 0 t) (iblk5 V c 1 t) (iblk5 V c 2 t)
abbrev runB5 (c : Dev nD) (t : Fin cfg5.N) (hc0 : ¬cond0_0 (grid5.coords t)) (hc1 : ¬cond0_1 (grid5.coords t)) (xs0 : Vec F S256x1024 .f32) :=
  kernelRun0_B (F := F) c (grid5.coords t) (ms5_0 t) (hs5_0 t) (ms5_1 t) (hs5_1 t) (ms5_2 t) (hs5_2 t) (ms5_3 t) (hs5_3 t) scM5_0 (Memref.isWhole_whole _) hc0 hc1 (iblk5 V c 0 t) (iblk5 V c 1 t) (iblk5 V c 2 t) xs0
abbrev runC5 (c : Dev nD) (t : Fin cfg5.N) (hc0 : ¬cond0_0 (grid5.coords t)) (hc1 : cond0_1 (grid5.coords t)) (xs0 : Vec F S256x1024 .f32) :=
  kernelRun0_C (F := F) c (grid5.coords t) (ms5_0 t) (hs5_0 t) (ms5_1 t) (hs5_1 t) (ms5_2 t) (hs5_2 t) (ms5_3 t) (hs5_3 t) scM5_0 (Memref.isWhole_whole _) hc0 hc1 (iblk5 V c 0 t) (iblk5 V c 1 t) (iblk5 V c 2 t) xs0

/-- The accumulator after point n: the product of the point's signal and operator blocks, added onto zero when j = 0 and onto the accumulator after point n - 1 otherwise. -/
def accAt5 (c : Dev nD) : (n : ℕ) → n < cfg5.N → Vec F S256x1024 .f32
  | 0, hn => k0_pay2 (iblk5 V c 0 ⟨0, hn⟩) (iblk5 V c 1 ⟨0, hn⟩) k0_pay1
  | n + 1, hn => k0_pay2 (iblk5 V c 0 ⟨n + 1, hn⟩) (iblk5 V c 1 ⟨n + 1, hn⟩)
      (if (n + 1) % 2 = 0 then k0_pay1 else accAt5 c n (Nat.lt_of_succ_lt hn))

theorem accAt5_first (c : Dev nD) (t : Fin cfg5.N) (h0 : t.val % 2 = 0) :
    accAt5 V c t.val t.isLt = k0_pay2 (iblk5 V c 0 t) (iblk5 V c 1 t) k0_pay1 := by
  obtain ⟨n, hn⟩ := t
  cases n with
  | zero => rfl
  | succ n => show k0_pay2 _ _ (if (n + 1) % 2 = 0 then _ else _) = _; rw [if_pos h0]

theorem accAt5_next (c : Dev nD) (t : Fin cfg5.N) (h0 : ¬t.val % 2 = 0) :
    accAt5 V c t.val t.isLt = k0_pay2 (iblk5 V c 0 t) (iblk5 V c 1 t) (accAt5 V c (t.val - 1) (Nat.lt_of_le_of_lt (Nat.sub_le _ _) t.isLt)) := by
  obtain ⟨n, hn⟩ := t
  cases n with
  | zero => exact absurd (Nat.zero_mod _) h0
  | succ n => show k0_pay2 _ _ (if (n + 1) % 2 = 0 then _ else _) = _; rw [if_neg h0]; rfl

/-- The output block after point t: at the last j the filter sum of the accumulator; elsewhere nothing consults it. -/
def outAt5 (c : Dev nD) (t : Fin cfg5.N) : Vec F S256x1024 .f32 :=
  if t.val % 2 = 1 then k0_pay3 (accAt5 V c t.val t.isLt) (iblk5 V c 2 t) else outIdle5

/-- The invariant between points: before the first the entry invariant, afterwards the accumulator at the previous point's value beside the untouched rest. -/
def PhiS5 (c : Dev nD) : (n : ℕ) → n ≤ cfg5.N → sProp 𝕄
  | 0, _ => Pipeline.ΦA spec5 c
  | n + 1, hn => iprop(iprop(owns (c : Thread nD τ) scM5_0 fullShare (accAt5 V c n hn) ∗ restBut5 c) ∗ (∃ r, prngReg c r))

/-- Forgetting what the accumulator holds. -/
theorem PhiS5_weaken (c : Dev nD) (n : ℕ) (h : n ≤ cfg5.N) :
    PhiS5 V c n h ⊢ iprop(iprop((∃ d, owns (c : Thread nD τ) scM5_0 fullShare d) ∗ restBut5 c) ∗ (∃ r, prngReg c r)) := by
  cases n with
  | zero => rw [show PhiS5 V c 0 h = Pipeline.ΦA spec5 c from rfl, PhiA5_eq]
  | succ n =>
    show iprop(iprop(owns (c : Thread nD τ) scM5_0 fullShare (accAt5 V c n h) ∗ restBut5 c) ∗ (∃ r, prngReg c r)) ⊢ _
    iintro ⟨⟨HS0, Hsr⟩, Hg⟩
    isplitl [HS0 Hsr]
    · isplitl [HS0]
      · iexists _; iexact HS0
      iexact Hsr
    iexact Hg

theorem PhiS5_pos (c : Dev nD) (n : ℕ) (h : n ≤ cfg5.N) (hz : n ≠ 0) :
    PhiS5 V c n h = iprop(iprop(owns (c : Thread nD τ) scM5_0 fullShare (accAt5 V c (n - 1) (by omega)) ∗ restBut5 c) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => outAt5 V c t
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = outAt5 V c t := by dsimp only [dat5]
theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)

theorem bodyAt5_eq (t : Fin cfg5.N) : bodyAt5 (F := F) t = cc0__scnn_layer_kernel (grid5.coords t) (ms5_0 t) (hs5_0 t) (ms5_1 t) (hs5_1 t) (ms5_2 t) (hs5_2 t) (ms5_3 t) (hs5_3 t) scM5_0 (Memref.isWhole_whole _) := rfl

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- One point of the grid. The residue of t says which case the body runs; the invariant hands it the accumulator and takes it back at this point's value, and where nothing is stored into the output block it goes back as it came. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5
  rw [bodyAt5_eq]
  simp only [before5_0, before5_1, before5_2]
  rw [show (dat5 V c).owesAt () t.succ = (dat5 V c).owesAt () t.castSucc from rfl]
  rw [show (dat5 V c).Φ t.succ = iprop(iprop(owns (c : Thread nD τ) scM5_0 fullShare (accAt5 V c t.val t.isLt) ∗ restBut5 c) ∗ (∃ r, prngReg c r)) from rfl]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [PhiS5_castSucc V c t]
  by_cases h1 : t.val % 2 = 1
  · have h0 : ¬t.val % 2 = 0 := by omega
    rw [show (dat5 V c).leavesExact 3 t = owns (c : Thread nD τ) (ms5_3 t) fullShare ((dat5 V c).after 3 t) from by
      unfold Dat.leavesExact; rw [liveAt5_3 t ((hcond5_1 t).mpr h1)], after5_3]
    rw [show outAt5 V c t = k0_pay3 (accAt5 V c t.val t.isLt) (iblk5 V c 2 t) from if_pos h1, accAt5_next V c t h0,
      PhiS5_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runC5 V c t (fun h => h0 ((hcond5_0 t).mp h)) ((hcond5_1 t).mpr h1) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hsr Hg]
    · isplitl [HS0 Hsr]
      · isplitl [HS0]
        · unfold owns; iexists _; isplitr
          swap; · iexact HS0
          ipureintro; apply readC0
        iexact Hsr
      iexact Hg
    isplitl [Ho]; · iexact Ho
    isplitl [H0]; · iexact H0
    isplitl [H1]; · iexact H1
    isplitl [H2]; · iexact H2
    unfold owns; iexists _; isplitr
    swap; · iexact H3
    ipureintro; apply readOut0
  rw [Dat.leavesExact_idle (dat5 V c) 3 t (idleAt5_3 t (fun h => h1 ((hcond5_1 t).mp h))) (noFlush5_3 t (fun h => h1 ((hcond5_1 t).mp h)))]
  by_cases h0 : t.val % 2 = 0
  · rw [accAt5_first V c t h0]
    iintro ⟨HP, Ho, ⟨%d0, H0⟩, ⟨%d1, H1⟩, ⟨%d2, H2⟩, ⟨%d3, H3⟩⟩
    ihave HQ := (PhiS5_weaken V c _ _) $$ HP
    icases HQ with ⟨⟨HS0, Hsr⟩, Hg⟩
    iapply ((runA5 V c t ((hcond5_0 t).mpr h0) (fun h => h1 ((hcond5_1 t).mp h))).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readA0
        iexact Hsr
      iexact Hg
    isplitl [Ho]; · iexact Ho
    isplitl [H0]; · iexact H0
    isplitl [H1]; · iexact H1
    isplitl [H2]; · iexact H2
    iexists _; iexact H3
  · rw [accAt5_next V c t h0, PhiS5_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runB5 V c t (fun h => h0 ((hcond5_0 t).mp h)) (fun h => h1 ((hcond5_1 t).mp h)) _).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readB0
        iexact Hsr
      iexact Hg
    isplitl [Ho]; · iexact Ho
    isplitl [H0]; · iexact H0
    isplitl [H1]; · iexact H1
    isplitl [H2]; · iexact H2
    iexists _; iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := by
  rw [show (dat5 V c).Φ 0 = Pipeline.ΦA spec5 c from rfl]

theorem hout5 (c : Dev nD) : (dat5 V c).Φ (Fin.last cfg5.N) ⊢ (Pipeline.ΦA spec5 c : sProp 𝕄) := by
  rw [PhiA5_eq, show (dat5 V c).Φ (Fin.last cfg5.N) = PhiS5 V c (Fin.last cfg5.N).val (Nat.le_of_lt_succ (Fin.last cfg5.N).isLt) from rfl]
  exact PhiS5_weaken V c _ _

end Cert.KernelIdeal.Reg

end
-- ==== Proof.Outs.lean ====
import proofs.«146132_j71485435675282_1_alg».proof.Proof.Gen.KernelIdeal.Regions
import proofs.«146132_j71485435675282_1_alg».proof.Proof.Reg0
import proofs.«146132_j71485435675282_1_alg».proof.Proof.Reg1
import proofs.«146132_j71485435675282_1_alg».proof.Proof.Reg2
import proofs.«146132_j71485435675282_1_alg».proof.Proof.Reg3
import proofs.«146132_j71485435675282_1_alg».proof.Proof.Reg4
import proofs.«146132_j71485435675282_1_alg».proof.Proof.Reg5

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (outs : Gen.Outs (F := F))

abbrev E0 : (c : Dev nD) → (b : Ref sig .tc) → Buf (Elt F) ((c : Thread nD τ).loc b) := fun c b => Gen.V1 m c b
abbrev E1 : (c : Dev nD) → (b : Ref sig .tc) → Buf (Elt F) ((c : Thread nD τ).loc b) := fun c b => Gen.V3 m outs c b
abbrev E2 : (c : Dev nD) → (b : Ref sig .tc) → Buf (Elt F) ((c : Thread nD τ).loc b) := fun c b => Gen.V5 m outs c b
abbrev E3 : (c : Dev nD) → (b : Ref sig .tc) → Buf (Elt F) ((c : Thread nD τ).loc b) := fun c b => Gen.V7 m outs c b
abbrev E4 : (c : Dev nD) → (b : Ref sig .tc) → Buf (Elt F) ((c : Thread nD τ).loc b) := fun c b => Gen.V9 m outs c b
abbrev E5 : (c : Dev nD) → (b : Ref sig .tc) → Buf (Elt F) ((c : Thread nD τ).loc b) := fun c b => Gen.V11 m outs c b

/-- Each region's output array, as named between the items, is the array that region's proof data end at, the region entered at the contents the earlier items left. -/
structure OutsOk : Prop where
  h0 : ∀ c : Dev nD, (Reg.dat0 (E0 m) c).arrAt 3 cfg0.N = outs 2 main_v3 c
  h1 : ∀ c : Dev nD, (Reg.dat1 (E1 m outs) c).arrAt 3 cfg1.N = outs 4 main_v6 c
  h2 : ∀ c : Dev nD, (Reg.dat2 (E2 m outs) c).arrAt 3 cfg2.N = outs 6 main_v11 c
  h3 : ∀ c : Dev nD, (Reg.dat3 (E3 m outs) c).arrAt 3 cfg3.N = outs 8 main_v14 c
  h4 : ∀ c : Dev nD, (Reg.dat4 (E4 m outs) c).arrAt 3 cfg4.N = outs 10 main_v19 c
  h5 : ∀ c : Dev nD, (Reg.dat5 (E5 m outs) c).arrAt 3 cfg5.N = outs 12 main_v22 c

end Cert.KernelIdeal.Run

end
-- ==== Proof.RunAll.lean ====
import proofs.«146132_j71485435675282_1_alg».proof.Proof.Outs
import Idealize.ShloMosaic.Lib.Pipeline.RegionsLoop
import Idealize.ShloMosaic.Lib.Pipeline.FrameSuffix
import Idealize.ShloMosaic.Lib.Pipeline.Kit
import Idealize.ShloMosaic.Lib.Pipeline.Regions

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Gen.Outs (F := F))

def pdats : (p : Fin 6) → (c : Dev nD) → Dat τ (Elt F) Unit ℕ (UR sig nD τ) ℕ (cfgs p) c
  | ⟨0, _⟩ => fun c => Reg.dat0 (E0 m) c
  | ⟨1, _⟩ => fun c => Reg.dat1 (E1 m outs) c
  | ⟨2, _⟩ => fun c => Reg.dat2 (E2 m outs) c
  | ⟨3, _⟩ => fun c => Reg.dat3 (E3 m outs) c
  | ⟨4, _⟩ => fun c => Reg.dat4 (E4 m outs) c
  | ⟨5, _⟩ => fun c => Reg.dat5 (E5 m outs) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

section Region

variable {p : Fin 6} (lf : Pipeline.LaunchFacts (nD := nD) (τ := τ) cfgs p)
  (W Wn : Dev nD → Valuation τ sig (Elt F))

set_option backward.isDefEq.respectTransparency.types false in
/-- A kernel region between two items of the main program, from the region's own facts: entered with every buffer at W, it leaves every buffer at Wn, which differs from W only at the region's output array. The six regions differ only in these data. -/
def regionSeg
    (hA : ∀ c w, (pdats m outs p c).A w = (fun b : Ref sig .tc => W c b) (Pipeline.arrRef (cfgs p).spec w))
    (hq : ∀ c w, (pdats m outs p c).q w = fullShare)
    (howed : ∀ c t, (pdats m outs p c).owed t = 0)
    (hrec : ∀ c, (pdats m outs p c).recorded 0 = Set.univ)
    (hbd : ∀ c, BodyObligation (pdats m outs p c) (defs₀ (F := F)) Variants.none () Set.univ)
    (hfirst : ∀ c, (Pipeline.ΦA (cfgs p).spec c : sProp 𝕄) ⊢ (pdats m outs p c).Φ 0)
    (hlast : ∀ c, (pdats m outs p c).Φ (Fin.last (cfgs p).N) ⊢ (Pipeline.ΦA (cfgs p).spec c : sProp 𝕄))
    (hF : ∀ c (w : Fin (cfgs p).W), (pdats m outs p c).arrAt w (cfgs p).N = (fun b : Ref sig .tc => Wn c b) (Pipeline.arrRef (cfgs p).spec w))
    (hrest : ∀ c (b : Ref sig .tc), b ∉ Finset.univ.image (Pipeline.arrRef (cfgs p).spec) → (fun b : Ref sig .tc => Wn c b) b = (fun b : Ref sig .tc => W c b) b) :
    Pipeline.RegionSeg (pcfgs (F := F)) Gen.adm (pdats m outs) () defs₀ Variants.none L lv p where
  win := lf.win.to₀
  block_pos := lf.block_pos
  stage_whole := lf.stage_whole
  K := PEmpty
  osem k := k.elim
  ho := Pipeline.OwnSemFacts.none _
  hbody c := (hbd c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (Wn c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b : Ref sig .tc => W c b)
  hentry c := by
    rw [Pipeline.ownSems0_none]
    have hsplit := Pipeline.arrays_of_unscopedBufs (p := p) (pcfgs (F := F)) Gen.adm (pdats m outs) lf.win lf.arr_whole c
      ((pdats m outs p c).share_full (hq c)) (fun b : Ref sig .tc => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; try rw [howed c]
      icases HO with ⟨%W, HO⟩; iexists W; isplitr; · ipureintro; exact fun _ _ => Or.inl ((hrec c).symm ▸ Set.mem_univ _)
      iexact HO
    isplitl [Hp]; · iexact Hp
    iexact Hrest
  hin c := by
    refine BIBase.Entails.trans ?_ (hfirst c)
    unfold Pipeline.ΦA
    iintro ⟨Hp, -, Hr⟩
    isplitl [Hr]; · iexact Hr
    iexact Hp
  hout c := by
    rw [Pipeline.ownSems0_none]
    refine BIBase.Entails.trans (hlast c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lf.win lf.arr_whole c (pdats m outs) ((pdats m outs p c).share_full (hq c))
      (fun b : Ref sig .tc => W c b) (fun b : Ref sig .tc => Wn c b) ((pdats m outs p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; try rw [howed c]
    icases HO with ⟨%W, -, HO⟩; iexists W; iexact HO

end Region

theorem hF0 (hO : OutsOk m outs) (c : Dev nD) : ∀ w : Fin cfg0.W,
    (Reg.dat0 (E0 m) c).arrAt w cfg0.N = (fun b : Ref sig .tc => Gen.V2 m outs c b) (Pipeline.arrRef spec0 w) := fun
  | 0 => ((Reg.dat0 (E0 m) c).arrAt_in 0 rfl _).trans ((Reg.A_eq0 (E0 m) c 0).trans (Gen.V2_of m outs c _ (by decide)).symm)
  | 1 => ((Reg.dat0 (E0 m) c).arrAt_in 1 rfl _).trans ((Reg.A_eq0 (E0 m) c 1).trans (Gen.V2_of m outs c _ (by decide)).symm)
  | 2 => ((Reg.dat0 (E0 m) c).arrAt_in 2 rfl _).trans ((Reg.A_eq0 (E0 m) c 2).trans (Gen.V2_of m outs c _ (by decide)).symm)
  | 3 => (hO.h0 c).trans (Function.update_self (f := Gen.V1 m c) (Proc.devRef .tc main_v3) (outs 2 main_v3 c)).symm
  | ⟨_ + 4, h⟩ => absurd h (Nat.not_lt.2 (Nat.le_add_left _ _))

theorem hrest0 (c : Dev nD) : ∀ b : Ref sig .tc, b ∉ Finset.univ.image (Pipeline.arrRef spec0) →
    (fun b : Ref sig .tc => Gen.V2 m outs c b) b = E0 m c b := fun b hb =>
  Gen.V2_of m outs c b fun h => hb (Finset.mem_image.mpr ⟨3, Finset.mem_univ _, (List.mem_singleton.mp h).symm⟩)

def reg0 (hO : OutsOk m outs) : Pipeline.RegionSeg (pcfgs (F := F)) Gen.adm (pdats m outs) () defs₀ Variants.none L lv 0 :=
  regionSeg m outs launch0 (Gen.V1 m) (Gen.V2 m outs) (Reg.A_eq0 (E0 m)) (fun _ _ => rfl) (fun _ _ => rfl) (fun _ => rfl)
    (Reg.body_obligation0 (E0 m)) (Reg.hin0 (E0 m)) (Reg.hout0 (E0 m)) (hF0 m outs hO) (hrest0 m outs)

theorem hF1 (hO : OutsOk m outs) (c : Dev nD) : ∀ w : Fin cfg1.W,
    (Reg.dat1 (E1 m outs) c).arrAt w cfg1.N = (fun b : Ref sig .tc => Gen.V4 m outs c b) (Pipeline.arrRef spec1 w) := fun
  | 0 => ((Reg.dat1 (E1 m outs) c).arrAt_in 0 rfl _).trans ((Reg.A_eq1 (E1 m outs) c 0).trans (Gen.V4_of m outs c _ (by decide)).symm)
  | 1 => ((Reg.dat1 (E1 m outs) c).arrAt_in 1 rfl _).trans ((Reg.A_eq1 (E1 m outs) c 1).trans (Gen.V4_of m outs c _ (by decide)).symm)
  | 2 => ((Reg.dat1 (E1 m outs) c).arrAt_in 2 rfl _).trans ((Reg.A_eq1 (E1 m outs) c 2).trans (Gen.V4_of m outs c _ (by decide)).symm)
  | 3 => (hO.h1 c).trans (Function.update_self (f := Gen.V3 m outs c) (Proc.devRef .tc main_v6) (outs 4 main_v6 c)).symm
  | ⟨_ + 4, h⟩ => absurd h (Nat.not_lt.2 (Nat.le_add_left _ _))

theorem hrest1 (c : Dev nD) : ∀ b : Ref sig .tc, b ∉ Finset.univ.image (Pipeline.arrRef spec1) →
    (fun b : Ref sig .tc => Gen.V4 m outs c b) b = E1 m outs c b := fun b hb =>
  Gen.V4_of m outs c b fun h => hb (Finset.mem_image.mpr ⟨3, Finset.mem_univ _, (List.mem_singleton.mp h).symm⟩)

def reg1 (hO : OutsOk m outs) : Pipeline.RegionSeg (pcfgs (F := F)) Gen.adm (pdats m outs) () defs₀ Variants.none L lv 1 :=
  regionSeg m outs launch1 (Gen.V3 m outs) (Gen.V4 m outs) (Reg.A_eq1 (E1 m outs)) (fun _ _ => rfl) (fun _ _ => rfl) (fun _ => rfl)
    (Reg.body_obligation1 (E1 m outs)) (Reg.hin1 (E1 m outs)) (Reg.hout1 (E1 m outs)) (hF1 m outs hO) (hrest1 m outs)

theorem hF2 (hO : OutsOk m outs) (c : Dev nD) : ∀ w : Fin cfg2.W,
    (Reg.dat2 (E2 m outs) c).arrAt w cfg2.N = (fun b : Ref sig .tc => Gen.V6 m outs c b) (Pipeline.arrRef spec2 w) := fun
  | 0 => ((Reg.dat2 (E2 m outs) c).arrAt_in 0 rfl _).trans ((Reg.A_eq2 (E2 m outs) c 0).trans (Gen.V6_of m outs c _ (by decide)).symm)
  | 1 => ((Reg.dat2 (E2 m outs) c).arrAt_in 1 rfl _).trans ((Reg.A_eq2 (E2 m outs) c 1).trans (Gen.V6_of m outs c _ (by decide)).symm)
  | 2 => ((Reg.dat2 (E2 m outs) c).arrAt_in 2 rfl _).trans ((Reg.A_eq2 (E2 m outs) c 2).trans (Gen.V6_of m outs c _ (by decide)).symm)
  | 3 => (hO.h2 c).trans (Function.update_self (f := Gen.V5 m outs c) (Proc.devRef .tc main_v11) (outs 6 main_v11 c)).symm
  | ⟨_ + 4, h⟩ => absurd h (Nat.not_lt.2 (Nat.le_add_left _ _))

theorem hrest2 (c : Dev nD) : ∀ b : Ref sig .tc, b ∉ Finset.univ.image (Pipeline.arrRef spec2) →
    (fun b : Ref sig .tc => Gen.V6 m outs c b) b = E2 m outs c b := fun b hb =>
  Gen.V6_of m outs c b fun h => hb (Finset.mem_image.mpr ⟨3, Finset.mem_univ _, (List.mem_singleton.mp h).symm⟩)

def reg2 (hO : OutsOk m outs) : Pipeline.RegionSeg (pcfgs (F := F)) Gen.adm (pdats m outs) () defs₀ Variants.none L lv 2 :=
  regionSeg m outs launch2 (Gen.V5 m outs) (Gen.V6 m outs) (Reg.A_eq2 (E2 m outs)) (fun _ _ => rfl) (fun _ _ => rfl) (fun _ => rfl)
    (Reg.body_obligation2 (E2 m outs)) (Reg.hin2 (E2 m outs)) (Reg.hout2 (E2 m outs)) (hF2 m outs hO) (hrest2 m outs)

theorem hF3 (hO : OutsOk m outs) (c : Dev nD) : ∀ w : Fin cfg3.W,
    (Reg.dat3 (E3 m outs) c).arrAt w cfg3.N = (fun b : Ref sig .tc => Gen.V8 m outs c b) (Pipeline.arrRef spec3 w) := fun
  | 0 => ((Reg.dat3 (E3 m outs) c).arrAt_in 0 rfl _).trans ((Reg.A_eq3 (E3 m outs) c 0).trans (Gen.V8_of m outs c _ (by decide)).symm)
  | 1 => ((Reg.dat3 (E3 m outs) c).arrAt_in 1 rfl _).trans ((Reg.A_eq3 (E3 m outs) c 1).trans (Gen.V8_of m outs c _ (by decide)).symm)
  | 2 => ((Reg.dat3 (E3 m outs) c).arrAt_in 2 rfl _).trans ((Reg.A_eq3 (E3 m outs) c 2).trans (Gen.V8_of m outs c _ (by decide)).symm)
  | 3 => (hO.h3 c).trans (Function.update_self (f := Gen.V7 m outs c) (Proc.devRef .tc main_v14) (outs 8 main_v14 c)).symm
  | ⟨_ + 4, h⟩ => absurd h (Nat.not_lt.2 (Nat.le_add_left _ _))

theorem hrest3 (c : Dev nD) : ∀ b : Ref sig .tc, b ∉ Finset.univ.image (Pipeline.arrRef spec3) →
    (fun b : Ref sig .tc => Gen.V8 m outs c b) b = E3 m outs c b := fun b hb =>
  Gen.V8_of m outs c b fun h => hb (Finset.mem_image.mpr ⟨3, Finset.mem_univ _, (List.mem_singleton.mp h).symm⟩)

def reg3 (hO : OutsOk m outs) : Pipeline.RegionSeg (pcfgs (F := F)) Gen.adm (pdats m outs) () defs₀ Variants.none L lv 3 :=
  regionSeg m outs launch3 (Gen.V7 m outs) (Gen.V8 m outs) (Reg.A_eq3 (E3 m outs)) (fun _ _ => rfl) (fun _ _ => rfl) (fun _ => rfl)
    (Reg.body_obligation3 (E3 m outs)) (Reg.hin3 (E3 m outs)) (Reg.hout3 (E3 m outs)) (hF3 m outs hO) (hrest3 m outs)

theorem hF4 (hO : OutsOk m outs) (c : Dev nD) : ∀ w : Fin cfg4.W,
    (Reg.dat4 (E4 m outs) c).arrAt w cfg4.N = (fun b : Ref sig .tc => Gen.V10 m outs c b) (Pipeline.arrRef spec4 w) := fun
  | 0 => ((Reg.dat4 (E4 m outs) c).arrAt_in 0 rfl _).trans ((Reg.A_eq4 (E4 m outs) c 0).trans (Gen.V10_of m outs c _ (by decide)).symm)
  | 1 => ((Reg.dat4 (E4 m outs) c).arrAt_in 1 rfl _).trans ((Reg.A_eq4 (E4 m outs) c 1).trans (Gen.V10_of m outs c _ (by decide)).symm)
  | 2 => ((Reg.dat4 (E4 m outs) c).arrAt_in 2 rfl _).trans ((Reg.A_eq4 (E4 m outs) c 2).trans (Gen.V10_of m outs c _ (by decide)).symm)
  | 3 => (hO.h4 c).trans (Function.update_self (f := Gen.V9 m outs c) (Proc.devRef .tc main_v19) (outs 10 main_v19 c)).symm
  | ⟨_ + 4, h⟩ => absurd h (Nat.not_lt.2 (Nat.le_add_left _ _))

theorem hrest4 (c : Dev nD) : ∀ b : Ref sig .tc, b ∉ Finset.univ.image (Pipeline.arrRef spec4) →
    (fun b : Ref sig .tc => Gen.V10 m outs c b) b = E4 m outs c b := fun b hb =>
  Gen.V10_of m outs c b fun h => hb (Finset.mem_image.mpr ⟨3, Finset.mem_univ _, (List.mem_singleton.mp h).symm⟩)

def reg4 (hO : OutsOk m outs) : Pipeline.RegionSeg (pcfgs (F := F)) Gen.adm (pdats m outs) () defs₀ Variants.none L lv 4 :=
  regionSeg m outs launch4 (Gen.V9 m outs) (Gen.V10 m outs) (Reg.A_eq4 (E4 m outs)) (fun _ _ => rfl) (fun _ _ => rfl) (fun _ => rfl)
    (Reg.body_obligation4 (E4 m outs)) (Reg.hin4 (E4 m outs)) (Reg.hout4 (E4 m outs)) (hF4 m outs hO) (hrest4 m outs)

theorem hF5 (hO : OutsOk m outs) (c : Dev nD) : ∀ w : Fin cfg5.W,
    (Reg.dat5 (E5 m outs) c).arrAt w cfg5.N = (fun b : Ref sig .tc => Gen.V12 m outs c b) (Pipeline.arrRef spec5 w) := fun
  | 0 => ((Reg.dat5 (E5 m outs) c).arrAt_in 0 rfl _).trans ((Reg.A_eq5 (E5 m outs) c 0).trans (Gen.V12_of m outs c _ (by decide)).symm)
  | 1 => ((Reg.dat5 (E5 m outs) c).arrAt_in 1 rfl _).trans ((Reg.A_eq5 (E5 m outs) c 1).trans (Gen.V12_of m outs c _ (by decide)).symm)
  | 2 => ((Reg.dat5 (E5 m outs) c).arrAt_in 2 rfl _).trans ((Reg.A_eq5 (E5 m outs) c 2).trans (Gen.V12_of m outs c _ (by decide)).symm)
  | 3 => (hO.h5 c).trans (Function.update_self (f := Gen.V11 m outs c) (Proc.devRef .tc main_v22) (outs 12 main_v22 c)).symm
  | ⟨_ + 4, h⟩ => absurd h (Nat.not_lt.2 (Nat.le_add_left _ _))

theorem hrest5 (c : Dev nD) : ∀ b : Ref sig .tc, b ∉ Finset.univ.image (Pipeline.arrRef spec5) →
    (fun b : Ref sig .tc => Gen.V12 m outs c b) b = E5 m outs c b := fun b hb =>
  Gen.V12_of m outs c b fun h => hb (Finset.mem_image.mpr ⟨3, Finset.mem_univ _, (List.mem_singleton.mp h).symm⟩)

def reg5 (hO : OutsOk m outs) : Pipeline.RegionSeg (pcfgs (F := F)) Gen.adm (pdats m outs) () defs₀ Variants.none L lv 5 :=
  regionSeg m outs launch5 (Gen.V11 m outs) (Gen.V12 m outs) (Reg.A_eq5 (E5 m outs)) (fun _ _ => rfl) (fun _ _ => rfl) (fun _ => rfl)
    (Reg.body_obligation5 (E5 m outs)) (Reg.hin5 (E5 m outs)) (Reg.hout5 (E5 m outs)) (hF5 m outs hO) (hrest5 m outs)

abbrev u₀ : UR sig nD τ := initOf (Pipeline.cells cfgs cellOf_inj) (Pipeline.launchToks cfgs cellOf_inj)

set_option backward.isDefEq.respectTransparency.types false in
theorem run_value (hO : OutsOk m outs) (ρ : Dev nD → PrngReg) :
    θ_run defs (onTc (τ := τ) (main (F := F))) ⟨m, fun _ => 0, ρ⟩ (fun r => ∀ c : Dev nD,
      r.2.mem ((c.tc : Thread nD τ).loc main_v39) = Gen.V17 m outs c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.θ_run_regions_kit_dev (pcfgs (F := F)) Gen.adm (pdats m outs) () cellOf_inj emb₁ defs₀ Variants.none L lv m ρ main
    (Gen.segs m outs Variants.none L lv (fun _ c => R c) () (pdats m outs) (reg0 m outs hO) (reg1 m outs hO) (reg2 m outs hO) (reg3 m outs hO) (reg4 m outs hO) (reg5 m outs hO))
    (fun c Q => by
      rewrite [main_chain c, Seg.run_eq_chain,
        show (Gen.segs m outs Variants.none L lv (fun _ c => R c) () (pdats m outs) (reg0 m outs hO) (reg1 m outs hO) (reg2 m outs hO) (reg3 m outs hO) (reg4 m outs hO) (reg5 m outs hO) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          StableHlo.seq hostOps6_3,
          StableHlo.seq hostOps6_4 ] from rfl]
      exact .rfl)
    (fun c => by simp only [Gen.segs, Seg.pipes_host, Seg.pipes_region, Seg.pipes_nil]; decide) 0 (fun _ _ => rfl) (fun _ => iprop(emp)) u₀
    (by
      iintro Hu; imodintro
      isplitl [Hu]
      · iapply (show (ownU (u₀ : UR sig nD τ) : sProp 𝕄) ⊢ BI.own (emb₁ (u₀ : UR sig nD τ)) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V17 m outs c))
    (hch := fun c => ⟨.rfl, .rfl, .rfl, .rfl, .rfl, .rfl, .rfl, .rfl, .rfl, .rfl, .rfl, .rfl, .rfl, .rfl, .rfl, .rfl, .rfl,
      sep_mono .rfl (by iintro ⟨-, HO⟩; iexact HO)⟩)
    (hinit := ?_) (QY := fun c s => s.mem ((c.tc : Thread nD τ).loc main_v39) = Gen.V17 m outs c main_v39 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14))
    (hfin := fun c s' => ?_) (hQ := fun _ h => h)
  ·
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (Gen.V17 m outs c) s') $$ [Hh HSI]
    · isplitl [Hh] <;> iassumption
    icases Hr with ⟨%h, HSI⟩
    imodintro
    isplitr
    · ipureintro
      exact ⟨h (Proc.devRef .tc main_v39) (Finset.mem_filter.mpr ⟨StableHlo.devRef_mem_tcRefs main_v39, by decide⟩),
        (h (Proc.devRef .tc main_arg0) (Finset.mem_filter.mpr ⟨StableHlo.devRef_mem_tcRefs main_arg0, by decide⟩)).trans (Gen.V17_main_arg0 m outs c),
        (h (Proc.devRef .tc main_arg1) (Finset.mem_filter.mpr ⟨StableHlo.devRef_mem_tcRefs main_arg1, by decide⟩)).trans (Gen.V17_main_arg1 m outs c),
        (h (Proc.devRef .tc main_arg2) (Finset.mem_filter.mpr ⟨StableHlo.devRef_mem_tcRefs main_arg2, by decide⟩)).trans (Gen.V17_main_arg2 m outs c),
        (h (Proc.devRef .tc main_arg3) (Finset.mem_filter.mpr ⟨StableHlo.devRef_mem_tcRefs main_arg3, by decide⟩)).trans (Gen.V17_main_arg3 m outs c),
        (h (Proc.devRef .tc main_arg4) (Finset.mem_filter.mpr ⟨StableHlo.devRef_mem_tcRefs main_arg4, by decide⟩)).trans (Gen.V17_main_arg4 m outs c),
        (h (Proc.devRef .tc main_arg5) (Finset.mem_filter.mpr ⟨StableHlo.devRef_mem_tcRefs main_arg5, by decide⟩)).trans (Gen.V17_main_arg5 m outs c),
        (h (Proc.devRef .tc main_arg6) (Finset.mem_filter.mpr ⟨StableHlo.devRef_mem_tcRefs main_arg6, by decide⟩)).trans (Gen.V17_main_arg6 m outs c),
        (h (Proc.devRef .tc main_arg7) (Finset.mem_filter.mpr ⟨StableHlo.devRef_mem_tcRefs main_arg7, by decide⟩)).trans (Gen.V17_main_arg7 m outs c),
        (h (Proc.devRef .tc main_arg8) (Finset.mem_filter.mpr ⟨StableHlo.devRef_mem_tcRefs main_arg8, by decide⟩)).trans (Gen.V17_main_arg8 m outs c),
        (h (Proc.devRef .tc main_arg9) (Finset.mem_filter.mpr ⟨StableHlo.devRef_mem_tcRefs main_arg9, by decide⟩)).trans (Gen.V17_main_arg9 m outs c),
        (h (Proc.devRef .tc main_arg10) (Finset.mem_filter.mpr ⟨StableHlo.devRef_mem_tcRefs main_arg10, by decide⟩)).trans (Gen.V17_main_arg10 m outs c),
        (h (Proc.devRef .tc main_arg11) (Finset.mem_filter.mpr ⟨StableHlo.devRef_mem_tcRefs main_arg11, by decide⟩)).trans (Gen.V17_main_arg11 m outs c),
        (h (Proc.devRef .tc main_arg12) (Finset.mem_filter.mpr ⟨StableHlo.devRef_mem_tcRefs main_arg12, by decide⟩)).trans (Gen.V17_main_arg12 m outs c),
        (h (Proc.devRef .tc main_arg13) (Finset.mem_filter.mpr ⟨StableHlo.devRef_mem_tcRefs main_arg13, by decide⟩)).trans (Gen.V17_main_arg13 m outs c),
        (h (Proc.devRef .tc main_arg14) (Finset.mem_filter.mpr ⟨StableHlo.devRef_mem_tcRefs main_arg14, by decide⟩)).trans (Gen.V17_main_arg14 m outs c)⟩
    · iexact HSI

end Cert.KernelIdeal.Run

end
-- ==== Proof.KBody0.lean ====
import proofs.«146132_j71485435675282_1_alg».proof.Proof.Gen.Kernel.Launch
import proofs.«146132_j71485435675282_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tests of the body on the contraction step j: whether it is the first, and whether it is the last. -/
abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1

variable (c : Dev nD) (i : grid0.Coords) (arg2 : Memref sig .tc .vmem S256x1024 .f32) (harg2 : arg2.IsWhole) (arg3 : Memref sig .tc .vmem S1024x1024 .f32) (harg3 : arg3.IsWhole) (arg4 : Memref sig .tc .vmem S4x1024 .f32) (harg4 : arg4.IsWhole) (arg5 : Memref sig .tc .vmem S256x1024 .f32) (harg5 : arg5.IsWhole) (arg6 : Memref sig .tc .vmem S256x1024 .f32) (harg6 : arg6.IsWhole)

set_option maxHeartbeats 1000000 in
/-- A first step that is not the last: the accumulator, whatever it held, ends at a list of stores; the three inputs and the output block come back as they were. -/
noncomputable def kernelRun0_A (hc0 : cond0_0 i) (hc1 : ¬cond0_1 i)
    (x0 : Vec F S256x1024 .f32) (x1 : Vec F S1024x1024 .f32) (x2 : Vec F S4x1024 .f32) :
    { LS0 : List (View.Piece (Elt F) S256x1024 .f32) //
      ∀ (xi3 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__scnn_layer_kernel i arg2 harg2 arg3 harg3 arg4 harg4 arg5 harg5 arg6 harg6) K } := by
  refine ⟨?_, fun xi3 E K => ?run⟩
  case run =>
    simp only [cc0__scnn_layer_kernel_eq_skeleton]; unfold cc0__scnn_layer_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- A step that is neither first nor last: the same, from an accumulator whose contents are known. -/
noncomputable def kernelRun0_B (hc0 : ¬cond0_0 i) (hc1 : ¬cond0_1 i)
    (x0 : Vec F S256x1024 .f32) (x1 : Vec F S1024x1024 .f32) (x2 : Vec F S4x1024 .f32) (xs0 : Vec F S256x1024 .f32) :
    { LS0 : List (View.Piece (Elt F) S256x1024 .f32) //
      ∀ (xi3 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__scnn_layer_kernel i arg2 harg2 arg3 harg3 arg4 harg4 arg5 harg5 arg6 harg6) K } := by
  refine ⟨?_, fun xi3 E K => ?run⟩
  case run =>
    simp only [cc0__scnn_layer_kernel_eq_skeleton]; unfold cc0__scnn_layer_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- A last step that is not the first: the accumulator and the output block both end at lists of stores. -/
noncomputable def kernelRun0_C (hc0 : ¬cond0_0 i) (hc1 : cond0_1 i)
    (x0 : Vec F S256x1024 .f32) (x1 : Vec F S1024x1024 .f32) (x2 : Vec F S4x1024 .f32) (xs0 : Vec F S256x1024 .f32) :
    Σ' (L3 : List (View.Piece (Elt F) S256x1024 .f32)), { LS0 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__scnn_layer_kernel i arg2 harg2 arg3 harg3 arg4 harg4 arg5 harg5 arg6 harg6) K } := by
  refine ⟨?_, ?_, fun E K => ?run⟩
  case run =>
    simp only [cc0__scnn_layer_kernel_eq_skeleton]; unfold cc0__scnn_layer_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

theorem hzr0 : (![0, 0] : Fin 2 → Nat) = fun _ => 0 := funext fun a => match a with | ⟨0, _⟩ => rfl | ⟨1, _⟩ => rfl

/-- The stores of a first step cover the accumulator and read back as the block product added onto the zero block. -/
theorem readA0 (hc0 : cond0_0 i) (hc1 : ¬cond0_1 i) (x0 : Vec F S256x1024 .f32) (x1 : Vec F S1024x1024 .f32) (x2 : Vec F S4x1024 .f32) {v : View sig .tc .vmem S256x1024 .f32} {f : v.ty.Contents (Elt F)} :
    v.read (Elt F) (v.writes (Elt F) f (kernelRun0_A c i arg2 harg2 arg3 harg3 arg4 harg4 arg5 harg5 arg6 harg6 hc0 hc1 x0 x1 x2).1) = k0_pay2 x0 x1 k0_pay1 := by
  rw [View.read_writes_eq_canon _ _ _ (View.cover_of_tiledL (kernelRun0_A c i arg2 harg2 arg3 harg3 arg4 harg4 arg5 harg5 arg6 harg6 hc0 hc1 x0 x1 x2).1 S256x1024.size (by sl_kernel_rfl))]
  unfold kernelRun0_A
  dsimp only
  sl_unfold_words
  rw [View.canon_cons_unit_zero (S := S256x1024) hzr0]
  simp only [View.readAt_eq_ld, harg2.read_unread, harg3.read_unread, harg4.read_unread, harg6.read_unread, View.ld_unit_zero (S := S256x1024) hzr0, View.ld_unit_zero (S := S1024x1024) hzr0, View.ld_unit_zero (S := S4x1024) hzr0, View.readCov_unit_zero (S := S256x1024) _ hzr0]

/-- Those of a later step read back as the block product added onto what the accumulator held. -/
theorem readB0 (hc0 : ¬cond0_0 i) (hc1 : ¬cond0_1 i) (x0 : Vec F S256x1024 .f32) (x1 : Vec F S1024x1024 .f32) (x2 : Vec F S4x1024 .f32) (xs0 : Vec F S256x1024 .f32) {v : View sig .tc .vmem S256x1024 .f32} {f : v.ty.Contents (Elt F)} :
    v.read (Elt F) (v.writes (Elt F) f (kernelRun0_B c i arg2 harg2 arg3 harg3 arg4 harg4 arg5 harg5 arg6 harg6 hc0 hc1 x0 x1 x2 xs0).1) = k0_pay2 x0 x1 xs0 := by
  rw [View.read_writes_eq_canon _ _ _ (View.cover_of_tiledL (kernelRun0_B c i arg2 harg2 arg3 harg3 arg4 harg4 arg5 harg5 arg6 harg6 hc0 hc1 x0 x1 x2 xs0).1 S256x1024.size (by sl_kernel_rfl))]
  unfold kernelRun0_B
  dsimp only
  sl_unfold_words
  rw [View.canon_unit_zero (S := S256x1024) hzr0]
  simp only [View.readAt_eq_ld, harg2.read_unread, harg3.read_unread, harg4.read_unread, harg6.read_unread, View.ld_unit_zero (S := S256x1024) hzr0, View.ld_unit_zero (S := S1024x1024) hzr0, View.ld_unit_zero (S := S4x1024) hzr0, View.readCov_unit_zero (S := S256x1024) _ hzr0]

theorem readC0 (hc0 : ¬cond0_0 i) (hc1 : cond0_1 i) (x0 : Vec F S256x1024 .f32) (x1 : Vec F S1024x1024 .f32) (x2 : Vec F S4x1024 .f32) (xs0 : Vec F S256x1024 .f32) {v : View sig .tc .vmem S256x1024 .f32} {f : v.ty.Contents (Elt F)} :
    v.read (Elt F) (v.writes (Elt F) f (kernelRun0_C c i arg2 harg2 arg3 harg3 arg4 harg4 arg5 harg5 arg6 harg6 hc0 hc1 x0 x1 x2 xs0).2.1) = k0_pay2 x0 x1 xs0 := by
  rw [View.read_writes_eq_canon _ _ _ (View.cover_of_tiledL (kernelRun0_C c i arg2 harg2 arg3 harg3 arg4 harg4 arg5 harg5 arg6 harg6 hc0 hc1 x0 x1 x2 xs0).2.1 S256x1024.size (by sl_kernel_rfl))]
  unfold kernelRun0_C
  dsimp only
  sl_unfold_words
  rw [View.canon_unit_zero (S := S256x1024) hzr0]
  simp only [View.readAt_eq_ld, harg2.read_unread, harg3.read_unread, harg4.read_unread, harg6.read_unread, View.ld_unit_zero (S := S256x1024) hzr0, View.ld_unit_zero (S := S1024x1024) hzr0, View.ld_unit_zero (S := S4x1024) hzr0, View.readCov_unit_zero (S := S256x1024) _ hzr0]

/-- The output block of a last step reads back as the filter sum of the accumulator just stored. -/
theorem readOut0 (hc0 : ¬cond0_0 i) (hc1 : cond0_1 i) (x0 : Vec F S256x1024 .f32) (x1 : Vec F S1024x1024 .f32) (x2 : Vec F S4x1024 .f32) (xs0 : Vec F S256x1024 .f32) {v : View sig .tc .vmem S256x1024 .f32} {f : v.ty.Contents (Elt F)} :
    v.read (Elt F) (v.writes (Elt F) f (kernelRun0_C c i arg2 harg2 arg3 harg3 arg4 harg4 arg5 harg5 arg6 harg6 hc0 hc1 x0 x1 x2 xs0).1) = k0_pay3 (k0_pay2 x0 x1 xs0) x2 := by
  rw [View.read_writes_eq_canon _ _ _ (View.cover_of_tiledL (kernelRun0_C c i arg2 harg2 arg3 harg3 arg4 harg4 arg5 harg5 arg6 harg6 hc0 hc1 x0 x1 x2 xs0).1 S256x1024.size (by sl_kernel_rfl))]
  unfold kernelRun0_C
  dsimp only
  sl_unfold_words
  rw [View.canon_unit_zero (S := S256x1024) hzr0]
  simp only [View.readAt_eq_ld, harg2.read_unread, harg3.read_unread, harg4.read_unread, harg6.read_unread, View.ld_unit_zero (S := S256x1024) hzr0, View.ld_unit_zero (S := S1024x1024) hzr0, View.ld_unit_zero (S := S4x1024) hzr0, View.readCov_unit_zero (S := S256x1024) _ hzr0]

end Cert.Kernel.Reg

end
-- ==== Proof.KReg0.lean ====

import proofs.«146132_j71485435675282_1_alg».proof.Proof.Gen.Kernel.Points
import proofs.«146132_j71485435675282_1_alg».proof.Proof.KBody0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region is entered with. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem hcond0_0 : ∀ t : Fin cfg0.N, cond0_0 (grid0.coords t) ↔ t.val % 2 = 0 :=
  (by decide +kernel : ∀ t : Fin grid0.N, cond0_0 (grid0.coords t) ↔ t.val % 2 = 0)

theorem hcond0_1 : ∀ t : Fin cfg0.N, cond0_1 (grid0.coords t) ↔ t.val % 2 = 1 :=
  (by decide +kernel : ∀ t : Fin grid0.N, cond0_1 (grid0.coords t) ↔ t.val % 2 = 1)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .f32 := win0_3.stage (cfg0.slots t 3)
abbrev hs0_3 (t : Fin cfg0.N) : (ms0_3 t).IsWhole := hstage0_3 ((cfg0.slots t 3).cast nbuf0_3)

abbrev scM0_0 : Memref sig .tc .vmem S256x1024 .f32 := Memref.whole cc0_scratch0

abbrev restBut0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0_0 fullShare d) ∗ restBut0 c) ∗ (∃ r, prngReg c r)) := by
  unfold Pipeline.ΦA; rw [scopedRest0_split]; simp only [scM0_0, owns_whole]; try rfl

def outIdle0 : Vec F S256x1024 .f32 := View.canon []

abbrev runA0 (c : Dev nD) (t : Fin cfg0.N) (hc0 : cond0_0 (grid0.coords t)) (hc1 : ¬cond0_1 (grid0.coords t)) :=
  kernelRun0_A (F := F) c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t)
abbrev runB0 (c : Dev nD) (t : Fin cfg0.N) (hc0 : ¬cond0_0 (grid0.coords t)) (hc1 : ¬cond0_1 (grid0.coords t)) (xs0 : Vec F S256x1024 .f32) :=
  kernelRun0_B (F := F) c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t) xs0
abbrev runC0 (c : Dev nD) (t : Fin cfg0.N) (hc0 : ¬cond0_0 (grid0.coords t)) (hc1 : cond0_1 (grid0.coords t)) (xs0 : Vec F S256x1024 .f32) :=
  kernelRun0_C (F := F) c (grid0.coords t) (ms0_0 t) (hs0_0 t) (ms0_1 t) (hs0_1 t) (ms0_2 t) (hs0_2 t) (ms0_3 t) (hs0_3 t) scM0_0 (Memref.isWhole_whole _) hc0 hc1 (iblk0 V c 0 t) (iblk0 V c 1 t) (iblk0 V c 2 t) xs0

/-- The accumulator after point n: the product of the point's signal and operator blocks, added onto zero when j = 0 and onto the accumulator after point n - 1 otherwise. -/
def accAt0 (c : Dev nD) : (n : ℕ) → n < cfg0.N → Vec F S256x1024 .f32
  | 0, hn => k0_pay2 (iblk0 V c 0 ⟨0, hn⟩) (iblk0 V c 1 ⟨0, hn⟩) k0_pay1
  | n + 1, hn => k0_pay2 (iblk0 V c 0 ⟨n + 1, hn⟩) (iblk0 V c 1 ⟨n + 1, hn⟩)
      (if (n + 1) % 2 = 0 then k0_pay1 else accAt0 c n (Nat.lt_of_succ_lt hn))

theorem accAt0_first (c : Dev nD) (t : Fin cfg0.N) (h0 : t.val % 2 = 0) :
    accAt0 V c t.val t.isLt = k0_pay2 (iblk0 V c 0 t) (iblk0 V c 1 t) k0_pay1 := by
  obtain ⟨n, hn⟩ := t
  cases n with
  | zero => rfl
  | succ n => show k0_pay2 _ _ (if (n + 1) % 2 = 0 then _ else _) = _; rw [if_pos h0]

theorem accAt0_next (c : Dev nD) (t : Fin cfg0.N) (h0 : ¬t.val % 2 = 0) :
    accAt0 V c t.val t.isLt = k0_pay2 (iblk0 V c 0 t) (iblk0 V c 1 t) (accAt0 V c (t.val - 1) (Nat.lt_of_le_of_lt (Nat.sub_le _ _) t.isLt)) := by
  obtain ⟨n, hn⟩ := t
  cases n with
  | zero => exact absurd (Nat.zero_mod _) h0
  | succ n => show k0_pay2 _ _ (if (n + 1) % 2 = 0 then _ else _) = _; rw [if_neg h0]; rfl

/-- The output block after point t: at the last j the filter sum of the accumulator; elsewhere nothing consults it. -/
def outAt0 (c : Dev nD) (t : Fin cfg0.N) : Vec F S256x1024 .f32 :=
  if t.val % 2 = 1 then k0_pay3 (accAt0 V c t.val t.isLt) (iblk0 V c 2 t) else outIdle0

/-- The invariant between points: before the first the entry invariant, afterwards the accumulator at the previous point's value beside the untouched rest. -/
def PhiS0 (c : Dev nD) : (n : ℕ) → n ≤ cfg0.N → sProp 𝕄
  | 0, _ => Pipeline.ΦA spec0 c
  | n + 1, hn => iprop(iprop(owns (c : Thread nD τ) scM0_0 fullShare (accAt0 V c n hn) ∗ restBut0 c) ∗ (∃ r, prngReg c r))

/-- Forgetting what the accumulator holds. -/
theorem PhiS0_weaken (c : Dev nD) (n : ℕ) (h : n ≤ cfg0.N) :
    PhiS0 V c n h ⊢ iprop(iprop((∃ d, owns (c : Thread nD τ) scM0_0 fullShare d) ∗ restBut0 c) ∗ (∃ r, prngReg c r)) := by
  cases n with
  | zero => rw [show PhiS0 V c 0 h = Pipeline.ΦA spec0 c from rfl, PhiA0_eq]
  | succ n =>
    show iprop(iprop(owns (c : Thread nD τ) scM0_0 fullShare (accAt0 V c n h) ∗ restBut0 c) ∗ (∃ r, prngReg c r)) ⊢ _
    iintro ⟨⟨HS0, Hsr⟩, Hg⟩
    isplitl [HS0 Hsr]
    · isplitl [HS0]
      · iexists _; iexact HS0
      iexact Hsr
    iexact Hg

theorem PhiS0_pos (c : Dev nD) (n : ℕ) (h : n ≤ cfg0.N) (hz : n ≠ 0) :
    PhiS0 V c n h = iprop(iprop(owns (c : Thread nD τ) scM0_0 fullShare (accAt0 V c (n - 1) (by omega)) ∗ restBut0 c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => outAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = outAt0 V c t := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

theorem bodyAt0_eq (t : Fin cfg0.N) : bodyAt0 (F := F) t = cc0__scnn_layer_kernel (grid0.coords t) (ms0_0 t) (hs0_0 t) (ms0_1 t) (hs0_1 t) (ms0_2 t) (hs0_2 t) (ms0_3 t) (hs0_3 t) scM0_0 (Memref.isWhole_whole _) := rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- One point of the grid. The residue of t says which case the body runs; the invariant hands it the accumulator and takes it back at this point's value, and where nothing is stored into the output block it goes back as it came. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  rw [bodyAt0_eq]
  simp only [before0_0, before0_1, before0_2]
  rw [show (dat0 V c).owesAt () t.succ = (dat0 V c).owesAt () t.castSucc from rfl]
  rw [show (dat0 V c).Φ t.succ = iprop(iprop(owns (c : Thread nD τ) scM0_0 fullShare (accAt0 V c t.val t.isLt) ∗ restBut0 c) ∗ (∃ r, prngReg c r)) from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [PhiS0_castSucc V c t]
  by_cases h1 : t.val % 2 = 1
  · have h0 : ¬t.val % 2 = 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    rw [show outAt0 V c t = k0_pay3 (accAt0 V c t.val t.isLt) (iblk0 V c 2 t) from if_pos h1, accAt0_next V c t h0,
      PhiS0_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runC0 V c t (fun h => h0 ((hcond0_0 t).mp h)) ((hcond0_1 t).mpr h1) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hsr Hg]
    · isplitl [HS0 Hsr]
      · isplitl [HS0]
        · unfold owns; iexists _; isplitr
          swap; · iexact HS0
          ipureintro; apply readC0
        iexact Hsr
      iexact Hg
    isplitl [Ho]; · iexact Ho
    isplitl [H0]; · iexact H0
    isplitl [H1]; · iexact H1
    isplitl [H2]; · iexact H2
    unfold owns; iexists _; isplitr
    swap; · iexact H3
    ipureintro; apply readOut0
  rw [Dat.leavesExact_idle (dat0 V c) 3 t (idleAt0_3 t (fun h => h1 ((hcond0_1 t).mp h))) (noFlush0_3 t (fun h => h1 ((hcond0_1 t).mp h)))]
  by_cases h0 : t.val % 2 = 0
  · rw [accAt0_first V c t h0]
    iintro ⟨HP, Ho, ⟨%d0, H0⟩, ⟨%d1, H1⟩, ⟨%d2, H2⟩, ⟨%d3, H3⟩⟩
    ihave HQ := (PhiS0_weaken V c _ _) $$ HP
    icases HQ with ⟨⟨HS0, Hsr⟩, Hg⟩
    iapply ((runA0 V c t ((hcond0_0 t).mpr h0) (fun h => h1 ((hcond0_1 t).mp h))).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readA0
        iexact Hsr
      iexact Hg
    isplitl [Ho]; · iexact Ho
    isplitl [H0]; · iexact H0
    isplitl [H1]; · iexact H1
    isplitl [H2]; · iexact H2
    iexists _; iexact H3
  · rw [accAt0_next V c t h0, PhiS0_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runB0 V c t (fun h => h0 ((hcond0_0 t).mp h)) (fun h => h1 ((hcond0_1 t).mp h)) _).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readB0
        iexact Hsr
      iexact Hg
    isplitl [Ho]; · iexact Ho
    isplitl [H0]; · iexact H0
    isplitl [H1]; · iexact H1
    isplitl [H2]; · iexact H2
    iexists _; iexact H3

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := by
  rw [show (dat0 V c).Φ 0 = Pipeline.ΦA spec0 c from rfl]

theorem hout0 (c : Dev nD) : (dat0 V c).Φ (Fin.last cfg0.N) ⊢ (Pipeline.ΦA spec0 c : sProp 𝕄) := by
  rw [PhiA0_eq, show (dat0 V c).Φ (Fin.last cfg0.N) = PhiS0 V c (Fin.last cfg0.N).val (Nat.le_of_lt_succ (Fin.last cfg0.N).isLt) from rfl]
  exact PhiS0_weaken V c _ _

end Cert.Kernel.Reg

end
-- ==== Proof.KReg1.lean ====

import proofs.«146132_j71485435675282_1_alg».proof.Proof.Gen.Kernel.Points
import proofs.«146132_j71485435675282_1_alg».proof.Proof.KBody0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region is entered with. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem hcond1_0 : ∀ t : Fin cfg1.N, cond0_0 (grid1.coords t) ↔ t.val % 2 = 0 :=
  (by decide +kernel : ∀ t : Fin grid1.N, cond0_0 (grid1.coords t) ↔ t.val % 2 = 0)

theorem hcond1_1 : ∀ t : Fin cfg1.N, cond0_1 (grid1.coords t) ↔ t.val % 2 = 1 :=
  (by decide +kernel : ∀ t : Fin grid1.N, cond0_1 (grid1.coords t) ↔ t.val % 2 = 1)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond0_1 (grid1.coords t) → cfg1.idle 3 (grid1.coords t) = true := by decide +kernel
theorem noFlush1_3 : ∀ t : Fin cfg1.N, ¬cond0_1 (grid1.coords t) → (cfg1.win 3).flush t = false := by decide +kernel
theorem liveAt1_3 : ∀ t : Fin cfg1.N, cond0_1 (grid1.coords t) → cfg1.idle 3 (grid1.coords t) = false := by decide +kernel

abbrev ms1_0 (t : Fin cfg1.N) : Memref sig .tc .vmem S256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x1024 .f32 := win1_3.stage (cfg1.slots t 3)
abbrev hs1_3 (t : Fin cfg1.N) : (ms1_3 t).IsWhole := hstage1_3 ((cfg1.slots t 3).cast nbuf1_3)

abbrev scM1_0 : Memref sig .tc .vmem S256x1024 .f32 := Memref.whole cc1_scratch0

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1_0 fullShare d) ∗ restBut1 c) ∗ (∃ r, prngReg c r)) := by
  unfold Pipeline.ΦA; rw [scopedRest1_split]; simp only [scM1_0, owns_whole]; try rfl

def outIdle1 : Vec F S256x1024 .f32 := View.canon []

abbrev runA1 (c : Dev nD) (t : Fin cfg1.N) (hc0 : cond0_0 (grid1.coords t)) (hc1 : ¬cond0_1 (grid1.coords t)) :=
  kernelRun0_A (F := F) c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t)
abbrev runB1 (c : Dev nD) (t : Fin cfg1.N) (hc0 : ¬cond0_0 (grid1.coords t)) (hc1 : ¬cond0_1 (grid1.coords t)) (xs0 : Vec F S256x1024 .f32) :=
  kernelRun0_B (F := F) c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) xs0
abbrev runC1 (c : Dev nD) (t : Fin cfg1.N) (hc0 : ¬cond0_0 (grid1.coords t)) (hc1 : cond0_1 (grid1.coords t)) (xs0 : Vec F S256x1024 .f32) :=
  kernelRun0_C (F := F) c (grid1.coords t) (ms1_0 t) (hs1_0 t) (ms1_1 t) (hs1_1 t) (ms1_2 t) (hs1_2 t) (ms1_3 t) (hs1_3 t) scM1_0 (Memref.isWhole_whole _) hc0 hc1 (iblk1 V c 0 t) (iblk1 V c 1 t) (iblk1 V c 2 t) xs0

/-- The accumulator after point n: the product of the point's signal and operator blocks, added onto zero when j = 0 and onto the accumulator after point n - 1 otherwise. -/
def accAt1 (c : Dev nD) : (n : ℕ) → n < cfg1.N → Vec F S256x1024 .f32
  | 0, hn => k0_pay2 (iblk1 V c 0 ⟨0, hn⟩) (iblk1 V c 1 ⟨0, hn⟩) k0_pay1
  | n + 1, hn => k0_pay2 (iblk1 V c 0 ⟨n + 1, hn⟩) (iblk1 V c 1 ⟨n + 1, hn⟩)
      (if (n + 1) % 2 = 0 then k0_pay1 else accAt1 c n (Nat.lt_of_succ_lt hn))

theorem accAt1_first (c : Dev nD) (t : Fin cfg1.N) (h0 : t.val % 2 = 0) :
    accAt1 V c t.val t.isLt = k0_pay2 (iblk1 V c 0 t) (iblk1 V c 1 t) k0_pay1 := by
  obtain ⟨n, hn⟩ := t
  cases n with
  | zero => rfl
  | succ n => show k0_pay2 _ _ (if (n + 1) % 2 = 0 then _ else _) = _; rw [if_pos h0]

theorem accAt1_next (c : Dev nD) (t : Fin cfg1.N) (h0 : ¬t.val % 2 = 0) :
    accAt1 V c t.val t.isLt = k0_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => show k0_pay2 _ _ (if (n + 1) % 2 = 0 then _ else _) = _; rw [if_neg h0]; rfl

/-- The output block after point t: at the last j the filter sum of the accumulator; elsewhere nothing consults it. -/
def outAt1 (c : Dev nD) (t : Fin cfg1.N) : Vec F S256x1024 .f32 :=
  if t.val % 2 = 1 then k0_pay3 (accAt1 V c t.val t.isLt) (iblk1 V c 2 t) else outIdle1

/-- The invariant between points: before the first the entry invariant, afterwards the accumulator at the previous point's value beside the untouched rest. -/
def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ restBut1 c) ∗ (∃ r, prngReg c r))

/-- Forgetting what the accumulator holds. -/
theorem PhiS1_weaken (c : Dev nD) (n : ℕ) (h : n ≤ cfg1.N) :
    PhiS1 V c n h ⊢ iprop(iprop((∃ d, owns (c : Thread nD τ) scM1_0 fullShare d) ∗ restBut1 c) ∗ (∃ r, prngReg c r)) := by
  cases n with
  | zero => rw [show PhiS1 V c 0 h = Pipeline.ΦA spec1 c from rfl, PhiA1_eq]
  | succ n =>
    show iprop(iprop(owns (c : Thread nD τ) scM1_0 fullShare (accAt1 V c n h) ∗ restBut1 c) ∗ (∃ r, prngReg c r)) ⊢ _
    iintro ⟨⟨HS0, Hsr⟩, Hg⟩
    isplitl [HS0 Hsr]
    · isplitl [HS0]
      · iexists _; iexact HS0
      iexact Hsr
    iexact Hg

theorem PhiS1_pos (c : Dev nD) (n : ℕ) (h : n ≤ cfg1.N) (hz : n ≠ 0) :
    PhiS1 V c n h = iprop(iprop(owns (c : Thread nD τ) scM1_0 fullShare (accAt1 V c (n - 1) (by omega)) ∗ restBut1 c) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt1 V c t := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

theorem bodyAt1_eq (t : Fin cfg1.N) : bodyAt1 (F := F) t = cc0__scnn_layer_kernel (grid1.coords t) (ms1_0 t) (hs1_0 t) (ms1_1 t) (hs1_1 t) (ms1_2 t) (hs1_2 t) (ms1_3 t) (hs1_3 t) scM1_0 (Memref.isWhole_whole _) := rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- One point of the grid. The residue of t says which case the body runs; the invariant hands it the accumulator and takes it back at this point's value, and where nothing is stored into the output block it goes back as it came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1
  rw [bodyAt1_eq]
  simp only [before1_0, before1_1, before1_2]
  rw [show (dat1 V c).owesAt () t.succ = (dat1 V c).owesAt () t.castSucc from rfl]
  rw [show (dat1 V c).Φ t.succ = iprop(iprop(owns (c : Thread nD τ) scM1_0 fullShare (accAt1 V c t.val t.isLt) ∗ restBut1 c) ∗ (∃ r, prngReg c r)) from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [PhiS1_castSucc V c t]
  by_cases h1 : t.val % 2 = 1
  · have h0 : ¬t.val % 2 = 0 := by omega
    rw [show (dat1 V c).leavesExact 3 t = owns (c : Thread nD τ) (ms1_3 t) fullShare ((dat1 V c).after 3 t) from by
      unfold Dat.leavesExact; rw [liveAt1_3 t ((hcond1_1 t).mpr h1)], after1_3]
    rw [show outAt1 V c t = k0_pay3 (accAt1 V c t.val t.isLt) (iblk1 V c 2 t) from if_pos h1, accAt1_next V c t h0,
      PhiS1_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runC1 V c t (fun h => h0 ((hcond1_0 t).mp h)) ((hcond1_1 t).mpr h1) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hsr Hg]
    · isplitl [HS0 Hsr]
      · isplitl [HS0]
        · unfold owns; iexists _; isplitr
          swap; · iexact HS0
          ipureintro; apply readC0
        iexact Hsr
      iexact Hg
    isplitl [Ho]; · iexact Ho
    isplitl [H0]; · iexact H0
    isplitl [H1]; · iexact H1
    isplitl [H2]; · iexact H2
    unfold owns; iexists _; isplitr
    swap; · iexact H3
    ipureintro; apply readOut0
  rw [Dat.leavesExact_idle (dat1 V c) 3 t (idleAt1_3 t (fun h => h1 ((hcond1_1 t).mp h))) (noFlush1_3 t (fun h => h1 ((hcond1_1 t).mp h)))]
  by_cases h0 : t.val % 2 = 0
  · rw [accAt1_first V c t h0]
    iintro ⟨HP, Ho, ⟨%d0, H0⟩, ⟨%d1, H1⟩, ⟨%d2, H2⟩, ⟨%d3, H3⟩⟩
    ihave HQ := (PhiS1_weaken V c _ _) $$ HP
    icases HQ with ⟨⟨HS0, Hsr⟩, Hg⟩
    iapply ((runA1 V c t ((hcond1_0 t).mpr h0) (fun h => h1 ((hcond1_1 t).mp h))).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readA0
        iexact Hsr
      iexact Hg
    isplitl [Ho]; · iexact Ho
    isplitl [H0]; · iexact H0
    isplitl [H1]; · iexact H1
    isplitl [H2]; · iexact H2
    iexists _; iexact H3
  · rw [accAt1_next V c t h0, PhiS1_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runB1 V c t (fun h => h0 ((hcond1_0 t).mp h)) (fun h => h1 ((hcond1_1 t).mp h)) _).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readB0
        iexact Hsr
      iexact Hg
    isplitl [Ho]; · iexact Ho
    isplitl [H0]; · iexact H0
    isplitl [H1]; · iexact H1
    isplitl [H2]; · iexact H2
    iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = Pipeline.ΦA spec1 c from rfl]

theorem hout1 (c : Dev nD) : (dat1 V c).Φ (Fin.last cfg1.N) ⊢ (Pipeline.ΦA spec1 c : sProp 𝕄) := by
  rw [PhiA1_eq, show (dat1 V c).Φ (Fin.last cfg1.N) = PhiS1 V c (Fin.last cfg1.N).val (Nat.le_of_lt_succ (Fin.last cfg1.N).isLt) from rfl]
  exact PhiS1_weaken V c _ _

end Cert.Kernel.Reg

end
-- ==== Proof.KBody2.lean ====
import proofs.«146132_j71485435675282_1_alg».proof.Proof.Gen.Kernel.Launch
import proofs.«146132_j71485435675282_1_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two tests of the body on the contraction step j: whether it is the first, and whether it is the last. -/
abbrev cond2_0 (i : grid2.Coords) : Prop := (Scalar.cmpi .ne (Scalar.extui (Scalar.cmpi .eq (BitVec.ofNat 32 (i 1).val) 0#32)) 0#32) = 1#1
abbrev cond2_1 (i : grid2.Coords) : Prop := k2_cond2 i = 1#1

variable (c : Dev nD) (i : grid2.Coords) (arg2 : Memref sig .tc .vmem S256x1024 .f32) (harg2 : arg2.IsWhole) (arg3 : Memref sig .tc .vmem S1024x1024 .f32) (harg3 : arg3.IsWhole) (arg4 : Memref sig .tc .vmem S4x1024 .f32) (harg4 : arg4.IsWhole) (arg5 : Memref sig .tc .vmem S256x1024 .f32) (harg5 : arg5.IsWhole) (arg6 : Memref sig .tc .vmem S256x1024 .f32) (harg6 : arg6.IsWhole)

set_option maxHeartbeats 1000000 in
/-- A first step that is not the last: the accumulator, whatever it held, ends at a list of stores; the three inputs and the output block come back as they were. -/
noncomputable def kernelRun2_A (hc0 : cond2_0 i) (hc1 : ¬cond2_1 i)
    (x0 : Vec F S256x1024 .f32) (x1 : Vec F S1024x1024 .f32) (x2 : Vec F S4x1024 .f32) :
    { LS0 : List (View.Piece (Elt F) S256x1024 .f32) //
      ∀ (xi3 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scnn_layer_kernel i arg2 harg2 arg3 harg3 arg4 harg4 arg5 harg5 arg6 harg6) K } := by
  refine ⟨?_, fun xi3 E K => ?run⟩
  case run =>
    simp only [cc2__scnn_layer_kernel_eq_skeleton]; unfold cc2__scnn_layer_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- A step that is neither first nor last: the same, from an accumulator whose contents are known. -/
noncomputable def kernelRun2_B (hc0 : ¬cond2_0 i) (hc1 : ¬cond2_1 i)
    (x0 : Vec F S256x1024 .f32) (x1 : Vec F S1024x1024 .f32) (x2 : Vec F S4x1024 .f32) (xs0 : Vec F S256x1024 .f32) :
    { LS0 : List (View.Piece (Elt F) S256x1024 .f32) //
      ∀ (xi3 : Vec F S256x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scnn_layer_kernel i arg2 harg2 arg3 harg3 arg4 harg4 arg5 harg5 arg6 harg6) K } := by
  refine ⟨?_, fun xi3 E K => ?run⟩
  case run =>
    simp only [cc2__scnn_layer_kernel_eq_skeleton]; unfold cc2__scnn_layer_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 1000000 in
/-- A last step that is not the first: the accumulator and the output block both end at lists of stores. -/
noncomputable def kernelRun2_C (hc0 : ¬cond2_0 i) (hc1 : cond2_1 i)
    (x0 : Vec F S256x1024 .f32) (x1 : Vec F S1024x1024 .f32) (x2 : Vec F S4x1024 .f32) (xs0 : Vec F S256x1024 .f32) :
    Σ' (L3 : List (View.Piece (Elt F) S256x1024 .f32)), { LS0 : List (View.Piece (Elt F) S256x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__scnn_layer_kernel i arg2 harg2 arg3 harg3 arg4 harg4 arg5 harg5 arg6 harg6) K } := by
  refine ⟨?_, ?_, fun E K => ?run⟩
  case run =>
    simp only [cc2__scnn_layer_kernel_eq_skeleton]; unfold cc2__scnn_layer_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

theorem hzr2 : (![0, 0] : Fin 2 → Nat) = fun _ => 0 := funext fun a => match a with | ⟨0, _⟩ => rfl | ⟨1, _⟩ => rfl

/-- The stores of a first step cover the accumulator and read back as the block product added onto the zero block. -/
theorem readA2 (hc0 : cond2_0 i) (hc1 : ¬cond2_1 i) (x0 : Vec F S256x1024 .f32) (x1 : Vec F S1024x1024 .f32) (x2 : Vec F S4x1024 .f32) {v : View sig .tc .vmem S256x1024 .f32} {f : v.ty.Contents (Elt F)} :
    v.read (Elt F) (v.writes (Elt F) f (kernelRun2_A c i arg2 harg2 arg3 harg3 arg4 harg4 arg5 harg5 arg6 harg6 hc0 hc1 x0 x1 x2).1) = k2_pay2 x0 x1 k2_pay1 := by
  rw [View.read_writes_eq_canon _ _ _ (View.cover_of_tiledL (kernelRun2_A c i arg2 harg2 arg3 harg3 arg4 harg4 arg5 harg5 arg6 harg6 hc0 hc1 x0 x1 x2).1 S256x1024.size (by sl_kernel_rfl))]
  unfold kernelRun2_A
  dsimp only
  sl_unfold_words
  rw [View.canon_cons_unit_zero (S := S256x1024) hzr2]
  simp only [View.readAt_eq_ld, harg2.read_unread, harg3.read_unread, harg4.read_unread, harg6.read_unread, View.ld_unit_zero (S := S256x1024) hzr2, View.ld_unit_zero (S := S1024x1024) hzr2, View.ld_unit_zero (S := S4x1024) hzr2, View.readCov_unit_zero (S := S256x1024) _ hzr2]

/-- Those of a later step read back as the block product added onto what the accumulator held. -/
theorem readB2 (hc0 : ¬cond2_0 i) (hc1 : ¬cond2_1 i) (x0 : Vec F S256x1024 .f32) (x1 : Vec F S1024x1024 .f32) (x2 : Vec F S4x1024 .f32) (xs0 : Vec F S256x1024 .f32) {v : View sig .tc .vmem S256x1024 .f32} {f : v.ty.Contents (Elt F)} :
    v.read (Elt F) (v.writes (Elt F) f (kernelRun2_B c i arg2 harg2 arg3 harg3 arg4 harg4 arg5 harg5 arg6 harg6 hc0 hc1 x0 x1 x2 xs0).1) = k2_pay2 x0 x1 xs0 := by
  rw [View.read_writes_eq_canon _ _ _ (View.cover_of_tiledL (kernelRun2_B c i arg2 harg2 arg3 harg3 arg4 harg4 arg5 harg5 arg6 harg6 hc0 hc1 x0 x1 x2 xs0).1 S256x1024.size (by sl_kernel_rfl))]
  unfold kernelRun2_B
  dsimp only
  sl_unfold_words
  rw [View.canon_unit_zero (S := S256x1024) hzr2]
  simp only [View.readAt_eq_ld, harg2.read_unread, harg3.read_unread, harg4.read_unread, harg6.read_unread, View.ld_unit_zero (S := S256x1024) hzr2, View.ld_unit_zero (S := S1024x1024) hzr2, View.ld_unit_zero (S := S4x1024) hzr2, View.readCov_unit_zero (S := S256x1024) _ hzr2]

theorem readC2 (hc0 : ¬cond2_0 i) (hc1 : cond2_1 i) (x0 : Vec F S256x1024 .f32) (x1 : Vec F S1024x1024 .f32) (x2 : Vec F S4x1024 .f32) (xs0 : Vec F S256x1024 .f32) {v : View sig .tc .vmem S256x1024 .f32} {f : v.ty.Contents (Elt F)} :
    v.read (Elt F) (v.writes (Elt F) f (kernelRun2_C c i arg2 harg2 arg3 harg3 arg4 harg4 arg5 harg5 arg6 harg6 hc0 hc1 x0 x1 x2 xs0).2.1) = k2_pay2 x0 x1 xs0 := by
  rw [View.read_writes_eq_canon _ _ _ (View.cover_of_tiledL (kernelRun2_C c i arg2 harg2 arg3 harg3 arg4 harg4 arg5 harg5 arg6 harg6 hc0 hc1 x0 x1 x2 xs0).2.1 S256x1024.size (by sl_kernel_rfl))]
  unfold kernelRun2_C
  dsimp only
  sl_unfold_words
  rw [View.canon_unit_zero (S := S256x1024) hzr2]
  simp only [View.readAt_eq_ld, harg2.read_unread, harg3.read_unread, harg4.read_unread, harg6.read_unread, View.ld_unit_zero (S := S256x1024) hzr2, View.ld_unit_zero (S := S1024x1024) hzr2, View.ld_unit_zero (S := S4x1024) hzr2, View.readCov_unit_zero (S := S256x1024) _ hzr2]

/-- The output block of a last step reads back as the filter sum of the accumulator just stored. -/
theorem readOut2 (hc0 : ¬cond2_0 i) (hc1 : cond2_1 i) (x0 : Vec F S256x1024 .f32) (x1 : Vec F S1024x1024 .f32) (x2 : Vec F S4x1024 .f32) (xs0 : Vec F S256x1024 .f32) {v : View sig .tc .vmem S256x1024 .f32} {f : v.ty.Contents (Elt F)} :
    v.read (Elt F) (v.writes (Elt F) f (kernelRun2_C c i arg2 harg2 arg3 harg3 arg4 harg4 arg5 harg5 arg6 harg6 hc0 hc1 x0 x1 x2 xs0).1) = k2_pay3 (k2_pay2 x0 x1 xs0) x2 := by
  rw [View.read_writes_eq_canon _ _ _ (View.cover_of_tiledL (kernelRun2_C c i arg2 harg2 arg3 harg3 arg4 harg4 arg5 harg5 arg6 harg6 hc0 hc1 x0 x1 x2 xs0).1 S256x1024.size (by sl_kernel_rfl))]
  unfold kernelRun2_C
  dsimp only
  sl_unfold_words
  rw [View.canon_unit_zero (S := S256x1024) hzr2]
  simp only [View.readAt_eq_ld, harg2.read_unread, harg3.read_unread, harg4.read_unread, harg6.read_unread, View.ld_unit_zero (S := S256x1024) hzr2, View.ld_unit_zero (S := S1024x1024) hzr2, View.ld_unit_zero (S := S4x1024) hzr2, View.readCov_unit_zero (S := S256x1024) _ hzr2]

end Cert.Kernel.Reg

end
-- ==== Proof.KReg2.lean ====

import proofs.«146132_j71485435675282_1_alg».proof.Proof.Gen.Kernel.Points
import proofs.«146132_j71485435675282_1_alg».proof.Proof.KBody2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region is entered with. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem hcond2_0 : ∀ t : Fin cfg2.N, cond2_0 (grid2.coords t) ↔ t.val % 4 = 0 :=
  (by decide +kernel : ∀ t : Fin grid2.N, cond2_0 (grid2.coords t) ↔ t.val % 4 = 0)

theorem hcond2_1 : ∀ t : Fin cfg2.N, cond2_1 (grid2.coords t) ↔ t.val % 4 = 3 :=
  (by decide +kernel : ∀ t : Fin grid2.N, cond2_1 (grid2.coords t) ↔ t.val % 4 = 3)

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
theorem liveAt2_3 : ∀ t : Fin cfg2.N, cond2_1 (grid2.coords t) → cfg2.idle 3 (grid2.coords t) = false := by decide +kernel

abbrev ms2_0 (t : Fin cfg2.N) : Memref sig .tc .vmem S256x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S4x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256x1024 .f32 := win2_3.stage (cfg2.slots t 3)
abbrev hs2_3 (t : Fin cfg2.N) : (ms2_3 t).IsWhole := hstage2_3 ((cfg2.slots t 3).cast nbuf2_3)

abbrev scM2_0 : Memref sig .tc .vmem S256x1024 .f32 := Memref.whole cc2_scratch0

abbrev restBut2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop(iprop((∃ d, owns (c : Thread nD τ) scM2_0 fullShare d) ∗ restBut2 c) ∗ (∃ r, prngReg c r)) := by
  unfold Pipeline.ΦA; rw [scopedRest2_split]; simp only [scM2_0, owns_whole]; try rfl

def outIdle2 : Vec F S256x1024 .f32 := View.canon []

abbrev runA2 (c : Dev nD) (t : Fin cfg2.N) (hc0 : cond2_0 (grid2.coords t)) (hc1 : ¬cond2_1 (grid2.coords t)) :=
  kernelRun2_A (F := F) c (grid2.coords t) (ms2_0 t) (hs2_0 t) (ms2_1 t) (hs2_1 t) (ms2_2 t) (hs2_2 t) (ms2_3 t) (hs2_3 t) scM2_0 (Memref.isWhole_whole _) hc0 hc1 (iblk2 V c 0 t) (iblk2 V c 1 t) (iblk2 V c 2 t)
abbrev runB2 (c : Dev nD) (t : Fin cfg2.N) (hc0 : ¬cond2_0 (grid2.coords t)) (hc1 : ¬cond2_1 (grid2.coords t)) (xs0 : Vec F S256x1024 .f32) :=
  kernelRun2_B (F := F) c (grid2.coords t) (ms2_0 t) (hs2_0 t) (ms2_1 t) (hs2_1 t) (ms2_2 t) (hs2_2 t) (ms2_3 t) (hs2_3 t) scM2_0 (Memref.isWhole_whole _) hc0 hc1 (iblk2 V c 0 t) (iblk2 V c 1 t) (iblk2 V c 2 t) xs0
abbrev runC2 (c : Dev nD) (t : Fin cfg2.N) (hc0 : ¬cond2_0 (grid2.coords t)) (hc1 : cond2_1 (grid2.coords t)) (xs0 : Vec F S256x1024 .f32) :=
  kernelRun2_C (F := F) c (grid2.coords t) (ms2_0 t) (hs2_0 t) (ms2_1 t) (hs2_1 t) (ms2_2 t) (hs2_2 t) (ms2_3 t) (hs2_3 t) scM2_0 (Memref.isWhole_whole _) hc0 hc1 (iblk2 V c 0 t) (iblk2 V c 1 t) (iblk2 V c 2 t) xs0

/-- The accumulator after point n: the product of the point's signal and operator blocks, added onto zero when j = 0 and onto the accumulator after point n - 1 otherwise. -/
def accAt2 (c : Dev nD) : (n : ℕ) → n < cfg2.N → Vec F S256x1024 .f32
  | 0, hn => k2_pay2 (iblk2 V c 0 ⟨0, hn⟩) (iblk2 V c 1 ⟨0, hn⟩) k2_pay1
  | n + 1, hn => k2_pay2 (iblk2 V c 0 ⟨n + 1, hn⟩) (iblk2 V c 1 ⟨n + 1, hn⟩)
      (if (n + 1) % 4 = 0 then k2_pay1 else accAt2 c n (Nat.lt_of_succ_lt hn))

theorem accAt2_first (c : Dev nD) (t : Fin cfg2.N) (h0 : t.val % 4 = 0) :
    accAt2 V c t.val t.isLt = k2_pay2 (iblk2 V c 0 t) (iblk2 V c 1 t) k2_pay1 := by
  obtain ⟨n, hn⟩ := t
  cases n with
  | zero => rfl
  | succ n => show k2_pay2 _ _ (if (n + 1) % 4 = 0 then _ else _) = _; rw [if_pos h0]

theorem accAt2_next (c : Dev nD) (t : Fin cfg2.N) (h0 : ¬t.val % 4 = 0) :
    accAt2 V c t.val t.isLt = k2_pay2 (iblk2 V c 0 t) (iblk2 V c 1 t) (accAt2 V c (t.val - 1) (Nat.lt_of_le_of_lt (Nat.sub_le _ _) t.isLt)) := by
  obtain ⟨n, hn⟩ := t
  cases n with
  | zero => exact absurd (Nat.zero_mod _) h0
  | succ n => show k2_pay2 _ _ (if (n + 1) % 4 = 0 then _ else _) = _; rw [if_neg h0]; rfl

/-- The output block after point t: at the last j the filter sum of the accumulator; elsewhere nothing consults it. -/
def outAt2 (c : Dev nD) (t : Fin cfg2.N) : Vec F S256x1024 .f32 :=
  if t.val % 4 = 3 then k2_pay3 (accAt2 V c t.val t.isLt) (iblk2 V c 2 t) else outIdle2

/-- The invariant between points: before the first the entry invariant, afterwards the accumulator at the previous point's value beside the untouched rest. -/
def PhiS2 (c : Dev nD) : (n : ℕ) → n ≤ cfg2.N → sProp 𝕄
  | 0, _ => Pipeline.ΦA spec2 c
  | n + 1, hn => iprop(iprop(owns (c : Thread nD τ) scM2_0 fullShare (accAt2 V c n hn) ∗ restBut2 c) ∗ (∃ r, prngReg c r))

/-- Forgetting what the accumulator holds. -/
theorem PhiS2_weaken (c : Dev nD) (n : ℕ) (h : n ≤ cfg2.N) :
    PhiS2 V c n h ⊢ iprop(iprop((∃ d, owns (c : Thread nD τ) scM2_0 fullShare d) ∗ restBut2 c) ∗ (∃ r, prngReg c r)) := by
  cases n with
  | zero => rw [show PhiS2 V c 0 h = Pipeline.ΦA spec2 c from rfl, PhiA2_eq]
  | succ n =>
    show iprop(iprop(owns (c : Thread nD τ) scM2_0 fullShare (accAt2 V c n h) ∗ restBut2 c) ∗ (∃ r, prngReg c r)) ⊢ _
    iintro ⟨⟨HS0, Hsr⟩, Hg⟩
    isplitl [HS0 Hsr]
    · isplitl [HS0]
      · iexists _; iexact HS0
      iexact Hsr
    iexact Hg

theorem PhiS2_pos (c : Dev nD) (n : ℕ) (h : n ≤ cfg2.N) (hz : n ≠ 0) :
    PhiS2 V c n h = iprop(iprop(owns (c : Thread nD τ) scM2_0 fullShare (accAt2 V c (n - 1) (by omega)) ∗ restBut2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => outAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = outAt2 V c t := by dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)

theorem bodyAt2_eq (t : Fin cfg2.N) : bodyAt2 (F := F) t = cc2__scnn_layer_kernel (grid2.coords t) (ms2_0 t) (hs2_0 t) (ms2_1 t) (hs2_1 t) (ms2_2 t) (hs2_2 t) (ms2_3 t) (hs2_3 t) scM2_0 (Memref.isWhole_whole _) := rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- One point of the grid. The residue of t says which case the body runs; the invariant hands it the accumulator and takes it back at this point's value, and where nothing is stored into the output block it goes back as it came. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2
  rw [bodyAt2_eq]
  simp only [before2_0, before2_1, before2_2]
  rw [show (dat2 V c).owesAt () t.succ = (dat2 V c).owesAt () t.castSucc from rfl]
  rw [show (dat2 V c).Φ t.succ = iprop(iprop(owns (c : Thread nD τ) scM2_0 fullShare (accAt2 V c t.val t.isLt) ∗ restBut2 c) ∗ (∃ r, prngReg c r)) from rfl]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [PhiS2_castSucc V c t]
  by_cases h1 : t.val % 4 = 3
  · have h0 : ¬t.val % 4 = 0 := by omega
    rw [show (dat2 V c).leavesExact 3 t = owns (c : Thread nD τ) (ms2_3 t) fullShare ((dat2 V c).after 3 t) from by
      unfold Dat.leavesExact; rw [liveAt2_3 t ((hcond2_1 t).mpr h1)], after2_3]
    rw [show outAt2 V c t = k2_pay3 (accAt2 V c t.val t.isLt) (iblk2 V c 2 t) from if_pos h1, accAt2_next V c t h0,
      PhiS2_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runC2 V c t (fun h => h0 ((hcond2_0 t).mp h)) ((hcond2_1 t).mpr h1) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hsr Hg]
    · isplitl [HS0 Hsr]
      · isplitl [HS0]
        · unfold owns; iexists _; isplitr
          swap; · iexact HS0
          ipureintro; apply readC2
        iexact Hsr
      iexact Hg
    isplitl [Ho]; · iexact Ho
    isplitl [H0]; · iexact H0
    isplitl [H1]; · iexact H1
    isplitl [H2]; · iexact H2
    unfold owns; iexists _; isplitr
    swap; · iexact H3
    ipureintro; apply readOut2
  rw [Dat.leavesExact_idle (dat2 V c) 3 t (idleAt2_3 t (fun h => h1 ((hcond2_1 t).mp h))) (noFlush2_3 t (fun h => h1 ((hcond2_1 t).mp h)))]
  by_cases h0 : t.val % 4 = 0
  · rw [accAt2_first V c t h0]
    iintro ⟨HP, Ho, ⟨%d0, H0⟩, ⟨%d1, H1⟩, ⟨%d2, H2⟩, ⟨%d3, H3⟩⟩
    ihave HQ := (PhiS2_weaken V c _ _) $$ HP
    icases HQ with ⟨⟨HS0, Hsr⟩, Hg⟩
    iapply ((runA2 V c t ((hcond2_0 t).mpr h0) (fun h => h1 ((hcond2_1 t).mp h))).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readA2
        iexact Hsr
      iexact Hg
    isplitl [Ho]; · iexact Ho
    isplitl [H0]; · iexact H0
    isplitl [H1]; · iexact H1
    isplitl [H2]; · iexact H2
    iexists _; iexact H3
  · rw [accAt2_next V c t h0, PhiS2_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runB2 V c t (fun h => h0 ((hcond2_0 t).mp h)) (fun h => h1 ((hcond2_1 t).mp h)) _).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readB2
        iexact Hsr
      iexact Hg
    isplitl [Ho]; · iexact Ho
    isplitl [H0]; · iexact H0
    isplitl [H1]; · iexact H1
    isplitl [H2]; · iexact H2
    iexists _; iexact H3

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := by
  rw [show (dat2 V c).Φ 0 = Pipeline.ΦA spec2 c from rfl]

theorem hout2 (c : Dev nD) : (dat2 V c).Φ (Fin.last cfg2.N) ⊢ (Pipeline.ΦA spec2 c : sProp 𝕄) := by
  rw [PhiA2_eq, show (dat2 V c).Φ (Fin.last cfg2.N) = PhiS2 V c (Fin.last cfg2.N).val (Nat.le_of_lt_succ (Fin.last cfg2.N).isLt) from rfl]
  exact PhiS2_weaken V c _ _

end Cert.Kernel.Reg

end
-- ==== Proof.KReg3.lean ====

import proofs.«146132_j71485435675282_1_alg».proof.Proof.Gen.Kernel.Points
import proofs.«146132_j71485435675282_1_alg».proof.Proof.KBody2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region is entered with. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem hcond3_0 : ∀ t : Fin cfg3.N, cond2_0 (grid3.coords t) ↔ t.val % 4 = 0 :=
  (by decide +kernel : ∀ t : Fin grid3.N, cond2_0 (grid3.coords t) ↔ t.val % 4 = 0)

theorem hcond3_1 : ∀ t : Fin cfg3.N, cond2_1 (grid3.coords t) ↔ t.val % 4 = 3 :=
  (by decide +kernel : ∀ t : Fin grid3.N, cond2_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel
theorem idleAt3_3 : ∀ t : Fin cfg3.N, ¬cond2_1 (grid3.coords t) → cfg3.idle 3 (grid3.coords t) = true := by decide +kernel
theorem noFlush3_3 : ∀ t : Fin cfg3.N, ¬cond2_1 (grid3.coords t) → (cfg3.win 3).flush t = false := by decide +kernel
theorem liveAt3_3 : ∀ t : Fin cfg3.N, cond2_1 (grid3.coords t) → cfg3.idle 3 (grid3.coords t) = false := by decide +kernel

abbrev ms3_0 (t : Fin cfg3.N) : Memref sig .tc .vmem S256x1024 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S4x1024 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S256x1024 .f32 := win3_3.stage (cfg3.slots t 3)
abbrev hs3_3 (t : Fin cfg3.N) : (ms3_3 t).IsWhole := hstage3_3 ((cfg3.slots t 3).cast nbuf3_3)

abbrev scM3_0 : Memref sig .tc .vmem S256x1024 .f32 := Memref.whole cc3_scratch0

abbrev restBut3 (c : Dev nD) : sProp 𝕄 :=
  Pipeline.scopedRestBut (Ix := Unit) (Name := ℕ) (U := UR sig nD τ) (Lvl := ℕ) (Val := Elt F) spec3 c [cc3_scratch0]

theorem PhiA3_eq (c : Dev nD) :
    (Pipeline.ΦA spec3 c : sProp 𝕄)
      = iprop(iprop((∃ d, owns (c : Thread nD τ) scM3_0 fullShare d) ∗ restBut3 c) ∗ (∃ r, prngReg c r)) := by
  unfold Pipeline.ΦA; rw [scopedRest3_split]; simp only [scM3_0, owns_whole]; try rfl

def outIdle3 : Vec F S256x1024 .f32 := View.canon []

abbrev runA3 (c : Dev nD) (t : Fin cfg3.N) (hc0 : cond2_0 (grid3.coords t)) (hc1 : ¬cond2_1 (grid3.coords t)) :=
  kernelRun2_A (F := F) c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t)
abbrev runB3 (c : Dev nD) (t : Fin cfg3.N) (hc0 : ¬cond2_0 (grid3.coords t)) (hc1 : ¬cond2_1 (grid3.coords t)) (xs0 : Vec F S256x1024 .f32) :=
  kernelRun2_B (F := F) c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t) xs0
abbrev runC3 (c : Dev nD) (t : Fin cfg3.N) (hc0 : ¬cond2_0 (grid3.coords t)) (hc1 : cond2_1 (grid3.coords t)) (xs0 : Vec F S256x1024 .f32) :=
  kernelRun2_C (F := F) c (grid3.coords t) (ms3_0 t) (hs3_0 t) (ms3_1 t) (hs3_1 t) (ms3_2 t) (hs3_2 t) (ms3_3 t) (hs3_3 t) scM3_0 (Memref.isWhole_whole _) hc0 hc1 (iblk3 V c 0 t) (iblk3 V c 1 t) (iblk3 V c 2 t) xs0

/-- The accumulator after point n: the product of the point's signal and operator blocks, added onto zero when j = 0 and onto the accumulator after point n - 1 otherwise. -/
def accAt3 (c : Dev nD) : (n : ℕ) → n < cfg3.N → Vec F S256x1024 .f32
  | 0, hn => k2_pay2 (iblk3 V c 0 ⟨0, hn⟩) (iblk3 V c 1 ⟨0, hn⟩) k2_pay1
  | n + 1, hn => k2_pay2 (iblk3 V c 0 ⟨n + 1, hn⟩) (iblk3 V c 1 ⟨n + 1, hn⟩)
      (if (n + 1) % 4 = 0 then k2_pay1 else accAt3 c n (Nat.lt_of_succ_lt hn))

theorem accAt3_first (c : Dev nD) (t : Fin cfg3.N) (h0 : t.val % 4 = 0) :
    accAt3 V c t.val t.isLt = k2_pay2 (iblk3 V c 0 t) (iblk3 V c 1 t) k2_pay1 := by
  obtain ⟨n, hn⟩ := t
  cases n with
  | zero => rfl
  | succ n => show k2_pay2 _ _ (if (n + 1) % 4 = 0 then _ else _) = _; rw [if_pos h0]

theorem accAt3_next (c : Dev nD) (t : Fin cfg3.N) (h0 : ¬t.val % 4 = 0) :
    accAt3 V c t.val t.isLt = k2_pay2 (iblk3 V c 0 t) (iblk3 V c 1 t) (accAt3 V c (t.val - 1) (Nat.lt_of_le_of_lt (Nat.sub_le _ _) t.isLt)) := by
  obtain ⟨n, hn⟩ := t
  cases n with
  | zero => exact absurd (Nat.zero_mod _) h0
  | succ n => show k2_pay2 _ _ (if (n + 1) % 4 = 0 then _ else _) = _; rw [if_neg h0]; rfl

/-- The output block after point t: at the last j the filter sum of the accumulator; elsewhere nothing consults it. -/
def outAt3 (c : Dev nD) (t : Fin cfg3.N) : Vec F S256x1024 .f32 :=
  if t.val % 4 = 3 then k2_pay3 (accAt3 V c t.val t.isLt) (iblk3 V c 2 t) else outIdle3

/-- The invariant between points: before the first the entry invariant, afterwards the accumulator at the previous point's value beside the untouched rest. -/
def PhiS3 (c : Dev nD) : (n : ℕ) → n ≤ cfg3.N → sProp 𝕄
  | 0, _ => Pipeline.ΦA spec3 c
  | n + 1, hn => iprop(iprop(owns (c : Thread nD τ) scM3_0 fullShare (accAt3 V c n hn) ∗ restBut3 c) ∗ (∃ r, prngReg c r))

/-- Forgetting what the accumulator holds. -/
theorem PhiS3_weaken (c : Dev nD) (n : ℕ) (h : n ≤ cfg3.N) :
    PhiS3 V c n h ⊢ iprop(iprop((∃ d, owns (c : Thread nD τ) scM3_0 fullShare d) ∗ restBut3 c) ∗ (∃ r, prngReg c r)) := by
  cases n with
  | zero => rw [show PhiS3 V c 0 h = Pipeline.ΦA spec3 c from rfl, PhiA3_eq]
  | succ n =>
    show iprop(iprop(owns (c : Thread nD τ) scM3_0 fullShare (accAt3 V c n h) ∗ restBut3 c) ∗ (∃ r, prngReg c r)) ⊢ _
    iintro ⟨⟨HS0, Hsr⟩, Hg⟩
    isplitl [HS0 Hsr]
    · isplitl [HS0]
      · iexists _; iexact HS0
      iexact Hsr
    iexact Hg

theorem PhiS3_pos (c : Dev nD) (n : ℕ) (h : n ≤ cfg3.N) (hz : n ≠ 0) :
    PhiS3 V c n h = iprop(iprop(owns (c : Thread nD τ) scM3_0 fullShare (accAt3 V c (n - 1) (by omega)) ∗ restBut3 c) ∗ (∃ r, prngReg c r)) := by
  cases n with
  | zero => exact absurd rfl hz
  | succ n => rfl

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => outAt3 V c t
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem PhiS3_castSucc (c : Dev nD) (t : Fin cfg3.N) :
    (dat3 V c).Φ t.castSucc = PhiS3 V c t.val (Nat.le_of_lt t.isLt) := by
  dsimp only [dat3]; simp only [Fin.coe_castSucc]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = outAt3 V c t := by dsimp only [dat3]
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)

theorem bodyAt3_eq (t : Fin cfg3.N) : bodyAt3 (F := F) t = cc2__scnn_layer_kernel (grid3.coords t) (ms3_0 t) (hs3_0 t) (ms3_1 t) (hs3_1 t) (ms3_2 t) (hs3_2 t) (ms3_3 t) (hs3_3 t) scM3_0 (Memref.isWhole_whole _) := rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- One point of the grid. The residue of t says which case the body runs; the invariant hands it the accumulator and takes it back at this point's value, and where nothing is stored into the output block it goes back as it came. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3
  rw [bodyAt3_eq]
  simp only [before3_0, before3_1, before3_2]
  rw [show (dat3 V c).owesAt () t.succ = (dat3 V c).owesAt () t.castSucc from rfl]
  rw [show (dat3 V c).Φ t.succ = iprop(iprop(owns (c : Thread nD τ) scM3_0 fullShare (accAt3 V c t.val t.isLt) ∗ restBut3 c) ∗ (∃ r, prngReg c r)) from rfl]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [PhiS3_castSucc V c t]
  by_cases h1 : t.val % 4 = 3
  · have h0 : ¬t.val % 4 = 0 := by omega
    rw [show (dat3 V c).leavesExact 3 t = owns (c : Thread nD τ) (ms3_3 t) fullShare ((dat3 V c).after 3 t) from by
      unfold Dat.leavesExact; rw [liveAt3_3 t ((hcond3_1 t).mpr h1)], after3_3]
    rw [show outAt3 V c t = k2_pay3 (accAt3 V c t.val t.isLt) (iblk3 V c 2 t) from if_pos h1, accAt3_next V c t h0,
      PhiS3_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runC3 V c t (fun h => h0 ((hcond3_0 t).mp h)) ((hcond3_1 t).mpr h1) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hsr Hg]
    · isplitl [HS0 Hsr]
      · isplitl [HS0]
        · unfold owns; iexists _; isplitr
          swap; · iexact HS0
          ipureintro; apply readC2
        iexact Hsr
      iexact Hg
    isplitl [Ho]; · iexact Ho
    isplitl [H0]; · iexact H0
    isplitl [H1]; · iexact H1
    isplitl [H2]; · iexact H2
    unfold owns; iexists _; isplitr
    swap; · iexact H3
    ipureintro; apply readOut2
  rw [Dat.leavesExact_idle (dat3 V c) 3 t (idleAt3_3 t (fun h => h1 ((hcond3_1 t).mp h))) (noFlush3_3 t (fun h => h1 ((hcond3_1 t).mp h)))]
  by_cases h0 : t.val % 4 = 0
  · rw [accAt3_first V c t h0]
    iintro ⟨HP, Ho, ⟨%d0, H0⟩, ⟨%d1, H1⟩, ⟨%d2, H2⟩, ⟨%d3, H3⟩⟩
    ihave HQ := (PhiS3_weaken V c _ _) $$ HP
    icases HQ with ⟨⟨HS0, Hsr⟩, Hg⟩
    iapply ((runA3 V c t ((hcond3_0 t).mpr h0) (fun h => h1 ((hcond3_1 t).mp h))).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readA2
        iexact Hsr
      iexact Hg
    isplitl [Ho]; · iexact Ho
    isplitl [H0]; · iexact H0
    isplitl [H1]; · iexact H1
    isplitl [H2]; · iexact H2
    iexists _; iexact H3
  · rw [accAt3_next V c t h0, PhiS3_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runB3 V c t (fun h => h0 ((hcond3_0 t).mp h)) (fun h => h1 ((hcond3_1 t).mp h)) _).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readB2
        iexact Hsr
      iexact Hg
    isplitl [Ho]; · iexact Ho
    isplitl [H0]; · iexact H0
    isplitl [H1]; · iexact H1
    isplitl [H2]; · iexact H2
    iexists _; iexact H3

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := by
  rw [show (dat3 V c).Φ 0 = Pipeline.ΦA spec3 c from rfl]

theorem hout3 (c : Dev nD) : (dat3 V c).Φ (Fin.last cfg3.N) ⊢ (Pipeline.ΦA spec3 c : sProp 𝕄) := by
  rw [PhiA3_eq, show (dat3 V c).Φ (Fin.last cfg3.N) = PhiS3 V c (Fin.last cfg3.N).val (Nat.le_of_lt_succ (Fin.last cfg3.N).isLt) from rfl]
  exact PhiS3_weaken V c _ _

end Cert.Kernel.Reg

end
-- ==== Proof.KReg4.lean ====

import proofs.«146132_j71485435675282_1_alg».proof.Proof.Gen.Kernel.Points
import proofs.«146132_j71485435675282_1_alg».proof.Proof.KBody0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region is entered with. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem hcond4_0 : ∀ t : Fin cfg4.N, cond0_0 (grid4.coords t) ↔ t.val % 2 = 0 :=
  (by decide +kernel : ∀ t : Fin grid4.N, cond0_0 (grid4.coords t) ↔ t.val % 2 = 0)

theorem hcond4_1 : ∀ t : Fin cfg4.N, cond0_1 (grid4.coords t) ↔ t.val % 2 = 1 :=
  (by decide +kernel : ∀ t : Fin grid4.N, cond0_1 (grid4.coords t) ↔ t.val % 2 = 1)

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem idleAt4_3 : ∀ t : Fin cfg4.N, ¬cond0_1 (grid4.coords t) → cfg4.idle 3 (grid4.coords t) = true := by decide +kernel
theorem noFlush4_3 : ∀ t : Fin cfg4.N, ¬cond0_1 (grid4.coords t) → (cfg4.win 3).flush t = false := by decide +kernel
theorem liveAt4_3 : ∀ t : Fin cfg4.N, cond0_1 (grid4.coords t) → cfg4.idle 3 (grid4.coords t) = false := by decide +kernel

abbrev ms4_0 (t : Fin cfg4.N) : Memref sig .tc .vmem S256x1024 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S4x1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S256x1024 .f32 := win4_3.stage (cfg4.slots t 3)
abbrev hs4_3 (t : Fin cfg4.N) : (ms4_3 t).IsWhole := hstage4_3 ((cfg4.slots t 3).cast nbuf4_3)

abbrev scM4_0 : Memref sig .tc .vmem S256x1024 .f32 := Memref.whole cc4_scratch0

abbrev restBut4 (c : Dev nD) : sProp 𝕄 :=
  Pipeline.scopedRestBut (Ix := Unit) (Name := ℕ) (U := UR sig nD τ) (Lvl := ℕ) (Val := Elt F) spec4 c [cc4_scratch0]

theorem PhiA4_eq (c : Dev nD) :
    (Pipeline.ΦA spec4 c : sProp 𝕄)
      = iprop(iprop((∃ d, owns (c : Thread nD τ) scM4_0 fullShare d) ∗ restBut4 c) ∗ (∃ r, prngReg c r)) := by
  unfold Pipeline.ΦA; rw [scopedRest4_split]; simp only [scM4_0, owns_whole]; try rfl

def outIdle4 : Vec F S256x1024 .f32 := View.canon []

abbrev runA4 (c : Dev nD) (t : Fin cfg4.N) (hc0 : cond0_0 (grid4.coords t)) (hc1 : ¬cond0_1 (grid4.coords t)) :=
  kernelRun0_A (F := F) c (grid4.coords t) (ms4_0 t) (hs4_0 t) (ms4_1 t) (hs4_1 t) (ms4_2 t) (hs4_2 t) (ms4_3 t) (hs4_3 t) scM4_0 (Memref.isWhole_whole _) hc0 hc1 (iblk4 V c 0 t) (iblk4 V c 1 t) (iblk4 V c 2 t)
abbrev runB4 (c : Dev nD) (t : Fin cfg4.N) (hc0 : ¬cond0_0 (grid4.coords t)) (hc1 : ¬cond0_1 (grid4.coords t)) (xs0 : Vec F S256x1024 .f32) :=
  kernelRun0_B (F := F) c (grid4.coords t) (ms4_0 t) (hs4_0 t) (ms4_1 t) (hs4_1 t) (ms4_2 t) (hs4_2 t) (ms4_3 t) (hs4_3 t) scM4_0 (Memref.isWhole_whole _) hc0 hc1 (iblk4 V c 0 t) (iblk4 V c 1 t) (iblk4 V c 2 t) xs0
abbrev runC4 (c : Dev nD) (t : Fin cfg4.N) (hc0 : ¬cond0_0 (grid4.coords t)) (hc1 : cond0_1 (grid4.coords t)) (xs0 : Vec F S256x1024 .f32) :=
  kernelRun0_C (F := F) c (grid4.coords t) (ms4_0 t) (hs4_0 t) (ms4_1 t) (hs4_1 t) (ms4_2 t) (hs4_2 t) (ms4_3 t) (hs4_3 t) scM4_0 (Memref.isWhole_whole _) hc0 hc1 (iblk4 V c 0 t) (iblk4 V c 1 t) (iblk4 V c 2 t) xs0

/-- The accumulator after point n: the product of the point's signal and operator blocks, added onto zero when j = 0 and onto the accumulator after point n - 1 otherwise. -/
def accAt4 (c : Dev nD) : (n : ℕ) → n < cfg4.N → Vec F S256x1024 .f32
  | 0, hn => k0_pay2 (iblk4 V c 0 ⟨0, hn⟩) (iblk4 V c 1 ⟨0, hn⟩) k0_pay1
  | n + 1, hn => k0_pay2 (iblk4 V c 0 ⟨n + 1, hn⟩) (iblk4 V c 1 ⟨n + 1, hn⟩)
      (if (n + 1) % 2 = 0 then k0_pay1 else accAt4 c n (Nat.lt_of_succ_lt hn))

theorem accAt4_first (c : Dev nD) (t : Fin cfg4.N) (h0 : t.val % 2 = 0) :
    accAt4 V c t.val t.isLt = k0_pay2 (iblk4 V c 0 t) (iblk4 V c 1 t) k0_pay1 := by
  obtain ⟨n, hn⟩ := t
  cases n with
  | zero => rfl
  | succ n => show k0_pay2 _ _ (if (n + 1) % 2 = 0 then _ else _) = _; rw [if_pos h0]

theorem accAt4_next (c : Dev nD) (t : Fin cfg4.N) (h0 : ¬t.val % 2 = 0) :
    accAt4 V c t.val t.isLt = k0_pay2 (iblk4 V c 0 t) (iblk4 V c 1 t) (accAt4 V c (t.val - 1) (Nat.lt_of_le_of_lt (Nat.sub_le _ _) t.isLt)) := by
  obtain ⟨n, hn⟩ := t
  cases n with
  | zero => exact absurd (Nat.zero_mod _) h0
  | succ n => show k0_pay2 _ _ (if (n + 1) % 2 = 0 then _ else _) = _; rw [if_neg h0]; rfl

/-- The output block after point t: at the last j the filter sum of the accumulator; elsewhere nothing consults it. -/
def outAt4 (c : Dev nD) (t : Fin cfg4.N) : Vec F S256x1024 .f32 :=
  if t.val % 2 = 1 then k0_pay3 (accAt4 V c t.val t.isLt) (iblk4 V c 2 t) else outIdle4

/-- The invariant between points: before the first the entry invariant, afterwards the accumulator at the previous point's value beside the untouched rest. -/
def PhiS4 (c : Dev nD) : (n : ℕ) → n ≤ cfg4.N → sProp 𝕄
  | 0, _ => Pipeline.ΦA spec4 c
  | n + 1, hn => iprop(iprop(owns (c : Thread nD τ) scM4_0 fullShare (accAt4 V c n hn) ∗ restBut4 c) ∗ (∃ r, prngReg c r))

/-- Forgetting what the accumulator holds. -/
theorem PhiS4_weaken (c : Dev nD) (n : ℕ) (h : n ≤ cfg4.N) :
    PhiS4 V c n h ⊢ iprop(iprop((∃ d, owns (c : Thread nD τ) scM4_0 fullShare d) ∗ restBut4 c) ∗ (∃ r, prngReg c r)) := by
  cases n with
  | zero => rw [show PhiS4 V c 0 h = Pipeline.ΦA spec4 c from rfl, PhiA4_eq]
  | succ n =>
    show iprop(iprop(owns (c : Thread nD τ) scM4_0 fullShare (accAt4 V c n h) ∗ restBut4 c) ∗ (∃ r, prngReg c r)) ⊢ _
    iintro ⟨⟨HS0, Hsr⟩, Hg⟩
    isplitl [HS0 Hsr]
    · isplitl [HS0]
      · iexists _; iexact HS0
      iexact Hsr
    iexact Hg

theorem PhiS4_pos (c : Dev nD) (n : ℕ) (h : n ≤ cfg4.N) (hz : n ≠ 0) :
    PhiS4 V c n h = iprop(iprop(owns (c : Thread nD τ) scM4_0 fullShare (accAt4 V c (n - 1) (by omega)) ∗ restBut4 c) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => outAt4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = outAt4 V c t := by dsimp only [dat4]
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)

theorem bodyAt4_eq (t : Fin cfg4.N) : bodyAt4 (F := F) t = cc0__scnn_layer_kernel (grid4.coords t) (ms4_0 t) (hs4_0 t) (ms4_1 t) (hs4_1 t) (ms4_2 t) (hs4_2 t) (ms4_3 t) (hs4_3 t) scM4_0 (Memref.isWhole_whole _) := rfl

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- One point of the grid. The residue of t says which case the body runs; the invariant hands it the accumulator and takes it back at this point's value, and where nothing is stored into the output block it goes back as it came. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4
  rw [bodyAt4_eq]
  simp only [before4_0, before4_1, before4_2]
  rw [show (dat4 V c).owesAt () t.succ = (dat4 V c).owesAt () t.castSucc from rfl]
  rw [show (dat4 V c).Φ t.succ = iprop(iprop(owns (c : Thread nD τ) scM4_0 fullShare (accAt4 V c t.val t.isLt) ∗ restBut4 c) ∗ (∃ r, prngReg c r)) from rfl]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [PhiS4_castSucc V c t]
  by_cases h1 : t.val % 2 = 1
  · have h0 : ¬t.val % 2 = 0 := by omega
    rw [show (dat4 V c).leavesExact 3 t = owns (c : Thread nD τ) (ms4_3 t) fullShare ((dat4 V c).after 3 t) from by
      unfold Dat.leavesExact; rw [liveAt4_3 t ((hcond4_1 t).mpr h1)], after4_3]
    rw [show outAt4 V c t = k0_pay3 (accAt4 V c t.val t.isLt) (iblk4 V c 2 t) from if_pos h1, accAt4_next V c t h0,
      PhiS4_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runC4 V c t (fun h => h0 ((hcond4_0 t).mp h)) ((hcond4_1 t).mpr h1) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hsr Hg]
    · isplitl [HS0 Hsr]
      · isplitl [HS0]
        · unfold owns; iexists _; isplitr
          swap; · iexact HS0
          ipureintro; apply readC0
        iexact Hsr
      iexact Hg
    isplitl [Ho]; · iexact Ho
    isplitl [H0]; · iexact H0
    isplitl [H1]; · iexact H1
    isplitl [H2]; · iexact H2
    unfold owns; iexists _; isplitr
    swap; · iexact H3
    ipureintro; apply readOut0
  rw [Dat.leavesExact_idle (dat4 V c) 3 t (idleAt4_3 t (fun h => h1 ((hcond4_1 t).mp h))) (noFlush4_3 t (fun h => h1 ((hcond4_1 t).mp h)))]
  by_cases h0 : t.val % 2 = 0
  · rw [accAt4_first V c t h0]
    iintro ⟨HP, Ho, ⟨%d0, H0⟩, ⟨%d1, H1⟩, ⟨%d2, H2⟩, ⟨%d3, H3⟩⟩
    ihave HQ := (PhiS4_weaken V c _ _) $$ HP
    icases HQ with ⟨⟨HS0, Hsr⟩, Hg⟩
    iapply ((runA4 V c t ((hcond4_0 t).mpr h0) (fun h => h1 ((hcond4_1 t).mp h))).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readA0
        iexact Hsr
      iexact Hg
    isplitl [Ho]; · iexact Ho
    isplitl [H0]; · iexact H0
    isplitl [H1]; · iexact H1
    isplitl [H2]; · iexact H2
    iexists _; iexact H3
  · rw [accAt4_next V c t h0, PhiS4_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runB4 V c t (fun h => h0 ((hcond4_0 t).mp h)) (fun h => h1 ((hcond4_1 t).mp h)) _).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readB0
        iexact Hsr
      iexact Hg
    isplitl [Ho]; · iexact Ho
    isplitl [H0]; · iexact H0
    isplitl [H1]; · iexact H1
    isplitl [H2]; · iexact H2
    iexists _; iexact H3

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [show (dat4 V c).Φ 0 = Pipeline.ΦA spec4 c from rfl]

theorem hout4 (c : Dev nD) : (dat4 V c).Φ (Fin.last cfg4.N) ⊢ (Pipeline.ΦA spec4 c : sProp 𝕄) := by
  rw [PhiA4_eq, show (dat4 V c).Φ (Fin.last cfg4.N) = PhiS4 V c (Fin.last cfg4.N).val (Nat.le_of_lt_succ (Fin.last cfg4.N).isLt) from rfl]
  exact PhiS4_weaken V c _ _

end Cert.Kernel.Reg

end
-- ==== Proof.KReg5.lean ====

import proofs.«146132_j71485435675282_1_alg».proof.Proof.Gen.Kernel.Points
import proofs.«146132_j71485435675282_1_alg».proof.Proof.KBody0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off the array the region is entered with. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem hcond5_0 : ∀ t : Fin cfg5.N, cond0_0 (grid5.coords t) ↔ t.val % 2 = 0 :=
  (by decide +kernel : ∀ t : Fin grid5.N, cond0_0 (grid5.coords t) ↔ t.val % 2 = 0)

theorem hcond5_1 : ∀ t : Fin cfg5.N, cond0_1 (grid5.coords t) ↔ t.val % 2 = 1 :=
  (by decide +kernel : ∀ t : Fin grid5.N, cond0_1 (grid5.coords t) ↔ t.val % 2 = 1)

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem idleAt5_3 : ∀ t : Fin cfg5.N, ¬cond0_1 (grid5.coords t) → cfg5.idle 3 (grid5.coords t) = true := by decide +kernel
theorem noFlush5_3 : ∀ t : Fin cfg5.N, ¬cond0_1 (grid5.coords t) → (cfg5.win 3).flush t = false := by decide +kernel
theorem liveAt5_3 : ∀ t : Fin cfg5.N, cond0_1 (grid5.coords t) → cfg5.idle 3 (grid5.coords t) = false := by decide +kernel

abbrev ms5_0 (t : Fin cfg5.N) : Memref sig .tc .vmem S256x1024 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x1024 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S4x1024 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S256x1024 .f32 := win5_3.stage (cfg5.slots t 3)
abbrev hs5_3 (t : Fin cfg5.N) : (ms5_3 t).IsWhole := hstage5_3 ((cfg5.slots t 3).cast nbuf5_3)

abbrev scM5_0 : Memref sig .tc .vmem S256x1024 .f32 := Memref.whole cc5_scratch0

abbrev restBut5 (c : Dev nD) : sProp 𝕄 :=
  Pipeline.scopedRestBut (Ix := Unit) (Name := ℕ) (U := UR sig nD τ) (Lvl := ℕ) (Val := Elt F) spec5 c [cc5_scratch0]

theorem PhiA5_eq (c : Dev nD) :
    (Pipeline.ΦA spec5 c : sProp 𝕄)
      = iprop(iprop((∃ d, owns (c : Thread nD τ) scM5_0 fullShare d) ∗ restBut5 c) ∗ (∃ r, prngReg c r)) := by
  unfold Pipeline.ΦA; rw [scopedRest5_split]; simp only [scM5_0, owns_whole]; try rfl

def outIdle5 : Vec F S256x1024 .f32 := View.canon []

abbrev runA5 (c : Dev nD) (t : Fin cfg5.N) (hc0 : cond0_0 (grid5.coords t)) (hc1 : ¬cond0_1 (grid5.coords t)) :=
  kernelRun0_A (F := F) c (grid5.coords t) (ms5_0 t) (hs5_0 t) (ms5_1 t) (hs5_1 t) (ms5_2 t) (hs5_2 t) (ms5_3 t) (hs5_3 t) scM5_0 (Memref.isWhole_whole _) hc0 hc1 (iblk5 V c 0 t) (iblk5 V c 1 t) (iblk5 V c 2 t)
abbrev runB5 (c : Dev nD) (t : Fin cfg5.N) (hc0 : ¬cond0_0 (grid5.coords t)) (hc1 : ¬cond0_1 (grid5.coords t)) (xs0 : Vec F S256x1024 .f32) :=
  kernelRun0_B (F := F) c (grid5.coords t) (ms5_0 t) (hs5_0 t) (ms5_1 t) (hs5_1 t) (ms5_2 t) (hs5_2 t) (ms5_3 t) (hs5_3 t) scM5_0 (Memref.isWhole_whole _) hc0 hc1 (iblk5 V c 0 t) (iblk5 V c 1 t) (iblk5 V c 2 t) xs0
abbrev runC5 (c : Dev nD) (t : Fin cfg5.N) (hc0 : ¬cond0_0 (grid5.coords t)) (hc1 : cond0_1 (grid5.coords t)) (xs0 : Vec F S256x1024 .f32) :=
  kernelRun0_C (F := F) c (grid5.coords t) (ms5_0 t) (hs5_0 t) (ms5_1 t) (hs5_1 t) (ms5_2 t) (hs5_2 t) (ms5_3 t) (hs5_3 t) scM5_0 (Memref.isWhole_whole _) hc0 hc1 (iblk5 V c 0 t) (iblk5 V c 1 t) (iblk5 V c 2 t) xs0

/-- The accumulator after point n: the product of the point's signal and operator blocks, added onto zero when j = 0 and onto the accumulator after point n - 1 otherwise. -/
def accAt5 (c : Dev nD) : (n : ℕ) → n < cfg5.N → Vec F S256x1024 .f32
  | 0, hn => k0_pay2 (iblk5 V c 0 ⟨0, hn⟩) (iblk5 V c 1 ⟨0, hn⟩) k0_pay1
  | n + 1, hn => k0_pay2 (iblk5 V c 0 ⟨n + 1, hn⟩) (iblk5 V c 1 ⟨n + 1, hn⟩)
      (if (n + 1) % 2 = 0 then k0_pay1 else accAt5 c n (Nat.lt_of_succ_lt hn))

theorem accAt5_first (c : Dev nD) (t : Fin cfg5.N) (h0 : t.val % 2 = 0) :
    accAt5 V c t.val t.isLt = k0_pay2 (iblk5 V c 0 t) (iblk5 V c 1 t) k0_pay1 := by
  obtain ⟨n, hn⟩ := t
  cases n with
  | zero => rfl
  | succ n => show k0_pay2 _ _ (if (n + 1) % 2 = 0 then _ else _) = _; rw [if_pos h0]

theorem accAt5_next (c : Dev nD) (t : Fin cfg5.N) (h0 : ¬t.val % 2 = 0) :
    accAt5 V c t.val t.isLt = k0_pay2 (iblk5 V c 0 t) (iblk5 V c 1 t) (accAt5 V c (t.val - 1) (Nat.lt_of_le_of_lt (Nat.sub_le _ _) t.isLt)) := by
  obtain ⟨n, hn⟩ := t
  cases n with
  | zero => exact absurd (Nat.zero_mod _) h0
  | succ n => show k0_pay2 _ _ (if (n + 1) % 2 = 0 then _ else _) = _; rw [if_neg h0]; rfl

/-- The output block after point t: at the last j the filter sum of the accumulator; elsewhere nothing consults it. -/
def outAt5 (c : Dev nD) (t : Fin cfg5.N) : Vec F S256x1024 .f32 :=
  if t.val % 2 = 1 then k0_pay3 (accAt5 V c t.val t.isLt) (iblk5 V c 2 t) else outIdle5

/-- The invariant between points: before the first the entry invariant, afterwards the accumulator at the previous point's value beside the untouched rest. -/
def PhiS5 (c : Dev nD) : (n : ℕ) → n ≤ cfg5.N → sProp 𝕄
  | 0, _ => Pipeline.ΦA spec5 c
  | n + 1, hn => iprop(iprop(owns (c : Thread nD τ) scM5_0 fullShare (accAt5 V c n hn) ∗ restBut5 c) ∗ (∃ r, prngReg c r))

/-- Forgetting what the accumulator holds. -/
theorem PhiS5_weaken (c : Dev nD) (n : ℕ) (h : n ≤ cfg5.N) :
    PhiS5 V c n h ⊢ iprop(iprop((∃ d, owns (c : Thread nD τ) scM5_0 fullShare d) ∗ restBut5 c) ∗ (∃ r, prngReg c r)) := by
  cases n with
  | zero => rw [show PhiS5 V c 0 h = Pipeline.ΦA spec5 c from rfl, PhiA5_eq]
  | succ n =>
    show iprop(iprop(owns (c : Thread nD τ) scM5_0 fullShare (accAt5 V c n h) ∗ restBut5 c) ∗ (∃ r, prngReg c r)) ⊢ _
    iintro ⟨⟨HS0, Hsr⟩, Hg⟩
    isplitl [HS0 Hsr]
    · isplitl [HS0]
      · iexists _; iexact HS0
      iexact Hsr
    iexact Hg

theorem PhiS5_pos (c : Dev nD) (n : ℕ) (h : n ≤ cfg5.N) (hz : n ≠ 0) :
    PhiS5 V c n h = iprop(iprop(owns (c : Thread nD τ) scM5_0 fullShare (accAt5 V c (n - 1) (by omega)) ∗ restBut5 c) ∗ (∃ r, prngReg c r)) := by
  cases n with
  | zero => exact absurd rfl hz
  | succ n => rfl

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => outAt5 V c t
  Φ t := PhiS5 V c t.val (Nat.le_of_lt_succ t.isLt)
  q _ := fullShare
  owed _ := 0

theorem A_eq5 (c : Dev nD) (w : Fin cfg5.W) : (dat5 V c).A w = V c (Pipeline.arrRef spec5 w) := by
  dsimp only [dat5]
theorem PhiS5_castSucc (c : Dev nD) (t : Fin cfg5.N) :
    (dat5 V c).Φ t.castSucc = PhiS5 V c t.val (Nat.le_of_lt t.isLt) := by
  dsimp only [dat5]; simp only [Fin.coe_castSucc]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = outAt5 V c t := by dsimp only [dat5]
theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)

theorem bodyAt5_eq (t : Fin cfg5.N) : bodyAt5 (F := F) t = cc0__scnn_layer_kernel (grid5.coords t) (ms5_0 t) (hs5_0 t) (ms5_1 t) (hs5_1 t) (ms5_2 t) (hs5_2 t) (ms5_3 t) (hs5_3 t) scM5_0 (Memref.isWhole_whole _) := rfl

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- One point of the grid. The residue of t says which case the body runs; the invariant hands it the accumulator and takes it back at this point's value, and where nothing is stored into the output block it goes back as it came. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5
  rw [bodyAt5_eq]
  simp only [before5_0, before5_1, before5_2]
  rw [show (dat5 V c).owesAt () t.succ = (dat5 V c).owesAt () t.castSucc from rfl]
  rw [show (dat5 V c).Φ t.succ = iprop(iprop(owns (c : Thread nD τ) scM5_0 fullShare (accAt5 V c t.val t.isLt) ∗ restBut5 c) ∗ (∃ r, prngReg c r)) from rfl]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [PhiS5_castSucc V c t]
  by_cases h1 : t.val % 2 = 1
  · have h0 : ¬t.val % 2 = 0 := by omega
    rw [show (dat5 V c).leavesExact 3 t = owns (c : Thread nD τ) (ms5_3 t) fullShare ((dat5 V c).after 3 t) from by
      unfold Dat.leavesExact; rw [liveAt5_3 t ((hcond5_1 t).mpr h1)], after5_3]
    rw [show outAt5 V c t = k0_pay3 (accAt5 V c t.val t.isLt) (iblk5 V c 2 t) from if_pos h1, accAt5_next V c t h0,
      PhiS5_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runC5 V c t (fun h => h0 ((hcond5_0 t).mp h)) ((hcond5_1 t).mpr h1) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hsr Hg]
    · isplitl [HS0 Hsr]
      · isplitl [HS0]
        · unfold owns; iexists _; isplitr
          swap; · iexact HS0
          ipureintro; apply readC0
        iexact Hsr
      iexact Hg
    isplitl [Ho]; · iexact Ho
    isplitl [H0]; · iexact H0
    isplitl [H1]; · iexact H1
    isplitl [H2]; · iexact H2
    unfold owns; iexists _; isplitr
    swap; · iexact H3
    ipureintro; apply readOut0
  rw [Dat.leavesExact_idle (dat5 V c) 3 t (idleAt5_3 t (fun h => h1 ((hcond5_1 t).mp h))) (noFlush5_3 t (fun h => h1 ((hcond5_1 t).mp h)))]
  by_cases h0 : t.val % 2 = 0
  · rw [accAt5_first V c t h0]
    iintro ⟨HP, Ho, ⟨%d0, H0⟩, ⟨%d1, H1⟩, ⟨%d2, H2⟩, ⟨%d3, H3⟩⟩
    ihave HQ := (PhiS5_weaken V c _ _) $$ HP
    icases HQ with ⟨⟨HS0, Hsr⟩, Hg⟩
    iapply ((runA5 V c t ((hcond5_0 t).mpr h0) (fun h => h1 ((hcond5_1 t).mp h))).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readA0
        iexact Hsr
      iexact Hg
    isplitl [Ho]; · iexact Ho
    isplitl [H0]; · iexact H0
    isplitl [H1]; · iexact H1
    isplitl [H2]; · iexact H2
    iexists _; iexact H3
  · rw [accAt5_next V c t h0, PhiS5_pos V c _ _ (fun hz => h0 (by rw [hz]))]
    iintro ⟨⟨⟨HS0, Hsr⟩, Hg⟩, Ho, ⟨%d0, H0⟩, ⟨%d1, H1⟩, ⟨%d2, H2⟩, ⟨%d3, H3⟩⟩
    iapply ((runB5 V c t (fun h => h0 ((hcond5_0 t).mp h)) (fun h => h1 ((hcond5_1 t).mp h)) _).2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hsr Hg]
    · isplitl [HS0 Hsr]
      · isplitl [HS0]
        · unfold owns; iexists _; isplitr
          swap; · iexact HS0
          ipureintro; apply readB0
        iexact Hsr
      iexact Hg
    isplitl [Ho]; · iexact Ho
    isplitl [H0]; · iexact H0
    isplitl [H1]; · iexact H1
    isplitl [H2]; · iexact H2
    iexists _; iexact H3

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := by
  rw [show (dat5 V c).Φ 0 = Pipeline.ΦA spec5 c from rfl]

theorem hout5 (c : Dev nD) : (dat5 V c).Φ (Fin.last cfg5.N) ⊢ (Pipeline.ΦA spec5 c : sProp 𝕄) := by
  rw [PhiA5_eq, show (dat5 V c).Φ (Fin.last cfg5.N) = PhiS5 V c (Fin.last cfg5.N).val (Nat.le_of_lt_succ (Fin.last cfg5.N).isLt) from rfl]
  exact PhiS5_weaken V c _ _

end Cert.Kernel.Reg

end
-- ==== Proof.KOuts.lean ====
import proofs.«146132_j71485435675282_1_alg».proof.Proof.Gen.Kernel.Regions
import proofs.«146132_j71485435675282_1_alg».proof.Proof.KReg0
import proofs.«146132_j71485435675282_1_alg».proof.Proof.KReg1
import proofs.«146132_j71485435675282_1_alg».proof.Proof.KReg2
import proofs.«146132_j71485435675282_1_alg».proof.Proof.KReg3
import proofs.«146132_j71485435675282_1_alg».proof.Proof.KReg4
import proofs.«146132_j71485435675282_1_alg».proof.Proof.KReg5

noncomputable section

namespace Cert.Kernel.Run

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (outs : Gen.Outs (F := F))

abbrev E0 : (c : Dev nD) → (b : Ref sig .tc) → Buf (Elt F) ((c : Thread nD τ).loc b) := fun c b => Gen.V1 m c b
abbrev E1 : (c : Dev nD) → (b : Ref sig .tc) → Buf (Elt F) ((c : Thread nD τ).loc b) := fun c b => Gen.V3 m outs c b
abbrev E2 : (c : Dev nD) → (b : Ref sig .tc) → Buf (Elt F) ((c : Thread nD τ).loc b) := fun c b => Gen.V5 m outs c b
abbrev E3 : (c : Dev nD) → (b : Ref sig .tc) → Buf (Elt F) ((c : Thread nD τ).loc b) := fun c b => Gen.V7 m outs c b
abbrev E4 : (c : Dev nD) → (b : Ref sig .tc) → Buf (Elt F) ((c : Thread nD τ).loc b) := fun c b => Gen.V9 m outs c b
abbrev E5 : (c : Dev nD) → (b : Ref sig .tc) → Buf (Elt F) ((c : Thread nD τ).loc b) := fun c b => Gen.V11 m outs c b

/-- Each region's output array, as named between the items, is the array that region's proof data end at, the region entered at the contents the earlier items left. -/
structure OutsOk : Prop where
  h0 : ∀ c : Dev nD, (Reg.dat0 (E0 m) c).arrAt 3 cfg0.N = outs 2 main_v3 c
  h1 : ∀ c : Dev nD, (Reg.dat1 (E1 m outs) c).arrAt 3 cfg1.N = outs 4 main_v6 c
  h2 : ∀ c : Dev nD, (Reg.dat2 (E2 m outs) c).arrAt 3 cfg2.N = outs 6 main_v11 c
  h3 : ∀ c : Dev nD, (Reg.dat3 (E3 m outs) c).arrAt 3 cfg3.N = outs 8 main_v14 c
  h4 : ∀ c : Dev nD, (Reg.dat4 (E4 m outs) c).arrAt 3 cfg4.N = outs 10 main_v19 c
  h5 : ∀ c : Dev nD, (Reg.dat5 (E5 m outs) c).arrAt 3 cfg5.N = outs 12 main_v22 c

end Cert.Kernel.Run

end
-- ==== Proof.KRunAll.lean ====
import proofs.«146132_j71485435675282_1_alg».proof.Proof.KOuts
import Idealize.ShloMosaic.Lib.Pipeline.RegionsLoop
import Idealize.ShloMosaic.Lib.Pipeline.FrameSuffix
import Idealize.ShloMosaic.Lib.Pipeline.Kit
import Idealize.ShloMosaic.Lib.Pipeline.Regions

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Gen.Outs (F := F))

def pdats : (p : Fin 6) → (c : Dev nD) → Dat τ (Elt F) Unit ℕ (UR sig nD τ) ℕ (cfgs p) c
  | ⟨0, _⟩ => fun c => Reg.dat0 (E0 m) c
  | ⟨1, _⟩ => fun c => Reg.dat1 (E1 m outs) c
  | ⟨2, _⟩ => fun c => Reg.dat2 (E2 m outs) c
  | ⟨3, _⟩ => fun c => Reg.dat3 (E3 m outs) c
  | ⟨4, _⟩ => fun c => Reg.dat4 (E4 m outs) c
  | ⟨5, _⟩ => fun c => Reg.dat5 (E5 m outs) c

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

section Region

variable {p : Fin 6} (lf : Pipeline.LaunchFacts (nD := nD) (τ := τ) cfgs p)
  (W Wn : Dev nD → Valuation τ sig (Elt F))

set_option backward.isDefEq.respectTransparency.types false in
/-- A kernel region between two items of the main program, from the region's own facts: entered with every buffer at W, it leaves every buffer at Wn, which differs from W only at the region's output array. The six regions differ only in these data. -/
def regionSeg
    (hA : ∀ c w, (pdats m outs p c).A w = (fun b : Ref sig .tc => W c b) (Pipeline.arrRef (cfgs p).spec w))
    (hq : ∀ c w, (pdats m outs p c).q w = fullShare)
    (howed : ∀ c t, (pdats m outs p c).owed t = 0)
    (hrec : ∀ c, (pdats m outs p c).recorded 0 = Set.univ)
    (hbd : ∀ c, BodyObligation (pdats m outs p c) (defs₀ (F := F)) Variants.none () Set.univ)
    (hfirst : ∀ c, (Pipeline.ΦA (cfgs p).spec c : sProp 𝕄) ⊢ (pdats m outs p c).Φ 0)
    (hlast : ∀ c, (pdats m outs p c).Φ (Fin.last (cfgs p).N) ⊢ (Pipeline.ΦA (cfgs p).spec c : sProp 𝕄))
    (hF : ∀ c (w : Fin (cfgs p).W), (pdats m outs p c).arrAt w (cfgs p).N = (fun b : Ref sig .tc => Wn c b) (Pipeline.arrRef (cfgs p).spec w))
    (hrest : ∀ c (b : Ref sig .tc), b ∉ Finset.univ.image (Pipeline.arrRef (cfgs p).spec) → (fun b : Ref sig .tc => Wn c b) b = (fun b : Ref sig .tc => W c b) b) :
    Pipeline.RegionSeg (pcfgs (F := F)) Gen.adm (pdats m outs) () defs₀ Variants.none L lv p where
  win := lf.win.to₀
  block_pos := lf.block_pos
  stage_whole := lf.stage_whole
  K := PEmpty
  osem k := k.elim
  ho := Pipeline.OwnSemFacts.none _
  hbody c := (hbd c).loose
  hwaits := Pipeline.hwaits_of_owed_zero _ _ _ _ L lv p howed
  pre c := iprop(StableHlo.held (c : Thread nD τ) (Pipeline.ucRefs τ sig) (W c) ∗ R c)
  post c := iprop(StableHlo.held (c : Thread nD τ) (Pipeline.ucRefs τ sig) (Wn c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b : Ref sig .tc => W c b)
  hentry c := by
    rw [Pipeline.ownSems0_none]
    have hsplit := Pipeline.arrays_of_unscopedBufs (p := p) (pcfgs (F := F)) Gen.adm (pdats m outs) lf.win lf.arr_whole c
      ((pdats m outs p c).share_full (hq c)) (fun b : Ref sig .tc => W c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; try rw [howed c]
      icases HO with ⟨%W, HO⟩; iexists W; isplitr; · ipureintro; exact fun _ _ => Or.inl ((hrec c).symm ▸ Set.mem_univ _)
      iexact HO
    isplitl [Hp]; · iexact Hp
    iexact Hrest
  hin c := by
    refine BIBase.Entails.trans ?_ (hfirst c)
    unfold Pipeline.ΦA
    iintro ⟨Hp, -, Hr⟩
    isplitl [Hr]; · iexact Hr
    iexact Hp
  hout c := by
    rw [Pipeline.ownSems0_none]
    refine BIBase.Entails.trans (hlast c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) Gen.adm (Ix := Unit) (Name := ℕ) (U := UR sig nD τ) (Lvl := ℕ)
      lf.win lf.arr_whole c (pdats m outs) ((pdats m outs p c).share_full (hq c))
      (fun b : Ref sig .tc => W c b) (fun b : Ref sig .tc => Wn c b) ((pdats m outs p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; try rw [howed c]
    icases HO with ⟨%W, -, HO⟩; iexists W; iexact HO

end Region

theorem hF0 (hO : OutsOk m outs) (c : Dev nD) : ∀ w : Fin cfg0.W,
    (Reg.dat0 (E0 m) c).arrAt w cfg0.N = (fun b : Ref sig .tc => Gen.V2 m outs c b) (Pipeline.arrRef spec0 w) := fun
  | 0 => ((Reg.dat0 (E0 m) c).arrAt_in 0 rfl _).trans ((Reg.A_eq0 (E0 m) c 0).trans (Gen.V2_of m outs c _ (by decide)).symm)
  | 1 => ((Reg.dat0 (E0 m) c).arrAt_in 1 rfl _).trans ((Reg.A_eq0 (E0 m) c 1).trans (Gen.V2_of m outs c _ (by decide)).symm)
  | 2 => ((Reg.dat0 (E0 m) c).arrAt_in 2 rfl _).trans ((Reg.A_eq0 (E0 m) c 2).trans (Gen.V2_of m outs c _ (by decide)).symm)
  | 3 => (hO.h0 c).trans (Function.update_self (f := Gen.V1 m c) (Proc.devRef .tc main_v3) (outs 2 main_v3 c)).symm
  | ⟨_ + 4, h⟩ => absurd h (Nat.not_lt.2 (Nat.le_add_left _ _))

theorem hrest0 (c : Dev nD) : ∀ b : Ref sig .tc, b ∉ Finset.univ.image (Pipeline.arrRef spec0) →
    (fun b : Ref sig .tc => Gen.V2 m outs c b) b = E0 m c b := fun b hb =>
  Gen.V2_of m outs c b fun h => hb (Finset.mem_image.mpr ⟨3, Finset.mem_univ _, (List.mem_singleton.mp h).symm⟩)

def reg0 (hO : OutsOk m outs) : Pipeline.RegionSeg (pcfgs (F := F)) Gen.adm (pdats m outs) () defs₀ Variants.none L lv 0 :=
  regionSeg m outs launch0 (Gen.V1 m) (Gen.V2 m outs) (Reg.A_eq0 (E0 m)) (fun _ _ => rfl) (fun _ _ => rfl) (fun _ => rfl)
    (Reg.body_obligation0 (E0 m)) (Reg.hin0 (E0 m)) (Reg.hout0 (E0 m)) (hF0 m outs hO) (hrest0 m outs)

theorem hF1 (hO : OutsOk m outs) (c : Dev nD) : ∀ w : Fin cfg1.W,
    (Reg.dat1 (E1 m outs) c).arrAt w cfg1.N = (fun b : Ref sig .tc => Gen.V4 m outs c b) (Pipeline.arrRef spec1 w) := fun
  | 0 => ((Reg.dat1 (E1 m outs) c).arrAt_in 0 rfl _).trans ((Reg.A_eq1 (E1 m outs) c 0).trans (Gen.V4_of m outs c _ (by decide)).symm)
  | 1 => ((Reg.dat1 (E1 m outs) c).arrAt_in 1 rfl _).trans ((Reg.A_eq1 (E1 m outs) c 1).trans (Gen.V4_of m outs c _ (by decide)).symm)
  | 2 => ((Reg.dat1 (E1 m outs) c).arrAt_in 2 rfl _).trans ((Reg.A_eq1 (E1 m outs) c 2).trans (Gen.V4_of m outs c _ (by decide)).symm)
  | 3 => (hO.h1 c).trans (Function.update_self (f := Gen.V3 m outs c) (Proc.devRef .tc main_v6) (outs 4 main_v6 c)).symm
  | ⟨_ + 4, h⟩ => absurd h (Nat.not_lt.2 (Nat.le_add_left _ _))

theorem hrest1 (c : Dev nD) : ∀ b : Ref sig .tc, b ∉ Finset.univ.image (Pipeline.arrRef spec1) →
    (fun b : Ref sig .tc => Gen.V4 m outs c b) b = E1 m outs c b := fun b hb =>
  Gen.V4_of m outs c b fun h => hb (Finset.mem_image.mpr ⟨3, Finset.mem_univ _, (List.mem_singleton.mp h).symm⟩)

def reg1 (hO : OutsOk m outs) : Pipeline.RegionSeg (pcfgs (F := F)) Gen.adm (pdats m outs) () defs₀ Variants.none L lv 1 :=
  regionSeg m outs launch1 (Gen.V3 m outs) (Gen.V4 m outs) (Reg.A_eq1 (E1 m outs)) (fun _ _ => rfl) (fun _ _ => rfl) (fun _ => rfl)
    (Reg.body_obligation1 (E1 m outs)) (Reg.hin1 (E1 m outs)) (Reg.hout1 (E1 m outs)) (hF1 m outs hO) (hrest1 m outs)

theorem hF2 (hO : OutsOk m outs) (c : Dev nD) : ∀ w : Fin cfg2.W,
    (Reg.dat2 (E2 m outs) c).arrAt w cfg2.N = (fun b : Ref sig .tc => Gen.V6 m outs c b) (Pipeline.arrRef spec2 w) := fun
  | 0 => ((Reg.dat2 (E2 m outs) c).arrAt_in 0 rfl _).trans ((Reg.A_eq2 (E2 m outs) c 0).trans (Gen.V6_of m outs c _ (by decide)).symm)
  | 1 => ((Reg.dat2 (E2 m outs) c).arrAt_in 1 rfl _).trans ((Reg.A_eq2 (E2 m outs) c 1).trans (Gen.V6_of m outs c _ (by decide)).symm)
  | 2 => ((Reg.dat2 (E2 m outs) c).arrAt_in 2 rfl _).trans ((Reg.A_eq2 (E2 m outs) c 2).trans (Gen.V6_of m outs c _ (by decide)).symm)
  | 3 => (hO.h2 c).trans (Function.update_self (f := Gen.V5 m outs c) (Proc.devRef .tc main_v11) (outs 6 main_v11 c)).symm
  | ⟨_ + 4, h⟩ => absurd h (Nat.not_lt.2 (Nat.le_add_left _ _))

theorem hrest2 (c : Dev nD) : ∀ b : Ref sig .tc, b ∉ Finset.univ.image (Pipeline.arrRef spec2) →
    (fun b : Ref sig .tc => Gen.V6 m outs c b) b = E2 m outs c b := fun b hb =>
  Gen.V6_of m outs c b fun h => hb (Finset.mem_image.mpr ⟨3, Finset.mem_univ _, (List.mem_singleton.mp h).symm⟩)

def reg2 (hO : OutsOk m outs) : Pipeline.RegionSeg (pcfgs (F := F)) Gen.adm (pdats m outs) () defs₀ Variants.none L lv 2 :=
  regionSeg m outs launch2 (Gen.V5 m outs) (Gen.V6 m outs) (Reg.A_eq2 (E2 m outs)) (fun _ _ => rfl) (fun _ _ => rfl) (fun _ => rfl)
    (Reg.body_obligation2 (E2 m outs)) (Reg.hin2 (E2 m outs)) (Reg.hout2 (E2 m outs)) (hF2 m outs hO) (hrest2 m outs)

theorem hF3 (hO : OutsOk m outs) (c : Dev nD) : ∀ w : Fin cfg3.W,
    (Reg.dat3 (E3 m outs) c).arrAt w cfg3.N = (fun b : Ref sig .tc => Gen.V8 m outs c b) (Pipeline.arrRef spec3 w) := fun
  | 0 => ((Reg.dat3 (E3 m outs) c).arrAt_in 0 rfl _).trans ((Reg.A_eq3 (E3 m outs) c 0).trans (Gen.V8_of m outs c _ (by decide)).symm)
  | 1 => ((Reg.dat3 (E3 m outs) c).arrAt_in 1 rfl _).trans ((Reg.A_eq3 (E3 m outs) c 1).trans (Gen.V8_of m outs c _ (by decide)).symm)
  | 2 => ((Reg.dat3 (E3 m outs) c).arrAt_in 2 rfl _).trans ((Reg.A_eq3 (E3 m outs) c 2).trans (Gen.V8_of m outs c _ (by decide)).symm)
  | 3 => (hO.h3 c).trans (Function.update_self (f := Gen.V7 m outs c) (Proc.devRef .tc main_v14) (outs 8 main_v14 c)).symm
  | ⟨_ + 4, h⟩ => absurd h (Nat.not_lt.2 (Nat.le_add_left _ _))

theorem hrest3 (c : Dev nD) : ∀ b : Ref sig .tc, b ∉ Finset.univ.image (Pipeline.arrRef spec3) →
    (fun b : Ref sig .tc => Gen.V8 m outs c b) b = E3 m outs c b := fun b hb =>
  Gen.V8_of m outs c b fun h => hb (Finset.mem_image.mpr ⟨3, Finset.mem_univ _, (List.mem_singleton.mp h).symm⟩)

def reg3 (hO : OutsOk m outs) : Pipeline.RegionSeg (pcfgs (F := F)) Gen.adm (pdats m outs) () defs₀ Variants.none L lv 3 :=
  regionSeg m outs launch3 (Gen.V7 m outs) (Gen.V8 m outs) (Reg.A_eq3 (E3 m outs)) (fun _ _ => rfl) (fun _ _ => rfl) (fun _ => rfl)
    (Reg.body_obligation3 (E3 m outs)) (Reg.hin3 (E3 m outs)) (Reg.hout3 (E3 m outs)) (hF3 m outs hO) (hrest3 m outs)

theorem hF4 (hO : OutsOk m outs) (c : Dev nD) : ∀ w : Fin cfg4.W,
    (Reg.dat4 (E4 m outs) c).arrAt w cfg4.N = (fun b : Ref sig .tc => Gen.V10 m outs c b) (Pipeline.arrRef spec4 w) := fun
  | 0 => ((Reg.dat4 (E4 m outs) c).arrAt_in 0 rfl _).trans ((Reg.A_eq4 (E4 m outs) c 0).trans (Gen.V10_of m outs c _ (by decide)).symm)
  | 1 => ((Reg.dat4 (E4 m outs) c).arrAt_in 1 rfl _).trans ((Reg.A_eq4 (E4 m outs) c 1).trans (Gen.V10_of m outs c _ (by decide)).symm)
  | 2 => ((Reg.dat4 (E4 m outs) c).arrAt_in 2 rfl _).trans ((Reg.A_eq4 (E4 m outs) c 2).trans (Gen.V10_of m outs c _ (by decide)).symm)
  | 3 => (hO.h4 c).trans (Function.update_self (f := Gen.V9 m outs c) (Proc.devRef .tc main_v19) (outs 10 main_v19 c)).symm
  | ⟨_ + 4, h⟩ => absurd h (Nat.not_lt.2 (Nat.le_add_left _ _))

theorem hrest4 (c : Dev nD) : ∀ b : Ref sig .tc, b ∉ Finset.univ.image (Pipeline.arrRef spec4) →
    (fun b : Ref sig .tc => Gen.V10 m outs c b) b = E4 m outs c b := fun b hb =>
  Gen.V10_of m outs c b fun h => hb (Finset.mem_image.mpr ⟨3, Finset.mem_univ _, (List.mem_singleton.mp h).symm⟩)

def reg4 (hO : OutsOk m outs) : Pipeline.RegionSeg (pcfgs (F := F)) Gen.adm (pdats m outs) () defs₀ Variants.none L lv 4 :=
  regionSeg m outs launch4 (Gen.V9 m outs) (Gen.V10 m outs) (Reg.A_eq4 (E4 m outs)) (fun _ _ => rfl) (fun _ _ => rfl) (fun _ => rfl)
    (Reg.body_obligation4 (E4 m outs)) (Reg.hin4 (E4 m outs)) (Reg.hout4 (E4 m outs)) (hF4 m outs hO) (hrest4 m outs)

theorem hF5 (hO : OutsOk m outs) (c : Dev nD) : ∀ w : Fin cfg5.W,
    (Reg.dat5 (E5 m outs) c).arrAt w cfg5.N = (fun b : Ref sig .tc => Gen.V12 m outs c b) (Pipeline.arrRef spec5 w) := fun
  | 0 => ((Reg.dat5 (E5 m outs) c).arrAt_in 0 rfl _).trans ((Reg.A_eq5 (E5 m outs) c 0).trans (Gen.V12_of m outs c _ (by decide)).symm)
  | 1 => ((Reg.dat5 (E5 m outs) c).arrAt_in 1 rfl _).trans ((Reg.A_eq5 (E5 m outs) c 1).trans (Gen.V12_of m outs c _ (by decide)).symm)
  | 2 => ((Reg.dat5 (E5 m outs) c).arrAt_in 2 rfl _).trans ((Reg.A_eq5 (E5 m outs) c 2).trans (Gen.V12_of m outs c _ (by decide)).symm)
  | 3 => (hO.h5 c).trans (Function.update_self (f := Gen.V11 m outs c) (Proc.devRef .tc main_v22) (outs 12 main_v22 c)).symm
  | ⟨_ + 4, h⟩ => absurd h (Nat.not_lt.2 (Nat.le_add_left _ _))

theorem hrest5 (c : Dev nD) : ∀ b : Ref sig .tc, b ∉ Finset.univ.image (Pipeline.arrRef spec5) →
    (fun b : Ref sig .tc => Gen.V12 m outs c b) b = E5 m outs c b := fun b hb =>
  Gen.V12_of m outs c b fun h => hb (Finset.mem_image.mpr ⟨3, Finset.mem_univ _, (List.mem_singleton.mp h).symm⟩)

def reg5 (hO : OutsOk m outs) : Pipeline.RegionSeg (pcfgs (F := F)) Gen.adm (pdats m outs) () defs₀ Variants.none L lv 5 :=
  regionSeg m outs launch5 (Gen.V11 m outs) (Gen.V12 m outs) (Reg.A_eq5 (E5 m outs)) (fun _ _ => rfl) (fun _ _ => rfl) (fun _ => rfl)
    (Reg.body_obligation5 (E5 m outs)) (Reg.hin5 (E5 m outs)) (Reg.hout5 (E5 m outs)) (hF5 m outs hO) (hrest5 m outs)

abbrev u₀ : UR sig nD τ := initOf (Pipeline.cells cfgs cellOf_inj) (Pipeline.launchToks cfgs cellOf_inj)

set_option backward.isDefEq.respectTransparency.types false in
theorem run_value (hO : OutsOk m outs) (ρ : Dev nD → PrngReg) :
    θ_run defs (onTc (τ := τ) (main (F := F))) ⟨m, fun _ => 0, ρ⟩ (fun r => ∀ c : Dev nD,
      r.2.mem ((c.tc : Thread nD τ).loc main_v39) = Gen.V17 m outs c main_v39
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) := by
  refine Pipeline.θ_run_regions_kit_dev (pcfgs (F := F)) Gen.adm (pdats m outs) () cellOf_inj emb₁ defs₀ Variants.none L lv m ρ main
    (Gen.segs m outs Variants.none L lv (fun _ c => R c) () (pdats m outs) (reg0 m outs hO) (reg1 m outs hO) (reg2 m outs hO) (reg3 m outs hO) (reg4 m outs hO) (reg5 m outs hO))
    (fun c Q => by
      rewrite [main_chain c, Seg.run_eq_chain,
        show (Gen.segs m outs Variants.none L lv (fun _ c => R c) () (pdats m outs) (reg0 m outs hO) (reg1 m outs hO) (reg2 m outs hO) (reg3 m outs hO) (reg4 m outs hO) (reg5 m outs hO) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          StableHlo.seq hostOps6_3,
          StableHlo.seq hostOps6_4 ] from rfl]
      exact .rfl)
    (fun c => by simp only [Gen.segs, Seg.pipes_host, Seg.pipes_region, Seg.pipes_nil]; decide) 0 (fun _ _ => rfl) (fun _ => iprop(emp)) u₀
    (by
      iintro Hu; imodintro
      isplitl [Hu]
      · iapply (show (ownU (u₀ : UR sig nD τ) : sProp 𝕄) ⊢ BI.own (emb₁ (u₀ : UR sig nD τ)) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V17 m outs c))
    (hch := fun c => ⟨.rfl, .rfl, .rfl, .rfl, .rfl, .rfl, .rfl, .rfl, .rfl, .rfl, .rfl, .rfl, .rfl, .rfl, .rfl, .rfl, .rfl,
      sep_mono .rfl (by iintro ⟨-, HO⟩; iexact HO)⟩)
    (hinit := ?_) (QY := fun c s => s.mem ((c.tc : Thread nD τ).loc main_v39) = Gen.V17 m outs c main_v39 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14))
    (hfin := fun c s' => ?_) (hQ := fun _ h => h)
  ·
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (Gen.V17 m outs c) s') $$ [Hh HSI]
    · isplitl [Hh] <;> iassumption
    icases Hr with ⟨%h, HSI⟩
    imodintro
    isplitr
    · ipureintro
      exact ⟨h (Proc.devRef .tc main_v39) (Finset.mem_filter.mpr ⟨StableHlo.devRef_mem_tcRefs main_v39, by decide⟩),
        (h (Proc.devRef .tc main_arg0) (Finset.mem_filter.mpr ⟨StableHlo.devRef_mem_tcRefs main_arg0, by decide⟩)).trans (Gen.V17_main_arg0 m outs c),
        (h (Proc.devRef .tc main_arg1) (Finset.mem_filter.mpr ⟨StableHlo.devRef_mem_tcRefs main_arg1, by decide⟩)).trans (Gen.V17_main_arg1 m outs c),
        (h (Proc.devRef .tc main_arg2) (Finset.mem_filter.mpr ⟨StableHlo.devRef_mem_tcRefs main_arg2, by decide⟩)).trans (Gen.V17_main_arg2 m outs c),
        (h (Proc.devRef .tc main_arg3) (Finset.mem_filter.mpr ⟨StableHlo.devRef_mem_tcRefs main_arg3, by decide⟩)).trans (Gen.V17_main_arg3 m outs c),
        (h (Proc.devRef .tc main_arg4) (Finset.mem_filter.mpr ⟨StableHlo.devRef_mem_tcRefs main_arg4, by decide⟩)).trans (Gen.V17_main_arg4 m outs c),
        (h (Proc.devRef .tc main_arg5) (Finset.mem_filter.mpr ⟨StableHlo.devRef_mem_tcRefs main_arg5, by decide⟩)).trans (Gen.V17_main_arg5 m outs c),
        (h (Proc.devRef .tc main_arg6) (Finset.mem_filter.mpr ⟨StableHlo.devRef_mem_tcRefs main_arg6, by decide⟩)).trans (Gen.V17_main_arg6 m outs c),
        (h (Proc.devRef .tc main_arg7) (Finset.mem_filter.mpr ⟨StableHlo.devRef_mem_tcRefs main_arg7, by decide⟩)).trans (Gen.V17_main_arg7 m outs c),
        (h (Proc.devRef .tc main_arg8) (Finset.mem_filter.mpr ⟨StableHlo.devRef_mem_tcRefs main_arg8, by decide⟩)).trans (Gen.V17_main_arg8 m outs c),
        (h (Proc.devRef .tc main_arg9) (Finset.mem_filter.mpr ⟨StableHlo.devRef_mem_tcRefs main_arg9, by decide⟩)).trans (Gen.V17_main_arg9 m outs c),
        (h (Proc.devRef .tc main_arg10) (Finset.mem_filter.mpr ⟨StableHlo.devRef_mem_tcRefs main_arg10, by decide⟩)).trans (Gen.V17_main_arg10 m outs c),
        (h (Proc.devRef .tc main_arg11) (Finset.mem_filter.mpr ⟨StableHlo.devRef_mem_tcRefs main_arg11, by decide⟩)).trans (Gen.V17_main_arg11 m outs c),
        (h (Proc.devRef .tc main_arg12) (Finset.mem_filter.mpr ⟨StableHlo.devRef_mem_tcRefs main_arg12, by decide⟩)).trans (Gen.V17_main_arg12 m outs c),
        (h (Proc.devRef .tc main_arg13) (Finset.mem_filter.mpr ⟨StableHlo.devRef_mem_tcRefs main_arg13, by decide⟩)).trans (Gen.V17_main_arg13 m outs c),
        (h (Proc.devRef .tc main_arg14) (Finset.mem_filter.mpr ⟨StableHlo.devRef_mem_tcRefs main_arg14, by decide⟩)).trans (Gen.V17_main_arg14 m outs c)⟩
    · iexact HSI

end Cert.Kernel.Run

end
-- ==== Proof.OutsDef.lean ====
import proofs.«146132_j71485435675282_1_alg».proof.Proof.Outs

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- The contents after region K, given the arrays the earlier regions left; then the six arrays one after the other, each from those before it. -/
def exit0 (c : Dev nD) : Valuation τ sig (Elt F) :=
  Pipeline.withArrays spec0 c (Gen.V1 m c) fun w => (Reg.dat0 (E0 m) c).arrAt w cfg0.N

def exit1 (o : Gen.Outs (F := F)) (c : Dev nD) : Valuation τ sig (Elt F) :=
  Pipeline.withArrays spec1 c (Gen.V3 m o c) fun w => (Reg.dat1 (E1 m o) c).arrAt w cfg1.N

def exit2 (o : Gen.Outs (F := F)) (c : Dev nD) : Valuation τ sig (Elt F) :=
  Pipeline.withArrays spec2 c (Gen.V5 m o c) fun w => (Reg.dat2 (E2 m o) c).arrAt w cfg2.N

def exit3 (o : Gen.Outs (F := F)) (c : Dev nD) : Valuation τ sig (Elt F) :=
  Pipeline.withArrays spec3 c (Gen.V7 m o c) fun w => (Reg.dat3 (E3 m o) c).arrAt w cfg3.N

def exit4 (o : Gen.Outs (F := F)) (c : Dev nD) : Valuation τ sig (Elt F) :=
  Pipeline.withArrays spec4 c (Gen.V9 m o c) fun w => (Reg.dat4 (E4 m o) c).arrAt w cfg4.N

def exit5 (o : Gen.Outs (F := F)) (c : Dev nD) : Valuation τ sig (Elt F) :=
  Pipeline.withArrays spec5 c (Gen.V11 m o c) fun w => (Reg.dat5 (E5 m o) c).arrAt w cfg5.N

theorem exit0_out (c : Dev nD) : exit0 m c main_v3 = (Reg.dat0 (E0 m) c).arrAt 3 cfg0.N :=
  Pipeline.withArrays_arr spec0 launch0.win.arr_inj c _ _ 3
theorem exit1_out (o : Gen.Outs (F := F)) (c : Dev nD) : exit1 m o c main_v6 = (Reg.dat1 (E1 m o) c).arrAt 3 cfg1.N :=
  Pipeline.withArrays_arr spec1 launch1.win.arr_inj c _ _ 3
theorem exit2_out (o : Gen.Outs (F := F)) (c : Dev nD) : exit2 m o c main_v11 = (Reg.dat2 (E2 m o) c).arrAt 3 cfg2.N :=
  Pipeline.withArrays_arr spec2 launch2.win.arr_inj c _ _ 3
theorem exit3_out (o : Gen.Outs (F := F)) (c : Dev nD) : exit3 m o c main_v14 = (Reg.dat3 (E3 m o) c).arrAt 3 cfg3.N :=
  Pipeline.withArrays_arr spec3 launch3.win.arr_inj c _ _ 3
theorem exit4_out (o : Gen.Outs (F := F)) (c : Dev nD) : exit4 m o c main_v19 = (Reg.dat4 (E4 m o) c).arrAt 3 cfg4.N :=
  Pipeline.withArrays_arr spec4 launch4.win.arr_inj c _ _ 3
theorem exit5_out (o : Gen.Outs (F := F)) (c : Dev nD) : exit5 m o c main_v22 = (Reg.dat5 (E5 m o) c).arrAt 3 cfg5.N :=
  Pipeline.withArrays_arr spec5 launch5.win.arr_inj c _ _ 3

def stage0 : Gen.Outs (F := F) := fun _ r c => exit0 m c r

def stage1 : Gen.Outs (F := F) := fun J r c => if J = 4 then exit1 m (stage0 m) c r else stage0 m J r c

def stage2 : Gen.Outs (F := F) := fun J r c => if J = 6 then exit2 m (stage1 m) c r else stage1 m J r c

def stage3 : Gen.Outs (F := F) := fun J r c => if J = 8 then exit3 m (stage2 m) c r else stage2 m J r c

def stage4 : Gen.Outs (F := F) := fun J r c => if J = 10 then exit4 m (stage3 m) c r else stage3 m J r c

def stage5 : Gen.Outs (F := F) := fun J r c => if J = 12 then exit5 m (stage4 m) c r else stage4 m J r c

def outs : Gen.Outs (F := F) := stage5 m

theorem outs_2_stage0 : outs m 2 = stage0 m 2 := rfl
theorem outs_2_stage1 : outs m 2 = stage1 m 2 := rfl
theorem outs_4_stage1 : outs m 4 = stage1 m 4 := rfl
theorem outs_2_stage2 : outs m 2 = stage2 m 2 := rfl
theorem outs_4_stage2 : outs m 4 = stage2 m 4 := rfl
theorem outs_6_stage2 : outs m 6 = stage2 m 6 := rfl
theorem outs_2_stage3 : outs m 2 = stage3 m 2 := rfl
theorem outs_4_stage3 : outs m 4 = stage3 m 4 := rfl
theorem outs_6_stage3 : outs m 6 = stage3 m 6 := rfl
theorem outs_8_stage3 : outs m 8 = stage3 m 8 := rfl
theorem outs_2_stage4 : outs m 2 = stage4 m 2 := rfl
theorem outs_4_stage4 : outs m 4 = stage4 m 4 := rfl
theorem outs_6_stage4 : outs m 6 = stage4 m 6 := rfl
theorem outs_8_stage4 : outs m 8 = stage4 m 8 := rfl
theorem outs_10_stage4 : outs m 10 = stage4 m 10 := rfl

theorem outs_2 (r : Ref sig .tc) (c : Dev nD) : outs m 2 r c = exit0 m c r := rfl
theorem outs_4 (r : Ref sig .tc) (c : Dev nD) : outs m 4 r c = exit1 m (stage0 m) c r := rfl
theorem outs_6 (r : Ref sig .tc) (c : Dev nD) : outs m 6 r c = exit2 m (stage1 m) c r := rfl
theorem outs_8 (r : Ref sig .tc) (c : Dev nD) : outs m 8 r c = exit3 m (stage2 m) c r := rfl
theorem outs_10 (r : Ref sig .tc) (c : Dev nD) : outs m 10 r c = exit4 m (stage3 m) c r := rfl
theorem outs_12 (r : Ref sig .tc) (c : Dev nD) : outs m 12 r c = exit5 m (stage4 m) c r := rfl

variable {m}
theorem V3_congr {o o' : Gen.Outs (F := F)} (h2 : o 2 = o' 2) (c : Dev nD) : Gen.V3 m o c = Gen.V3 m o' c := by
  have e : o 2 main_v3 c = o' 2 main_v3 c := by rw [h2]
  show StableHlo.after hostOps1 (Function.update (Gen.V1 m c) main_v3 (o 2 main_v3 c)) = _
  rw [e]
theorem V5_congr {o o' : Gen.Outs (F := F)} (h2 : o 2 = o' 2) (h4 : o 4 = o' 4) (c : Dev nD) : Gen.V5 m o c = Gen.V5 m o' c := by
  have e : o 4 main_v6 c = o' 4 main_v6 c := by rw [h4]
  show StableHlo.after hostOps2 (Function.update (Gen.V3 m o c) main_v6 (o 4 main_v6 c)) = _
  rw [e, V3_congr h2 c]
theorem V7_congr {o o' : Gen.Outs (F := F)} (h2 : o 2 = o' 2) (h4 : o 4 = o' 4) (h6 : o 6 = o' 6) (c : Dev nD) : Gen.V7 m o c = Gen.V7 m o' c := by
  have e : o 6 main_v11 c = o' 6 main_v11 c := by rw [h6]
  show StableHlo.after hostOps3 (Function.update (Gen.V5 m o c) main_v11 (o 6 main_v11 c)) = _
  rw [e, V5_congr h2 h4 c]
theorem V9_congr {o o' : Gen.Outs (F := F)} (h2 : o 2 = o' 2) (h4 : o 4 = o' 4) (h6 : o 6 = o' 6) (h8 : o 8 = o' 8) (c : Dev nD) : Gen.V9 m o c = Gen.V9 m o' c := by
  have e : o 8 main_v14 c = o' 8 main_v14 c := by rw [h8]
  show StableHlo.after hostOps4 (Function.update (Gen.V7 m o c) main_v14 (o 8 main_v14 c)) = _
  rw [e, V7_congr h2 h4 h6 c]
theorem V11_congr {o o' : Gen.Outs (F := F)} (h2 : o 2 = o' 2) (h4 : o 4 = o' 4) (h6 : o 6 = o' 6) (h8 : o 8 = o' 8) (h10 : o 10 = o' 10) (c : Dev nD) : Gen.V11 m o c = Gen.V11 m o' c := by
  have e : o 10 main_v19 c = o' 10 main_v19 c := by rw [h10]
  show StableHlo.after hostOps5 (Function.update (Gen.V9 m o c) main_v19 (o 10 main_v19 c)) = _
  rw [e, V9_congr h2 h4 h6 h8 c]

variable (m)

theorem E1_outs : E1 m (outs m) = E1 m (stage0 m) :=
  funext fun c => funext fun b => congrFun (V3_congr (outs_2_stage0 m) c) _
theorem E2_outs : E2 m (outs m) = E2 m (stage1 m) :=
  funext fun c => funext fun b => congrFun (V5_congr (outs_2_stage1 m) (outs_4_stage1 m) c) _
theorem E3_outs : E3 m (outs m) = E3 m (stage2 m) :=
  funext fun c => funext fun b => congrFun (V7_congr (outs_2_stage2 m) (outs_4_stage2 m) (outs_6_stage2 m) c) _
theorem E4_outs : E4 m (outs m) = E4 m (stage3 m) :=
  funext fun c => funext fun b => congrFun (V9_congr (outs_2_stage3 m) (outs_4_stage3 m) (outs_6_stage3 m) (outs_8_stage3 m) c) _
theorem E5_outs : E5 m (outs m) = E5 m (stage4 m) :=
  funext fun c => funext fun b => congrFun (V11_congr (outs_2_stage4 m) (outs_4_stage4 m) (outs_6_stage4 m) (outs_8_stage4 m) (outs_10_stage4 m) c) _

/-- The arrays so defined are what the regions leave: region K is entered at contents that read only the arrays before it. -/
theorem outsOk : OutsOk m (outs m) where
  h0 c := by rw [outs_2]; exact (exit0_out m c).symm
  h1 c := by rw [E1_outs, outs_4]; exact (exit1_out m (stage0 m) c).symm
  h2 c := by rw [E2_outs, outs_6]; exact (exit2_out m (stage1 m) c).symm
  h3 c := by rw [E3_outs, outs_8]; exact (exit3_out m (stage2 m) c).symm
  h4 c := by rw [E4_outs, outs_10]; exact (exit4_out m (stage3 m) c).symm
  h5 c := by rw [E5_outs, outs_12]; exact (exit5_out m (stage4 m) c).symm

end Cert.KernelIdeal.Run

end
-- ==== Proof.KOutsDef.lean ====
import proofs.«146132_j71485435675282_1_alg».proof.Proof.KOuts

noncomputable section

namespace Cert.Kernel.Run

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- The contents after region K, given the arrays the earlier regions left; then the six arrays one after the other, each from those before it. -/
def exit0 (c : Dev nD) : Valuation τ sig (Elt F) :=
  Pipeline.withArrays spec0 c (Gen.V1 m c) fun w => (Reg.dat0 (E0 m) c).arrAt w cfg0.N

def exit1 (o : Gen.Outs (F := F)) (c : Dev nD) : Valuation τ sig (Elt F) :=
  Pipeline.withArrays spec1 c (Gen.V3 m o c) fun w => (Reg.dat1 (E1 m o) c).arrAt w cfg1.N

def exit2 (o : Gen.Outs (F := F)) (c : Dev nD) : Valuation τ sig (Elt F) :=
  Pipeline.withArrays spec2 c (Gen.V5 m o c) fun w => (Reg.dat2 (E2 m o) c).arrAt w cfg2.N

def exit3 (o : Gen.Outs (F := F)) (c : Dev nD) : Valuation τ sig (Elt F) :=
  Pipeline.withArrays spec3 c (Gen.V7 m o c) fun w => (Reg.dat3 (E3 m o) c).arrAt w cfg3.N

def exit4 (o : Gen.Outs (F := F)) (c : Dev nD) : Valuation τ sig (Elt F) :=
  Pipeline.withArrays spec4 c (Gen.V9 m o c) fun w => (Reg.dat4 (E4 m o) c).arrAt w cfg4.N

def exit5 (o : Gen.Outs (F := F)) (c : Dev nD) : Valuation τ sig (Elt F) :=
  Pipeline.withArrays spec5 c (Gen.V11 m o c) fun w => (Reg.dat5 (E5 m o) c).arrAt w cfg5.N

theorem exit0_out (c : Dev nD) : exit0 m c main_v3 = (Reg.dat0 (E0 m) c).arrAt 3 cfg0.N :=
  Pipeline.withArrays_arr spec0 launch0.win.arr_inj c _ _ 3
theorem exit1_out (o : Gen.Outs (F := F)) (c : Dev nD) : exit1 m o c main_v6 = (Reg.dat1 (E1 m o) c).arrAt 3 cfg1.N :=
  Pipeline.withArrays_arr spec1 launch1.win.arr_inj c _ _ 3
theorem exit2_out (o : Gen.Outs (F := F)) (c : Dev nD) : exit2 m o c main_v11 = (Reg.dat2 (E2 m o) c).arrAt 3 cfg2.N :=
  Pipeline.withArrays_arr spec2 launch2.win.arr_inj c _ _ 3
theorem exit3_out (o : Gen.Outs (F := F)) (c : Dev nD) : exit3 m o c main_v14 = (Reg.dat3 (E3 m o) c).arrAt 3 cfg3.N :=
  Pipeline.withArrays_arr spec3 launch3.win.arr_inj c _ _ 3
theorem exit4_out (o : Gen.Outs (F := F)) (c : Dev nD) : exit4 m o c main_v19 = (Reg.dat4 (E4 m o) c).arrAt 3 cfg4.N :=
  Pipeline.withArrays_arr spec4 launch4.win.arr_inj c _ _ 3
theorem exit5_out (o : Gen.Outs (F := F)) (c : Dev nD) : exit5 m o c main_v22 = (Reg.dat5 (E5 m o) c).arrAt 3 cfg5.N :=
  Pipeline.withArrays_arr spec5 launch5.win.arr_inj c _ _ 3

def stage0 : Gen.Outs (F := F) := fun _ r c => exit0 m c r

def stage1 : Gen.Outs (F := F) := fun J r c => if J = 4 then exit1 m (stage0 m) c r else stage0 m J r c

def stage2 : Gen.Outs (F := F) := fun J r c => if J = 6 then exit2 m (stage1 m) c r else stage1 m J r c

def stage3 : Gen.Outs (F := F) := fun J r c => if J = 8 then exit3 m (stage2 m) c r else stage2 m J r c

def stage4 : Gen.Outs (F := F) := fun J r c => if J = 10 then exit4 m (stage3 m) c r else stage3 m J r c

def stage5 : Gen.Outs (F := F) := fun J r c => if J = 12 then exit5 m (stage4 m) c r else stage4 m J r c

def outs : Gen.Outs (F := F) := stage5 m

theorem outs_2_stage0 : outs m 2 = stage0 m 2 := rfl
theorem outs_2_stage1 : outs m 2 = stage1 m 2 := rfl
theorem outs_4_stage1 : outs m 4 = stage1 m 4 := rfl
theorem outs_2_stage2 : outs m 2 = stage2 m 2 := rfl
theorem outs_4_stage2 : outs m 4 = stage2 m 4 := rfl
theorem outs_6_stage2 : outs m 6 = stage2 m 6 := rfl
theorem outs_2_stage3 : outs m 2 = stage3 m 2 := rfl
theorem outs_4_stage3 : outs m 4 = stage3 m 4 := rfl
theorem outs_6_stage3 : outs m 6 = stage3 m 6 := rfl
theorem outs_8_stage3 : outs m 8 = stage3 m 8 := rfl
theorem outs_2_stage4 : outs m 2 = stage4 m 2 := rfl
theorem outs_4_stage4 : outs m 4 = stage4 m 4 := rfl
theorem outs_6_stage4 : outs m 6 = stage4 m 6 := rfl
theorem outs_8_stage4 : outs m 8 = stage4 m 8 := rfl
theorem outs_10_stage4 : outs m 10 = stage4 m 10 := rfl

theorem outs_2 (r : Ref sig .tc) (c : Dev nD) : outs m 2 r c = exit0 m c r := rfl
theorem outs_4 (r : Ref sig .tc) (c : Dev nD) : outs m 4 r c = exit1 m (stage0 m) c r := rfl
theorem outs_6 (r : Ref sig .tc) (c : Dev nD) : outs m 6 r c = exit2 m (stage1 m) c r := rfl
theorem outs_8 (r : Ref sig .tc) (c : Dev nD) : outs m 8 r c = exit3 m (stage2 m) c r := rfl
theorem outs_10 (r : Ref sig .tc) (c : Dev nD) : outs m 10 r c = exit4 m (stage3 m) c r := rfl
theorem outs_12 (r : Ref sig .tc) (c : Dev nD) : outs m 12 r c = exit5 m (stage4 m) c r := rfl

variable {m}
theorem V3_congr {o o' : Gen.Outs (F := F)} (h2 : o 2 = o' 2) (c : Dev nD) : Gen.V3 m o c = Gen.V3 m o' c := by
  have e : o 2 main_v3 c = o' 2 main_v3 c := by rw [h2]
  show StableHlo.after hostOps1 (Function.update (Gen.V1 m c) main_v3 (o 2 main_v3 c)) = _
  rw [e]
theorem V5_congr {o o' : Gen.Outs (F := F)} (h2 : o 2 = o' 2) (h4 : o 4 = o' 4) (c : Dev nD) : Gen.V5 m o c = Gen.V5 m o' c := by
  have e : o 4 main_v6 c = o' 4 main_v6 c := by rw [h4]
  show StableHlo.after hostOps2 (Function.update (Gen.V3 m o c) main_v6 (o 4 main_v6 c)) = _
  rw [e, V3_congr h2 c]
theorem V7_congr {o o' : Gen.Outs (F := F)} (h2 : o 2 = o' 2) (h4 : o 4 = o' 4) (h6 : o 6 = o' 6) (c : Dev nD) : Gen.V7 m o c = Gen.V7 m o' c := by
  have e : o 6 main_v11 c = o' 6 main_v11 c := by rw [h6]
  show StableHlo.after hostOps3 (Function.update (Gen.V5 m o c) main_v11 (o 6 main_v11 c)) = _
  rw [e, V5_congr h2 h4 c]
theorem V9_congr {o o' : Gen.Outs (F := F)} (h2 : o 2 = o' 2) (h4 : o 4 = o' 4) (h6 : o 6 = o' 6) (h8 : o 8 = o' 8) (c : Dev nD) : Gen.V9 m o c = Gen.V9 m o' c := by
  have e : o 8 main_v14 c = o' 8 main_v14 c := by rw [h8]
  show StableHlo.after hostOps4 (Function.update (Gen.V7 m o c) main_v14 (o 8 main_v14 c)) = _
  rw [e, V7_congr h2 h4 h6 c]
theorem V11_congr {o o' : Gen.Outs (F := F)} (h2 : o 2 = o' 2) (h4 : o 4 = o' 4) (h6 : o 6 = o' 6) (h8 : o 8 = o' 8) (h10 : o 10 = o' 10) (c : Dev nD) : Gen.V11 m o c = Gen.V11 m o' c := by
  have e : o 10 main_v19 c = o' 10 main_v19 c := by rw [h10]
  show StableHlo.after hostOps5 (Function.update (Gen.V9 m o c) main_v19 (o 10 main_v19 c)) = _
  rw [e, V9_congr h2 h4 h6 h8 c]

variable (m)

theorem E1_outs : E1 m (outs m) = E1 m (stage0 m) :=
  funext fun c => funext fun b => congrFun (V3_congr (outs_2_stage0 m) c) _
theorem E2_outs : E2 m (outs m) = E2 m (stage1 m) :=
  funext fun c => funext fun b => congrFun (V5_congr (outs_2_stage1 m) (outs_4_stage1 m) c) _
theorem E3_outs : E3 m (outs m) = E3 m (stage2 m) :=
  funext fun c => funext fun b => congrFun (V7_congr (outs_2_stage2 m) (outs_4_stage2 m) (outs_6_stage2 m) c) _
theorem E4_outs : E4 m (outs m) = E4 m (stage3 m) :=
  funext fun c => funext fun b => congrFun (V9_congr (outs_2_stage3 m) (outs_4_stage3 m) (outs_6_stage3 m) (outs_8_stage3 m) c) _
theorem E5_outs : E5 m (outs m) = E5 m (stage4 m) :=
  funext fun c => funext fun b => congrFun (V11_congr (outs_2_stage4 m) (outs_4_stage4 m) (outs_6_stage4 m) (outs_8_stage4 m) (outs_10_stage4 m) c) _

/-- The arrays so defined are what the regions leave: region K is entered at contents that read only the arrays before it. -/
theorem outsOk : OutsOk m (outs m) where
  h0 c := by rw [outs_2]; exact (exit0_out m c).symm
  h1 c := by rw [E1_outs, outs_4]; exact (exit1_out m (stage0 m) c).symm
  h2 c := by rw [E2_outs, outs_6]; exact (exit2_out m (stage1 m) c).symm
  h3 c := by rw [E3_outs, outs_8]; exact (exit3_out m (stage2 m) c).symm
  h4 c := by rw [E4_outs, outs_10]; exact (exit4_out m (stage3 m) c).symm
  h5 c := by rw [E5_outs, outs_12]; exact (exit5_out m (stage4 m) c).symm

end Cert.Kernel.Run

end
-- ==== Proof.Payload.lean ====
import proofs.«146132_j71485435675282_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Reg

open Cert.KernelIdeal Cert.KernelIdeal.Gen Idealize.ShloMosaic Idealize.ShloMosaic.ValueIdx

/-- The cleared block is zero everywhere. -/
theorem pay1_apply (y : S256x1024.Idx) : k0_pay1 (F := Ideal) y = 0 := by
  unfold k0_pay1
  rw [shapeCast_self]
  exact Ideal.ofBits_zero_f32

/-- On its free axis each operand of the product follows the output coordinate, on its contracted axis the contraction position. -/
theorem lhs_pay2_0 (i : S256x1024.Idx) (k : dot_S256x1024_S1024x1024_S256x1024_1_1_0_0_n_n.contr.Idx) :
    (dot_S256x1024_S1024x1024_S256x1024_1_1_0_0_n_n.lhsIdx i k 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl

theorem lhs_pay2_1 (i : S256x1024.Idx) (k : dot_S256x1024_S1024x1024_S256x1024_1_1_0_0_n_n.contr.Idx) :
    (dot_S256x1024_S1024x1024_S256x1024_1_1_0_0_n_n.lhsIdx i k 1).val = (k ⟨0, by decide⟩).val :=
  dot_S256x1024_S1024x1024_S256x1024_1_1_0_0_n_n.lhsIdx_val_of_single rfl i k

theorem rhs_pay2_0 (i : S256x1024.Idx) (k : dot_S256x1024_S1024x1024_S256x1024_1_1_0_0_n_n.contr.Idx) :
    (dot_S256x1024_S1024x1024_S256x1024_1_1_0_0_n_n.rhsIdx i k 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl

theorem rhs_pay2_1 (i : S256x1024.Idx) (k : dot_S256x1024_S1024x1024_S256x1024_1_1_0_0_n_n.contr.Idx) :
    (dot_S256x1024_S1024x1024_S256x1024_1_1_0_0_n_n.rhsIdx i k 1).val = (k ⟨0, by decide⟩).val :=
  dot_S256x1024_S1024x1024_S256x1024_1_1_0_0_n_n.rhsIdx_val_of_single rfl i k

/-- The product into a zero block at (r, q): the sum over k of signal (r, k) times operator (q, k). -/
theorem matmul_apply (x : FVec Ideal S256x1024 .bf16) (l : FVec Ideal S1024x1024 .bf16) (r : Fin 256) (q : Fin 1024) :
    matmul dot_S256x1024_S1024x1024_S256x1024_1_1_0_0_n_n none x l (constant (F := Ideal) S256x1024 .f32 0x00000000#32) (ix2 r q)
      = ∑ k : Fin 1024, x (ix2 r k) * l (ix2 q k) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 r q) ((contrEquiv1 dot_S256x1024_S1024x1024_S256x1024_1_1_0_0_n_n 1024 rfl rfl).symm k) = ix2 r k := funext fun a => Fin.ext (by
    match a with
    | ⟨0, _⟩ => exact lhs_pay2_0 _ _
    | ⟨1, _⟩ => exact (lhs_pay2_1 _ _).trans hk)
  have er : dot_S256x1024_S1024x1024_S256x1024_1_1_0_0_n_n.rhsIdx (ix2 r q) ((contrEquiv1 dot_S256x1024_S1024x1024_S256x1024_1_1_0_0_n_n 1024 rfl rfl).symm k) = ix2 q k := funext fun a => Fin.ext (by
    match a with
    | ⟨0, _⟩ => exact rhs_pay2_0 _ _
    | ⟨1, _⟩ => exact (rhs_pay2_1 _ _).trans hk)
  rw [el, er]

/-- One step: the old accumulator plus the block product. -/
theorem pay2_apply (x : Vec Ideal S256x1024 .f32) (l : Vec Ideal S1024x1024 .f32) (a : Vec Ideal S256x1024 .f32)
    (r : Fin 256) (q : Fin 1024) :
    k0_pay2 x l a (ix2 r q) = a (ix2 r q) + ∑ k : Fin 1024, x (ix2 r k) * l (ix2 q k) := by
  unfold k0_pay2
  rw [shapeCast_self, shapeCast_self, addf_apply]
  exact congrArg (a (ix2 r q) + ·) (matmul_apply _ _ r q)

/-- Filter row f laid along every row of the block, and its clipped response. -/
theorem row_apply (w : Vec Ideal S4x1024 .f32) (o : Nat) (f : Fin 4) (hf : f.val = o)
    (hc : S4x1024.ShapeCasts S4x1024) (hs : S4x1024.Slices ![o, 0] S1x1024) (hb : S1x1024.Broadcasts S256x1024)
    (r : Fin 256) (q : Fin 1024) :
    broadcastTo S256x1024 (extractStridedSlice S1x1024 ![o, 0] (shapeCast S4x1024 w hc) hs) hb (ix2 r q) = w (ix2 f q) := by
  refine (broadcastTo_1b_ab_apply _ hb r q).trans ?_
  refine (slice2_axis0_apply o _ hs (0 : Fin 1) q f (by rw [hf]; rfl)).trans ?_
  rw [shapeCast_self]

theorem term_apply (a : Vec Ideal S256x1024 .f32) (w : Vec Ideal S4x1024 .f32) (o : Nat) (f : Fin 4) (hf : f.val = o)
    (hc : S4x1024.ShapeCasts S4x1024) (hs : S4x1024.Slices ![o, 0] S1x1024) (hb : S1x1024.Broadcasts S256x1024)
    (r : Fin 256) (q : Fin 1024) :
    maximumf (mulf a (broadcastTo S256x1024 (extractStridedSlice S1x1024 ![o, 0] (shapeCast S4x1024 w hc) hs) hb))
        (broadcast S256x1024 (Scalar.ofBits (F := Ideal) .f32 0x00000000#32)) (ix2 r q)
      = max (a (ix2 r q) * w (ix2 f q)) 0 := by
  rw [maximumf_apply, mulf_apply, row_apply w o f hf hc hs hb r q, broadcast_apply]
  exact congrArg (max _) Ideal.ofBits_zero_f32

/-- The output block: the four clipped responses added in order onto zero. -/
theorem pay3_apply (a : Vec Ideal S256x1024 .f32) (w : Vec Ideal S4x1024 .f32) (r : Fin 256) (q : Fin 1024) :
    k0_pay3 a w (ix2 r q)
      = (((0 + max (a (ix2 r q) * w (ix2 0 q)) 0) + max (a (ix2 r q) * w (ix2 1 q)) 0)
          + max (a (ix2 r q) * w (ix2 2 q)) 0) + max (a (ix2 r q) * w (ix2 3 q)) 0 := by
  unfold k0_pay3
  rw [addf_apply, addf_apply, addf_apply, addf_apply, term_apply a w 0 0 rfl, term_apply a w 1 1 rfl,
    term_apply a w 2 2 rfl, term_apply a w 3 3 rfl, broadcast_apply]
  exact congrArg (fun z => (((z + _) + _) + _) + _) Ideal.ofBits_zero_f32

section Same
variable {F : FTy → Type} [FloatOps F]

/-- The six launches run one body, so each stores the first launch's three values. -/
theorem k1_pay1_eq : k1_pay1 (F := F) = k0_pay1 := rfl
theorem k1_pay2_eq : k1_pay2 (F := F) = k0_pay2 := rfl
theorem k1_pay3_eq : k1_pay3 (F := F) = k0_pay3 := rfl
theorem k2_pay1_eq : k2_pay1 (F := F) = k0_pay1 := rfl
theorem k2_pay2_eq : k2_pay2 (F := F) = k0_pay2 := rfl
theorem k2_pay3_eq : k2_pay3 (F := F) = k0_pay3 := rfl
theorem k3_pay1_eq : k3_pay1 (F := F) = k0_pay1 := rfl
theorem k3_pay2_eq : k3_pay2 (F := F) = k0_pay2 := rfl
theorem k3_pay3_eq : k3_pay3 (F := F) = k0_pay3 := rfl
theorem k4_pay1_eq : k4_pay1 (F := F) = k0_pay1 := rfl
theorem k4_pay2_eq : k4_pay2 (F := F) = k0_pay2 := rfl
theorem k4_pay3_eq : k4_pay3 (F := F) = k0_pay3 := rfl
theorem k5_pay1_eq : k5_pay1 (F := F) = k0_pay1 := rfl
theorem k5_pay2_eq : k5_pay2 (F := F) = k0_pay2 := rfl
theorem k5_pay3_eq : k5_pay3 (F := F) = k0_pay3 := rfl

end Same

end Cert.KernelIdeal.Reg

end
-- ==== Proof.Spec.lean ====
import Idealize.ShloMosaic.PureOps.Ideal
import Idealize.ShloMosaic.Lib.ValueIdx

noncomputable section

namespace Cert.Scnn

open Idealize.ShloMosaic Idealize.ShloMosaic.ValueIdx

/-- A [256, N] signal contracted with an [N, N] operator along the operator's second axis: entry (r, n). -/
def lap2 (N : Nat) (x : (⟨2, ![256, N]⟩ : Shape).Idx → EReal) (L : (⟨2, ![N, N]⟩ : Shape).Idx → EReal)
    (r : Fin 256) (n : Fin N) : EReal :=
  ∑ k : Fin N, x (ix2 r k) * L (ix2 n k)

/-- The four clipped filter responses of a, summed. -/
def filt (a : EReal) (w : Fin 4 → EReal) : EReal := ∑ f : Fin 4, max (a * w f) 0

/-- One layer on a [256, N] signal: the filter sum of the contraction, the filters read at the output column. -/
def layer2 (N : Nat) (x : (⟨2, ![256, N]⟩ : Shape).Idx → EReal) (L : (⟨2, ![N, N]⟩ : Shape).Idx → EReal)
    (wc : (⟨2, ![4, N]⟩ : Shape).Idx → EReal) : (⟨2, ![256, N]⟩ : Shape).Idx → EReal :=
  fun j => filt (lap2 N x L (j 0) (j 1)) (fun f => wc (ix2 f (j 1)))

/-- The same contraction and layer on a [32, 8, N] signal. -/
def lap3 (N : Nat) (x : (⟨3, ![32, 8, N]⟩ : Shape).Idx → EReal) (L : (⟨2, ![N, N]⟩ : Shape).Idx → EReal)
    (b : Fin 32) (s : Fin 8) (n : Fin N) : EReal :=
  ∑ k : Fin N, x (ix3 b s k) * L (ix2 n k)

def layer3 (N : Nat) (x : (⟨3, ![32, 8, N]⟩ : Shape).Idx → EReal) (L : (⟨2, ![N, N]⟩ : Shape).Idx → EReal)
    (wc : (⟨2, ![4, N]⟩ : Shape).Idx → EReal) : (⟨3, ![32, 8, N]⟩ : Shape).Idx → EReal :=
  fun j => filt (lap3 N x L (j 0) (j 1) (j 2)) (fun f => wc (ix2 f (j 2)))

/-- The four filter rows of layer l. -/
def wsel (N : Nat) (Wc : (⟨3, ![2, 4, N]⟩ : Shape).Idx → EReal) (l : Fin 2) : (⟨2, ![4, N]⟩ : Shape).Idx → EReal :=
  fun j => Wc (ix3 l (j 0) (j 1))

/-- The (batch, position) axes as one row axis, row 8 b + s, and back. -/
def flat (N : Nat) (x : (⟨3, ![32, 8, N]⟩ : Shape).Idx → EReal) : (⟨2, ![256, N]⟩ : Shape).Idx → EReal :=
  fun j => x (ix3 ⟨(j 0).val / 8, by have := (j 0).isLt; simp only [Matrix.cons_val_zero] at this; omega⟩
    ⟨(j 0).val % 8, Nat.mod_lt _ (by decide)⟩ (j 1))

def unflat (N : Nat) (y : (⟨2, ![256, N]⟩ : Shape).Idx → EReal) : (⟨3, ![32, 8, N]⟩ : Shape).Idx → EReal :=
  fun j => y (ix2 ⟨(j 0).val * 8 + (j 1).val, by
      have h0 := (j 0).isLt; have h1 := (j 1).isLt
      simp only [Matrix.cons_val_zero, Matrix.cons_val_one, Matrix.head_cons] at h0 h1; omega⟩ (j 2))

end Cert.Scnn

end
-- ==== Proof.Bridge.lean ====
import proofs.«146132_j71485435675282_1_alg».proof.Proof.Spec
import Idealize.ShloMosaic.PureOps.Ideal
import Idealize.ShloMosaic.Lib.ValueIdx
import Idealize.ShloMosaic.Lib.Pipeline.Value
import Idealize.ShloMosaic.Lib.ValueLayout
import Mathlib.Algebra.BigOperators.Fin

noncomputable section

namespace Cert.Scnn

open Idealize.ShloMosaic Idealize.ShloMosaic.ValueIdx

/-- A sum over m + n terms is the sum of the first m plus the sum of the last n. -/
theorem sum_split (m n : Nat) (f : Fin (m + n) → EReal) :
    ∑ k : Fin (m + n), f k
      = (∑ q : Fin m, f ⟨q.val, by have := q.isLt; omega⟩) + ∑ q : Fin n, f ⟨m + q.val, by have := q.isLt; omega⟩ :=
  Fin.sum_univ_add f

/-- 2048 (4096) terms: their consecutive blocks of 1024 added in turn onto zero, the order in which a blocked contraction meets them. -/
theorem sum_blocks2 (f : Fin 2048 → EReal) :
    (0 + ∑ q : Fin 1024, f ⟨q.val, by have := q.isLt; omega⟩) + ∑ q : Fin 1024, f ⟨1024 + q.val, by have := q.isLt; omega⟩
      = ∑ k : Fin 2048, f k := by
  rw [zero_add]
  exact (sum_split 1024 1024 f).symm

theorem sum_blocks4 (f : Fin 4096 → EReal) :
    (((0 + ∑ q : Fin 1024, f ⟨q.val, by have := q.isLt; omega⟩) + ∑ q : Fin 1024, f ⟨1024 + q.val, by have := q.isLt; omega⟩)
        + ∑ q : Fin 1024, f ⟨2048 + q.val, by have := q.isLt; omega⟩) + ∑ q : Fin 1024, f ⟨3072 + q.val, by have := q.isLt; omega⟩
      = ∑ k : Fin 4096, f k := by
  rw [zero_add, sum_split 2048 2048 f,
    sum_split 1024 1024 (fun q : Fin 2048 => f ⟨q.val, by have := q.isLt; omega⟩),
    sum_split 1024 1024 (fun q : Fin 2048 => f ⟨2048 + q.val, by have := q.isLt; omega⟩), ← add_assoc]
  refine congrArg₂ (· + ·) rfl (Finset.sum_congr rfl fun q _ => congrArg f (Fin.ext ?_))
  show 3072 + q.val = 2048 + (1024 + q.val)
  omega

theorem sum_blocks2_mul (f : Fin 2048 → EReal) :
    (0 + ∑ q : Fin 1024, f ⟨0 * 1024 + q.val, by have := q.isLt; omega⟩) + ∑ q : Fin 1024, f ⟨1 * 1024 + q.val, by have := q.isLt; omega⟩
      = ∑ k : Fin 2048, f k := by
  rw [← sum_blocks2 f]
  refine congrArg₂ (· + ·) (congrArg (0 + ·) (Finset.sum_congr rfl fun q _ => congrArg f (Fin.ext ?_)))
    (Finset.sum_congr rfl fun q _ => congrArg f (Fin.ext ?_))
  · show 0 * 1024 + q.val = q.val; omega
  · show 1 * 1024 + q.val = 1024 + q.val; omega

theorem sum_blocks4_mul (f : Fin 4096 → EReal) :
    (((0 + ∑ q : Fin 1024, f ⟨0 * 1024 + q.val, by have := q.isLt; omega⟩) + ∑ q : Fin 1024, f ⟨1 * 1024 + q.val, by have := q.isLt; omega⟩)
        + ∑ q : Fin 1024, f ⟨2 * 1024 + q.val, by have := q.isLt; omega⟩) + ∑ q : Fin 1024, f ⟨3 * 1024 + q.val, by have := q.isLt; omega⟩
      = ∑ k : Fin 4096, f k := by
  rw [← sum_blocks4 f]
  refine congrArg₂ (· + ·) (congrArg₂ (· + ·) (congrArg₂ (· + ·) (congrArg (0 + ·)
    (Finset.sum_congr rfl fun q _ => congrArg f (Fin.ext ?_)))
    (Finset.sum_congr rfl fun q _ => congrArg f (Fin.ext ?_)))
    (Finset.sum_congr rfl fun q _ => congrArg f (Fin.ext ?_)))
    (Finset.sum_congr rfl fun q _ => congrArg f (Fin.ext ?_))
  · show 0 * 1024 + q.val = q.val; omega
  · show 1 * 1024 + q.val = 1024 + q.val; omega
  · show 2 * 1024 + q.val = 2048 + q.val; omega
  · show 3 * 1024 + q.val = 3072 + q.val; omega

/-- The four responses added one after the other onto zero are the filter sum. -/
theorem filt_eq (a : EReal) (w : Fin 4 → EReal) :
    (((0 + max (a * w 0) 0) + max (a * w 1) 0) + max (a * w 2) 0) + max (a * w 3) 0 = filt a w := by
  unfold filt
  rw [Fin.sum_univ_four, zero_add]

/-- A layer commutes with flattening, and flattening is a bijection, so two layers on the flattened signal, read back, are two layers on the batched one. -/
theorem layer2_flat (N : Nat) (x : (⟨3, ![32, 8, N]⟩ : Shape).Idx → EReal) (L : (⟨2, ![N, N]⟩ : Shape).Idx → EReal)
    (wc : (⟨2, ![4, N]⟩ : Shape).Idx → EReal) : layer2 N (flat N x) L wc = flat N (layer3 N x L wc) := rfl

theorem unflat_flat (N : Nat) (x : (⟨3, ![32, 8, N]⟩ : Shape).Idx → EReal) : unflat N (flat N x) = x := by
  funext j
  unfold unflat flat
  refine congrArg x (funext fun a => ?_)
  have h1 : (j 1).val < 8 := (j 1).isLt
  match a with
  | ⟨0, _⟩ => exact Fin.ext (show ((j 0).val * 8 + (j 1).val) / 8 = (j 0).val by omega)
  | ⟨1, _⟩ => exact Fin.ext (show ((j 0).val * 8 + (j 1).val) % 8 = (j 1).val by omega)
  | ⟨2, _⟩ => rfl

theorem flat_unflat (N : Nat) (y : (⟨2, ![256, N]⟩ : Shape).Idx → EReal) : flat N (unflat N y) = y := by
  funext j
  unfold unflat flat
  refine congrArg y (funext fun a => ?_)
  match a with
  | ⟨0, _⟩ => exact Fin.ext (show (j 0).val / 8 * 8 + (j 0).val % 8 = (j 0).val by omega)
  | ⟨1, _⟩ => rfl

theorem two_layers (N : Nat) (x : (⟨3, ![32, 8, N]⟩ : Shape).Idx → EReal) (L : (⟨2, ![N, N]⟩ : Shape).Idx → EReal)
    (wA wB : (⟨2, ![4, N]⟩ : Shape).Idx → EReal) :
    unflat N (layer2 N (layer2 N (flat N x) L wA) L wB) = layer3 N (layer3 N x L wA) L wB := by
  rw [layer2_flat, layer2_flat, unflat_flat]

/-- A row-major reshape between [32, 8, N] and [256, N] is that flattening; a one-layer slice of the stacked filters reshaped to [4, N] is the layer's four rows. -/
theorem shapeCast_flat (N : Nat) (x : FVec Ideal ⟨3, ![32, 8, N]⟩ .f32)
    (h : (⟨3, ![32, 8, N]⟩ : Shape).ShapeCasts ⟨2, ![256, N]⟩) :
    shapeCast (⟨2, ![256, N]⟩ : Shape) x h = flat N x := by
  funext j
  refine shapeCast_apply x h j (ix3 ⟨(j 0).val / 8, by have := idx2_lt0 j; omega⟩
    ⟨(j 0).val % 8, Nat.mod_lt _ (by decide)⟩ (j 1)) ?_
  rw [Shape.rowMajor_val_three, Shape.rowMajor_val_two]
  show ((j 0).val / 8 * 8 + (j 0).val % 8) * N + (j 1).val = (j 0).val * N + (j 1).val
  rw [Nat.div_add_mod' (j 0).val 8]

theorem shapeCast_unflat (N : Nat) (y : FVec Ideal ⟨2, ![256, N]⟩ .f32)
    (h : (⟨2, ![256, N]⟩ : Shape).ShapeCasts ⟨3, ![32, 8, N]⟩) :
    shapeCast (⟨3, ![32, 8, N]⟩ : Shape) y h = unflat N y := by
  funext j
  have h0 : (j 0).val < 32 := (j 0).isLt
  have h1 : (j 1).val < 8 := (j 1).isLt
  refine shapeCast_apply y h j (ix2 ⟨(j 0).val * 8 + (j 1).val, by omega⟩ (j 2)) ?_
  rw [Shape.rowMajor_val_two, Shape.rowMajor_val_three]
  rfl

theorem shapeCast_slice_wsel (N o : Nat) (ho : o < 2) (Wc : FVec Ideal ⟨3, ![2, 4, N]⟩ .f32)
    (hs : (⟨3, ![2, 4, N]⟩ : Shape).Slices ![o, 0, 0] ⟨3, ![1, 4, N]⟩)
    (hc : (⟨3, ![1, 4, N]⟩ : Shape).ShapeCasts ⟨2, ![4, N]⟩) :
    shapeCast (⟨2, ![4, N]⟩ : Shape) (extractStridedSlice (⟨3, ![1, 4, N]⟩ : Shape) ![o, 0, 0] Wc hs) hc
      = wsel N Wc ⟨o, ho⟩ := by
  funext j
  obtain ⟨f, n, rfl⟩ : ∃ (f : Fin 4) (n : Fin N), j = ix2 f n := ⟨j 0, j 1, eq_ix2 j⟩
  refine (shapeCast_1ab_ab_apply _ hc f n).trans ?_
  refine extractStridedSlice_apply _ Wc hs _ (ix3 (⟨o, ho⟩ : Fin 2) f n) fun a => ?_
  match a with
  | ⟨0, _⟩ => rfl
  | ⟨1, _⟩ => exact (Nat.zero_add _).symm
  | ⟨2, _⟩ => exact (Nat.zero_add _).symm

theorem shapeCast_slice_wsel0 (N : Nat) (Wc : FVec Ideal ⟨3, ![2, 4, N]⟩ .f32)
    (hs : (⟨3, ![2, 4, N]⟩ : Shape).Slices ![0, 0, 0] ⟨3, ![1, 4, N]⟩)
    (hc : (⟨3, ![1, 4, N]⟩ : Shape).ShapeCasts ⟨2, ![4, N]⟩) :
    shapeCast (⟨2, ![4, N]⟩ : Shape) (extractStridedSlice (⟨3, ![1, 4, N]⟩ : Shape) ![0, 0, 0] Wc hs) hc
      = wsel N Wc 0 :=
  shapeCast_slice_wsel N 0 (by decide) Wc hs hc

theorem shapeCast_slice_wsel1 (N : Nat) (Wc : FVec Ideal ⟨3, ![2, 4, N]⟩ .f32)
    (hs : (⟨3, ![2, 4, N]⟩ : Shape).Slices ![1, 0, 0] ⟨3, ![1, 4, N]⟩)
    (hc : (⟨3, ![1, 4, N]⟩ : Shape).ShapeCasts ⟨2, ![4, N]⟩) :
    shapeCast (⟨2, ![4, N]⟩ : Shape) (extractStridedSlice (⟨3, ![1, 4, N]⟩ : Shape) ![1, 0, 0] Wc hs) hc
      = wsel N Wc 1 :=
  shapeCast_slice_wsel N 1 (by decide) Wc hs hc

end Cert.Scnn

end
-- ==== Proof.RegVal0.lean ====
import proofs.«146132_j71485435675282_1_alg».proof.Proof.Reg0
import proofs.«146132_j71485435675282_1_alg».proof.Proof.Payload
import proofs.«146132_j71485435675282_1_alg».proof.Proof.Bridge
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

section AnyF

variable (V : (c : Dev nD) → (b : Ref sig .tc) → Buf (Elt F) ((c : Thread nD τ).loc b))

/-- The block indices of the four windows at point t, row block i = t / steps, column block j = t % steps: signal (0, j), operator (i, j), filters and output (0, i). -/
theorem idx_facts0 : ∀ t : Fin cfg0.N,
    win0_0.index t (0 : Fin 2) = 0 ∧ win0_0.index t (1 : Fin 2) = t.val % 2
    ∧ win0_1.index t (0 : Fin 2) = t.val / 2 ∧ win0_1.index t (1 : Fin 2) = t.val % 2
    ∧ win0_2.index t (0 : Fin 2) = 0 ∧ win0_2.index t (1 : Fin 2) = t.val / 2
    ∧ win0_3.index t (0 : Fin 2) = 0 ∧ win0_3.index t (1 : Fin 2) = t.val / 2 :=
  (by decide +kernel : ∀ t : Fin grid0.N, _)

abbrev xarr0 (c : Dev nD) : Vec F S256x2048 .f32 := V c main_v0
abbrev larr0 (c : Dev nD) : Vec F S2048x2048 .f32 := V c main_arg3
abbrev warr0 (c : Dev nD) : Vec F S4x2048 .f32 := V c main_v2
abbrev xblk0 (c : Dev nD) (t : Fin cfg0.N) : Vec F S256x1024 .f32 := iblk0 V c 0 t
abbrev lblk0 (c : Dev nD) (t : Fin cfg0.N) : Vec F S1024x1024 .f32 := iblk0 V c 1 t
abbrev wblk0 (c : Dev nD) (t : Fin cfg0.N) : Vec F S4x1024 .f32 := iblk0 V c 2 t

theorem xblk0_apply (c : Dev nD) (t : Fin cfg0.N) (r : Fin 256) (k : Fin 1024) (kk : Fin 2048)
    (hk : kk.val = t.val % 2 * 1024 + k.val) : xblk0 V c t (ix2 r k) = xarr0 V c (ix2 r kk) := by
  obtain ⟨e0, e1, -⟩ := idx_facts0 t
  unfold xblk0 iblk0
  rw [View.read_apply]
  show V c main_v0 _ = V c main_v0 _
  refine congrArg (V c main_v0) (funext fun a => Fin.ext ?_)
  match a with
  | ⟨0, _⟩ => show win0_0.index t (0 : Fin 2) * 256 + 1 * r.val = r.val; rw [e0]; omega
  | ⟨1, _⟩ => show win0_0.index t (1 : Fin 2) * 1024 + 1 * k.val = kk.val; rw [e1, hk]; omega

theorem lblk0_apply (c : Dev nD) (t : Fin cfg0.N) (q : Fin 1024) (k : Fin 1024) (nn kk : Fin 2048)
    (hn : nn.val = t.val / 2 * 1024 + q.val) (hk : kk.val = t.val % 2 * 1024 + k.val) :
    lblk0 V c t (ix2 q k) = larr0 V c (ix2 nn kk) := by
  obtain ⟨-, -, e0, e1, -⟩ := idx_facts0 t
  unfold lblk0 iblk0
  rw [View.read_apply]
  show V c main_arg3 _ = V c main_arg3 _
  refine congrArg (V c main_arg3) (funext fun a => Fin.ext ?_)
  match a with
  | ⟨0, _⟩ => show win0_1.index t (0 : Fin 2) * 1024 + 1 * q.val = nn.val; rw [e0, hn]; omega
  | ⟨1, _⟩ => show win0_1.index t (1 : Fin 2) * 1024 + 1 * k.val = kk.val; rw [e1, hk]; omega

theorem wblk0_apply (c : Dev nD) (t : Fin cfg0.N) (f : Fin 4) (q : Fin 1024) (nn : Fin 2048)
    (hn : nn.val = t.val / 2 * 1024 + q.val) : wblk0 V c t (ix2 f q) = warr0 V c (ix2 f nn) := by
  obtain ⟨-, -, -, -, e0, e1, -⟩ := idx_facts0 t
  unfold wblk0 iblk0
  rw [View.read_apply]
  show V c main_v2 _ = V c main_v2 _
  refine congrArg (V c main_v2) (funext fun a => Fin.ext ?_)
  match a with
  | ⟨0, _⟩ => show win0_2.index t (0 : Fin 2) * 4 + 1 * f.val = f.val; rw [e0]; omega
  | ⟨1, _⟩ => show win0_2.index t (1 : Fin 2) * 1024 + 1 * q.val = nn.val; rw [e1, hn]; omega

end AnyF

section AtIdeal

variable (V : (c : Dev nD) → (b : Ref sig .tc) → Buf (Elt Ideal) ((c : Thread nD τ).loc b))

theorem pay1_at0 (y : S256x1024.Idx) : k0_pay1 (F := Ideal) y = 0 := pay1_apply y
theorem pay2_at0 (x : Vec Ideal S256x1024 .f32) (l : Vec Ideal S1024x1024 .f32) (a : Vec Ideal S256x1024 .f32)
    (r : Fin 256) (q : Fin 1024) :
    k0_pay2 x l a (ix2 r q) = a (ix2 r q) + ∑ k : Fin 1024, x (ix2 r k) * l (ix2 q k) := pay2_apply x l a r q
theorem pay3_at0 (a : Vec Ideal S256x1024 .f32) (w : Vec Ideal S4x1024 .f32) (r : Fin 256) (q : Fin 1024) :
    k0_pay3 a w (ix2 r q)
      = (((0 + max (a (ix2 r q) * w (ix2 0 q)) 0) + max (a (ix2 r q) * w (ix2 1 q)) 0)
          + max (a (ix2 r q) * w (ix2 2 q)) 0) + max (a (ix2 r q) * w (ix2 3 q)) 0 := pay3_apply a w r q

/-- The sum of f over its first j + 1 blocks of 1024 terms, added block after block onto zero. -/
def chain0 (f : Fin 2048 → EReal) : (j : ℕ) → j < 2 → EReal
  | 0, _ => 0 + ∑ k : Fin 1024, f ⟨0 * 1024 + k.val, by have := k.isLt; omega⟩
  | j + 1, h => chain0 f j (Nat.lt_of_succ_lt h) + ∑ k : Fin 1024, f ⟨(j + 1) * 1024 + k.val, by have := k.isLt; omega⟩

theorem chain0_last (f : Fin 2048 → EReal) (h : 1 < 2) : chain0 f 1 h = ∑ k : Fin 2048, f k :=
  Cert.Scnn.sum_blocks2_mul f

/-- One step at (r, q): the accumulator gains the sum over column block j of signal (r, k) times operator (n, k), n the operator row the point's row block gives q. -/
theorem step0_apply (c : Dev nD) (t : Fin cfg0.N) (a : Vec Ideal S256x1024 .f32) (r : Fin 256) (q : Fin 1024)
    (nn : Fin 2048) (hn : nn.val = t.val / 2 * 1024 + q.val) (j : ℕ) (hj : j < 2) (hjt : t.val % 2 = j) :
    k0_pay2 (xblk0 V c t) (lblk0 V c t) a (ix2 r q)
      = a (ix2 r q) + ∑ k : Fin 1024, (fun kk : Fin 2048 => xarr0 V c (ix2 r kk) * larr0 V c (ix2 nn kk))
          ⟨j * 1024 + k.val, by have := k.isLt; omega⟩ := by
  refine (pay2_at0 (xblk0 V c t) (lblk0 V c t) a r q).trans ?_
  refine congrArg (a (ix2 r q) + ·) (Finset.sum_congr rfl fun k _ => ?_)
  rw [xblk0_apply V c t r k ⟨j * 1024 + k.val, by have := k.isLt; omega⟩ (by rw [hjt]),
    lblk0_apply V c t q k nn ⟨j * 1024 + k.val, by have := k.isLt; omega⟩ hn (by rw [hjt])]

/-- By induction on the point: after column block j the accumulator at (r, q) is the blocked sum over column blocks 0 … j. -/
theorem acc0_eq (c : Dev nD) : ∀ (n : ℕ) (hn : n < cfg0.N) (j : ℕ) (hj : j < 2), n % 2 = j →
    ∀ (r : Fin 256) (q : Fin 1024) (nn : Fin 2048), nn.val = n / 2 * 1024 + q.val →
      accAt0 V c n hn (ix2 r q) = chain0 (fun kk : Fin 2048 => xarr0 V c (ix2 r kk) * larr0 V c (ix2 nn kk)) j hj := by
  intro n
  induction n with
  | zero =>
    intro hn j hj hnj r q nn hnn
    obtain rfl : j = 0 := by omega
    refine (step0_apply V c ⟨0, hn⟩ (k0_pay1 (F := Ideal)) r q nn hnn 0 hj rfl).trans ?_
    rw [pay1_at0]
    rfl
  | succ m ih =>
    intro hn j hj hnj r q nn hnn
    show k0_pay2 _ _ (if (m + 1) % 2 = 0 then _ else _) (ix2 r q) = _
    by_cases h0 : (m + 1) % 2 = 0
    · obtain rfl : j = 0 := by omega
      rw [if_pos h0]
      refine (step0_apply V c ⟨m + 1, hn⟩ (k0_pay1 (F := Ideal)) r q nn hnn 0 hj h0).trans ?_
      rw [pay1_at0]
      rfl
    · obtain ⟨j', rfl⟩ : ∃ j', j = j' + 1 := ⟨j - 1, by omega⟩
      rw [if_neg h0]
      refine (step0_apply V c ⟨m + 1, hn⟩ (accAt0 V c m (Nat.lt_of_succ_lt hn)) r q nn hnn (j' + 1) hj hnj).trans ?_
      rw [ih (Nat.lt_of_succ_lt hn) j' (Nat.lt_of_succ_lt hj) (by omega) r q nn (by omega)]
      rfl

abbrev G0 (c : Dev nD) : Vec Ideal S256x2048 .f32 := Cert.Scnn.layer2 2048 (xarr0 V c) (larr0 V c) (warr0 V c)

/-- At a last step all column blocks are in, the blocked sum is the whole contraction, and the output block is the layer at (r, n). -/
theorem out0_apply (c : Dev nD) (t : Fin cfg0.N) (h1 : t.val % 2 = 1) (r : Fin 256) (q : Fin 1024)
    (nn : Fin 2048) (hn : nn.val = t.val / 2 * 1024 + q.val) :
    outAt0 V c t (ix2 r q) = G0 V c (ix2 r nn) := by
  have hacc := acc0_eq V c t.val t.isLt 1 (by decide) h1 r q nn hn
  rw [chain0_last] at hacc
  rw [show outAt0 V c t = k0_pay3 (accAt0 V c t.val t.isLt) (iblk0 V c 2 t) from if_pos h1]
  refine (pay3_at0 (accAt0 V c t.val t.isLt) (wblk0 V c t) r q).trans ?_
  rw [hacc, wblk0_apply V c t 0 q nn hn, wblk0_apply V c t 1 q nn hn, wblk0_apply V c t 2 q nn hn, wblk0_apply V c t 3 q nn hn]
  exact Cert.Scnn.filt_eq _ (fun f => warr0 V c (ix2 f nn))

theorem flushed_eq0 (c : Dev nD) (t : Fin cfg0.N) (hf : (cfg0.win 3).flush t = true) :
    (dat0 V c).flushed 3 t = ((cfg0.win 3).blk t).view.read (Elt Ideal) (G0 V c) := by
  have h1 : t.val % 2 = 1 := (flush0_3 t).mp hf
  have hN : cfg0.N = 4 := N_0
  have ht : t.val < 4 := hN ▸ t.isLt
  obtain ⟨-, -, -, -, -, -, e0, e1⟩ := idx_facts0 t
  show (cfg0.win 3).cut (grid0.coords t) ((dat0 V c).after 3 t) = _
  rw [after0_3 V c t]
  funext y
  rw [View.read_apply]
  have hy0 : (y 0).val < 256 := (y 0).isLt
  have hy1 : (y 1).val < 1024 := (y 1).isLt
  show outAt0 V c t y = G0 V c (((cfg0.win 3).blk t).view.emb y)
  have ey : y = ix2 (⟨(y 0).val, hy0⟩ : Fin 256) (⟨(y 1).val, hy1⟩ : Fin 1024) :=
    funext fun a => match a with | ⟨0, _⟩ => rfl | ⟨1, _⟩ => rfl
  have eemb : ((cfg0.win 3).blk t).view.emb y
      = ix2 (⟨(y 0).val, hy0⟩ : Fin 256) (⟨t.val / 2 * 1024 + (y 1).val, by omega⟩ : Fin 2048) :=
    funext fun a => Fin.ext (by
      match a with
      | ⟨0, _⟩ => show win0_3.index t (0 : Fin 2) * 256 + 1 * (y 0).val = (y 0).val; rw [e0]; omega
      | ⟨1, _⟩ => show win0_3.index t (1 : Fin 2) * 1024 + 1 * (y 1).val = t.val / 2 * 1024 + (y 1).val; rw [e1]; omega)
  rw [eemb]
  refine (congrArg (outAt0 V c t) ey).trans ?_
  exact out0_apply V c t h1 ⟨(y 0).val, hy0⟩ ⟨(y 1).val, hy1⟩ ⟨t.val / 2 * 1024 + (y 1).val, by omega⟩ rfl

theorem mem_blk0 (t : Fin cfg0.N) (i : S256x2048.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v3).slice (win0_3.rect t)).set ↔ _
  rw [View.set_slice_whole, Rect.mem_set_unit]
  exact Iff.rfl

/-- Every column of the output lies in the block written at the last step of its row block. -/
theorem cover0 (i : S256x2048.Idx) : ∃ t : Fin cfg0.N, (cfg0.win 3).flush t = true ∧ i ∈ ((cfg0.win 3).blk t).view.set := by
  have hi0 : (i 0).val < 256 := (i 0).isLt
  have hi1 : (i 1).val < 2048 := (i 1).isLt
  have hN : cfg0.N = 4 := N_0
  obtain ⟨t, ht⟩ : ∃ t : Fin cfg0.N, t.val = 2 * ((i 1).val / 1024) + 1 := ⟨⟨2 * ((i 1).val / 1024) + 1, by omega⟩, rfl⟩
  obtain ⟨-, -, -, -, -, -, e0, e1⟩ := idx_facts0 t
  refine ⟨t, (flush0_3 t).mpr (by omega), ?_⟩
  rw [mem_blk0]
  intro a
  match a with
  | ⟨0, _⟩ => show win0_3.index t (0 : Fin 2) * 256 ≤ (i 0).val ∧ (i 0).val < win0_3.index t (0 : Fin 2) * 256 + 256; rw [e0]; omega
  | ⟨1, _⟩ => show win0_3.index t (1 : Fin 2) * 1024 ≤ (i 1).val ∧ (i 1).val < win0_3.index t (1 : Fin 2) * 1024 + 1024; rw [e1]; omega

/-- So the output array after the region is the layer of the three arrays the region was entered with. -/
theorem final0 (c : Dev nD) :
    (dat0 (F := Ideal) V c).arrAt 3 cfg0.N
      = Cert.Scnn.layer2 2048 (V c main_v0 : Vec Ideal S256x2048 .f32) (V c main_arg3 : Vec Ideal S2048x2048 .f32)
          (V c main_v2 : Vec Ideal S4x2048 .f32) :=
  (dat0 V c).arrAt_eq_of_cover 3 (G0 V c) (flushed_eq0 V c) cover0

end AtIdeal

end Cert.KernelIdeal.Reg

end
-- ==== Proof.RegVal1.lean ====

import proofs.«146132_j71485435675282_1_alg».proof.Proof.Reg1
import proofs.«146132_j71485435675282_1_alg».proof.Proof.Payload
import proofs.«146132_j71485435675282_1_alg».proof.Proof.Bridge
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

section AnyF

variable (V : (c : Dev nD) → (b : Ref sig .tc) → Buf (Elt F) ((c : Thread nD τ).loc b))

/-- The block indices of the four windows at point t, row block i = t / steps, column block j = t % steps: signal (0, j), operator (i, j), filters and output (0, i). -/
theorem idx_facts1 : ∀ t : Fin cfg1.N,
    win1_0.index t (0 : Fin 2) = 0 ∧ win1_0.index t (1 : Fin 2) = t.val % 2
    ∧ win1_1.index t (0 : Fin 2) = t.val / 2 ∧ win1_1.index t (1 : Fin 2) = t.val % 2
    ∧ win1_2.index t (0 : Fin 2) = 0 ∧ win1_2.index t (1 : Fin 2) = t.val / 2
    ∧ win1_3.index t (0 : Fin 2) = 0 ∧ win1_3.index t (1 : Fin 2) = t.val / 2 :=
  (by decide +kernel : ∀ t : Fin grid1.N, _)

abbrev xarr1 (c : Dev nD) : Vec F S256x2048 .f32 := V c main_v3
abbrev larr1 (c : Dev nD) : Vec F S2048x2048 .f32 := V c main_arg3
abbrev warr1 (c : Dev nD) : Vec F S4x2048 .f32 := V c main_v5
abbrev xblk1 (c : Dev nD) (t : Fin cfg1.N) : Vec F S256x1024 .f32 := iblk1 V c 0 t
abbrev lblk1 (c : Dev nD) (t : Fin cfg1.N) : Vec F S1024x1024 .f32 := iblk1 V c 1 t
abbrev wblk1 (c : Dev nD) (t : Fin cfg1.N) : Vec F S4x1024 .f32 := iblk1 V c 2 t

theorem xblk1_apply (c : Dev nD) (t : Fin cfg1.N) (r : Fin 256) (k : Fin 1024) (kk : Fin 2048)
    (hk : kk.val = t.val % 2 * 1024 + k.val) : xblk1 V c t (ix2 r k) = xarr1 V c (ix2 r kk) := by
  obtain ⟨e0, e1, -⟩ := idx_facts1 t
  unfold xblk1 iblk1
  rw [View.read_apply]
  show V c main_v3 _ = V c main_v3 _
  refine congrArg (V c main_v3) (funext fun a => Fin.ext ?_)
  match a with
  | ⟨0, _⟩ => show win1_0.index t (0 : Fin 2) * 256 + 1 * r.val = r.val; rw [e0]; omega
  | ⟨1, _⟩ => show win1_0.index t (1 : Fin 2) * 1024 + 1 * k.val = kk.val; rw [e1, hk]; omega

theorem lblk1_apply (c : Dev nD) (t : Fin cfg1.N) (q : Fin 1024) (k : Fin 1024) (nn kk : Fin 2048)
    (hn : nn.val = t.val / 2 * 1024 + q.val) (hk : kk.val = t.val % 2 * 1024 + k.val) :
    lblk1 V c t (ix2 q k) = larr1 V c (ix2 nn kk) := by
  obtain ⟨-, -, e0, e1, -⟩ := idx_facts1 t
  unfold lblk1 iblk1
  rw [View.read_apply]
  show V c main_arg3 _ = V c main_arg3 _
  refine congrArg (V c main_arg3) (funext fun a => Fin.ext ?_)
  match a with
  | ⟨0, _⟩ => show win1_1.index t (0 : Fin 2) * 1024 + 1 * q.val = nn.val; rw [e0, hn]; omega
  | ⟨1, _⟩ => show win1_1.index t (1 : Fin 2) * 1024 + 1 * k.val = kk.val; rw [e1, hk]; omega

theorem wblk1_apply (c : Dev nD) (t : Fin cfg1.N) (f : Fin 4) (q : Fin 1024) (nn : Fin 2048)
    (hn : nn.val = t.val / 2 * 1024 + q.val) : wblk1 V c t (ix2 f q) = warr1 V c (ix2 f nn) := by
  obtain ⟨-, -, -, -, e0, e1, -⟩ := idx_facts1 t
  unfold wblk1 iblk1
  rw [View.read_apply]
  show V c main_v5 _ = V c main_v5 _
  refine congrArg (V c main_v5) (funext fun a => Fin.ext ?_)
  match a with
  | ⟨0, _⟩ => show win1_2.index t (0 : Fin 2) * 4 + 1 * f.val = f.val; rw [e0]; omega
  | ⟨1, _⟩ => show win1_2.index t (1 : Fin 2) * 1024 + 1 * q.val = nn.val; rw [e1, hn]; omega

end AnyF

section AtIdeal

variable (V : (c : Dev nD) → (b : Ref sig .tc) → Buf (Elt Ideal) ((c : Thread nD τ).loc b))

theorem pay1_at1 (y : S256x1024.Idx) : k0_pay1 (F := Ideal) y = 0 := pay1_apply y
theorem pay2_at1 (x : Vec Ideal S256x1024 .f32) (l : Vec Ideal S1024x1024 .f32) (a : Vec Ideal S256x1024 .f32)
    (r : Fin 256) (q : Fin 1024) :
    k0_pay2 x l a (ix2 r q) = a (ix2 r q) + ∑ k : Fin 1024, x (ix2 r k) * l (ix2 q k) := pay2_apply x l a r q
theorem pay3_at1 (a : Vec Ideal S256x1024 .f32) (w : Vec Ideal S4x1024 .f32) (r : Fin 256) (q : Fin 1024) :
    k0_pay3 a w (ix2 r q)
      = (((0 + max (a (ix2 r q) * w (ix2 0 q)) 0) + max (a (ix2 r q) * w (ix2 1 q)) 0)
          + max (a (ix2 r q) * w (ix2 2 q)) 0) + max (a (ix2 r q) * w (ix2 3 q)) 0 := pay3_apply a w r q

/-- The sum of f over its first j + 1 blocks of 1024 terms, added block after block onto zero. -/
def chain1 (f : Fin 2048 → EReal) : (j : ℕ) → j < 2 → EReal
  | 0, _ => 0 + ∑ k : Fin 1024, f ⟨0 * 1024 + k.val, by have := k.isLt; omega⟩
  | j + 1, h => chain1 f j (Nat.lt_of_succ_lt h) + ∑ k : Fin 1024, f ⟨(j + 1) * 1024 + k.val, by have := k.isLt; omega⟩

theorem chain1_last (f : Fin 2048 → EReal) (h : 1 < 2) : chain1 f 1 h = ∑ k : Fin 2048, f k :=
  Cert.Scnn.sum_blocks2_mul f

/-- One step at (r, q): the accumulator gains the sum over column block j of signal (r, k) times operator (n, k), n the operator row the point's row block gives q. -/
theorem step1_apply (c : Dev nD) (t : Fin cfg1.N) (a : Vec Ideal S256x1024 .f32) (r : Fin 256) (q : Fin 1024)
    (nn : Fin 2048) (hn : nn.val = t.val / 2 * 1024 + q.val) (j : ℕ) (hj : j < 2) (hjt : t.val % 2 = j) :
    k0_pay2 (xblk1 V c t) (lblk1 V c t) a (ix2 r q)
      = a (ix2 r q) + ∑ k : Fin 1024, (fun kk : Fin 2048 => xarr1 V c (ix2 r kk) * larr1 V c (ix2 nn kk))
          ⟨j * 1024 + k.val, by have := k.isLt; omega⟩ := by
  refine (pay2_at1 (xblk1 V c t) (lblk1 V c t) a r q).trans ?_
  refine congrArg (a (ix2 r q) + ·) (Finset.sum_congr rfl fun k _ => ?_)
  rw [xblk1_apply V c t r k ⟨j * 1024 + k.val, by have := k.isLt; omega⟩ (by rw [hjt]),
    lblk1_apply V c t q k nn ⟨j * 1024 + k.val, by have := k.isLt; omega⟩ hn (by rw [hjt])]

/-- By induction on the point: after column block j the accumulator at (r, q) is the blocked sum over column blocks 0 … j. -/
theorem acc1_eq (c : Dev nD) : ∀ (n : ℕ) (hn : n < cfg1.N) (j : ℕ) (hj : j < 2), n % 2 = j →
    ∀ (r : Fin 256) (q : Fin 1024) (nn : Fin 2048), nn.val = n / 2 * 1024 + q.val →
      accAt1 V c n hn (ix2 r q) = chain1 (fun kk : Fin 2048 => xarr1 V c (ix2 r kk) * larr1 V c (ix2 nn kk)) j hj := by
  intro n
  induction n with
  | zero =>
    intro hn j hj hnj r q nn hnn
    obtain rfl : j = 0 := by omega
    refine (step1_apply V c ⟨0, hn⟩ (k0_pay1 (F := Ideal)) r q nn hnn 0 hj rfl).trans ?_
    rw [pay1_at1]
    rfl
  | succ m ih =>
    intro hn j hj hnj r q nn hnn
    show k0_pay2 _ _ (if (m + 1) % 2 = 0 then _ else _) (ix2 r q) = _
    by_cases h0 : (m + 1) % 2 = 0
    · obtain rfl : j = 0 := by omega
      rw [if_pos h0]
      refine (step1_apply V c ⟨m + 1, hn⟩ (k0_pay1 (F := Ideal)) r q nn hnn 0 hj h0).trans ?_
      rw [pay1_at1]
      rfl
    · obtain ⟨j', rfl⟩ : ∃ j', j = j' + 1 := ⟨j - 1, by omega⟩
      rw [if_neg h0]
      refine (step1_apply V c ⟨m + 1, hn⟩ (accAt1 V c m (Nat.lt_of_succ_lt hn)) r q nn hnn (j' + 1) hj hnj).trans ?_
      rw [ih (Nat.lt_of_succ_lt hn) j' (Nat.lt_of_succ_lt hj) (by omega) r q nn (by omega)]
      rfl

abbrev G1 (c : Dev nD) : Vec Ideal S256x2048 .f32 := Cert.Scnn.layer2 2048 (xarr1 V c) (larr1 V c) (warr1 V c)

/-- At a last step all column blocks are in, the blocked sum is the whole contraction, and the output block is the layer at (r, n). -/
theorem out1_apply (c : Dev nD) (t : Fin cfg1.N) (h1 : t.val % 2 = 1) (r : Fin 256) (q : Fin 1024)
    (nn : Fin 2048) (hn : nn.val = t.val / 2 * 1024 + q.val) :
    outAt1 V c t (ix2 r q) = G1 V c (ix2 r nn) := by
  have hacc := acc1_eq V c t.val t.isLt 1 (by decide) h1 r q nn hn
  rw [chain1_last] at hacc
  rw [show outAt1 V c t = k0_pay3 (accAt1 V c t.val t.isLt) (iblk1 V c 2 t) from if_pos h1]
  refine (pay3_at1 (accAt1 V c t.val t.isLt) (wblk1 V c t) r q).trans ?_
  rw [hacc, wblk1_apply V c t 0 q nn hn, wblk1_apply V c t 1 q nn hn, wblk1_apply V c t 2 q nn hn, wblk1_apply V c t 3 q nn hn]
  exact Cert.Scnn.filt_eq _ (fun f => warr1 V c (ix2 f nn))

theorem flushed_eq1 (c : Dev nD) (t : Fin cfg1.N) (hf : (cfg1.win 3).flush t = true) :
    (dat1 V c).flushed 3 t = ((cfg1.win 3).blk t).view.read (Elt Ideal) (G1 V c) := by
  have h1 : t.val % 2 = 1 := (flush1_3 t).mp hf
  have hN : cfg1.N = 4 := N_1
  have ht : t.val < 4 := hN ▸ t.isLt
  obtain ⟨-, -, -, -, -, -, e0, e1⟩ := idx_facts1 t
  show (cfg1.win 3).cut (grid1.coords t) ((dat1 V c).after 3 t) = _
  rw [after1_3 V c t]
  funext y
  rw [View.read_apply]
  have hy0 : (y 0).val < 256 := (y 0).isLt
  have hy1 : (y 1).val < 1024 := (y 1).isLt
  show outAt1 V c t y = G1 V c (((cfg1.win 3).blk t).view.emb y)
  have ey : y = ix2 (⟨(y 0).val, hy0⟩ : Fin 256) (⟨(y 1).val, hy1⟩ : Fin 1024) :=
    funext fun a => match a with | ⟨0, _⟩ => rfl | ⟨1, _⟩ => rfl
  have eemb : ((cfg1.win 3).blk t).view.emb y
      = ix2 (⟨(y 0).val, hy0⟩ : Fin 256) (⟨t.val / 2 * 1024 + (y 1).val, by omega⟩ : Fin 2048) :=
    funext fun a => Fin.ext (by
      match a with
      | ⟨0, _⟩ => show win1_3.index t (0 : Fin 2) * 256 + 1 * (y 0).val = (y 0).val; rw [e0]; omega
      | ⟨1, _⟩ => show win1_3.index t (1 : Fin 2) * 1024 + 1 * (y 1).val = t.val / 2 * 1024 + (y 1).val; rw [e1]; omega)
  rw [eemb]
  refine (congrArg (outAt1 V c t) ey).trans ?_
  exact out1_apply V c t h1 ⟨(y 0).val, hy0⟩ ⟨(y 1).val, hy1⟩ ⟨t.val / 2 * 1024 + (y 1).val, by omega⟩ rfl

theorem mem_blk1 (t : Fin cfg1.N) (i : S256x2048.Idx) :
    i ∈ ((cfg1.win 3).blk t).view.set ↔ ∀ a : Fin 2, win1_3.index t a * S256x1024.size a ≤ (i a).val ∧ (i a).val < win1_3.index t a * S256x1024.size a + S256x1024.size a := by
  show i ∈ ((View.whole main_v6).slice (win1_3.rect t)).set ↔ _
  rw [View.set_slice_whole, Rect.mem_set_unit]
  exact Iff.rfl

/-- Every column of the output lies in the block written at the last step of its row block. -/
theorem cover1 (i : S256x2048.Idx) : ∃ t : Fin cfg1.N, (cfg1.win 3).flush t = true ∧ i ∈ ((cfg1.win 3).blk t).view.set := by
  have hi0 : (i 0).val < 256 := (i 0).isLt
  have hi1 : (i 1).val < 2048 := (i 1).isLt
  have hN : cfg1.N = 4 := N_1
  obtain ⟨t, ht⟩ : ∃ t : Fin cfg1.N, t.val = 2 * ((i 1).val / 1024) + 1 := ⟨⟨2 * ((i 1).val / 1024) + 1, by omega⟩, rfl⟩
  obtain ⟨-, -, -, -, -, -, e0, e1⟩ := idx_facts1 t
  refine ⟨t, (flush1_3 t).mpr (by omega), ?_⟩
  rw [mem_blk1]
  intro a
  match a with
  | ⟨0, _⟩ => show win1_3.index t (0 : Fin 2) * 256 ≤ (i 0).val ∧ (i 0).val < win1_3.index t (0 : Fin 2) * 256 + 256; rw [e0]; omega
  | ⟨1, _⟩ => show win1_3.index t (1 : Fin 2) * 1024 ≤ (i 1).val ∧ (i 1).val < win1_3.index t (1 : Fin 2) * 1024 + 1024; rw [e1]; omega

/-- So the output array after the region is the layer of the three arrays the region was entered with. -/
theorem final1 (c : Dev nD) :
    (dat1 (F := Ideal) V c).arrAt 3 cfg1.N
      = Cert.Scnn.layer2 2048 (V c main_v3 : Vec Ideal S256x2048 .f32) (V c main_arg3 : Vec Ideal S2048x2048 .f32)
          (V c main_v5 : Vec Ideal S4x2048 .f32) :=
  (dat1 V c).arrAt_eq_of_cover 3 (G1 V c) (flushed_eq1 V c) cover1

end AtIdeal

end Cert.KernelIdeal.Reg

end
-- ==== Proof.RegVal2.lean ====

import proofs.«146132_j71485435675282_1_alg».proof.Proof.Reg2
import proofs.«146132_j71485435675282_1_alg».proof.Proof.Payload
import proofs.«146132_j71485435675282_1_alg».proof.Proof.Bridge
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

section AnyF

variable (V : (c : Dev nD) → (b : Ref sig .tc) → Buf (Elt F) ((c : Thread nD τ).loc b))

/-- The block indices of the four windows at point t, row block i = t / steps, column block j = t % steps: signal (0, j), operator (i, j), filters and output (0, i). -/
theorem idx_facts2 : ∀ t : Fin cfg2.N,
    win2_0.index t (0 : Fin 2) = 0 ∧ win2_0.index t (1 : Fin 2) = t.val % 4
    ∧ win2_1.index t (0 : Fin 2) = t.val / 4 ∧ win2_1.index t (1 : Fin 2) = t.val % 4
    ∧ win2_2.index t (0 : Fin 2) = 0 ∧ win2_2.index t (1 : Fin 2) = t.val / 4
    ∧ win2_3.index t (0 : Fin 2) = 0 ∧ win2_3.index t (1 : Fin 2) = t.val / 4 :=
  (by decide +kernel : ∀ t : Fin grid2.N, _)

abbrev xarr2 (c : Dev nD) : Vec F S256x4096 .f32 := V c main_v8
abbrev larr2 (c : Dev nD) : Vec F S4096x4096 .f32 := V c main_arg4
abbrev warr2 (c : Dev nD) : Vec F S4x4096 .f32 := V c main_v10
abbrev xblk2 (c : Dev nD) (t : Fin cfg2.N) : Vec F S256x1024 .f32 := iblk2 V c 0 t
abbrev lblk2 (c : Dev nD) (t : Fin cfg2.N) : Vec F S1024x1024 .f32 := iblk2 V c 1 t
abbrev wblk2 (c : Dev nD) (t : Fin cfg2.N) : Vec F S4x1024 .f32 := iblk2 V c 2 t

theorem xblk2_apply (c : Dev nD) (t : Fin cfg2.N) (r : Fin 256) (k : Fin 1024) (kk : Fin 4096)
    (hk : kk.val = t.val % 4 * 1024 + k.val) : xblk2 V c t (ix2 r k) = xarr2 V c (ix2 r kk) := by
  obtain ⟨e0, e1, -⟩ := idx_facts2 t
  unfold xblk2 iblk2
  rw [View.read_apply]
  show V c main_v8 _ = V c main_v8 _
  refine congrArg (V c main_v8) (funext fun a => Fin.ext ?_)
  match a with
  | ⟨0, _⟩ => show win2_0.index t (0 : Fin 2) * 256 + 1 * r.val = r.val; rw [e0]; omega
  | ⟨1, _⟩ => show win2_0.index t (1 : Fin 2) * 1024 + 1 * k.val = kk.val; rw [e1, hk]; omega

theorem lblk2_apply (c : Dev nD) (t : Fin cfg2.N) (q : Fin 1024) (k : Fin 1024) (nn kk : Fin 4096)
    (hn : nn.val = t.val / 4 * 1024 + q.val) (hk : kk.val = t.val % 4 * 1024 + k.val) :
    lblk2 V c t (ix2 q k) = larr2 V c (ix2 nn kk) := by
  obtain ⟨-, -, e0, e1, -⟩ := idx_facts2 t
  unfold lblk2 iblk2
  rw [View.read_apply]
  show V c main_arg4 _ = V c main_arg4 _
  refine congrArg (V c main_arg4) (funext fun a => Fin.ext ?_)
  match a with
  | ⟨0, _⟩ => show win2_1.index t (0 : Fin 2) * 1024 + 1 * q.val = nn.val; rw [e0, hn]; omega
  | ⟨1, _⟩ => show win2_1.index t (1 : Fin 2) * 1024 + 1 * k.val = kk.val; rw [e1, hk]; omega

theorem wblk2_apply (c : Dev nD) (t : Fin cfg2.N) (f : Fin 4) (q : Fin 1024) (nn : Fin 4096)
    (hn : nn.val = t.val / 4 * 1024 + q.val) : wblk2 V c t (ix2 f q) = warr2 V c (ix2 f nn) := by
  obtain ⟨-, -, -, -, e0, e1, -⟩ := idx_facts2 t
  unfold wblk2 iblk2
  rw [View.read_apply]
  show V c main_v10 _ = V c main_v10 _
  refine congrArg (V c main_v10) (funext fun a => Fin.ext ?_)
  match a with
  | ⟨0, _⟩ => show win2_2.index t (0 : Fin 2) * 4 + 1 * f.val = f.val; rw [e0]; omega
  | ⟨1, _⟩ => show win2_2.index t (1 : Fin 2) * 1024 + 1 * q.val = nn.val; rw [e1, hn]; omega

end AnyF

section AtIdeal

variable (V : (c : Dev nD) → (b : Ref sig .tc) → Buf (Elt Ideal) ((c : Thread nD τ).loc b))

theorem pay1_at2 (y : S256x1024.Idx) : k2_pay1 (F := Ideal) y = 0 := pay1_apply y
theorem pay2_at2 (x : Vec Ideal S256x1024 .f32) (l : Vec Ideal S1024x1024 .f32) (a : Vec Ideal S256x1024 .f32)
    (r : Fin 256) (q : Fin 1024) :
    k2_pay2 x l a (ix2 r q) = a (ix2 r q) + ∑ k : Fin 1024, x (ix2 r k) * l (ix2 q k) := pay2_apply x l a r q
theorem pay3_at2 (a : Vec Ideal S256x1024 .f32) (w : Vec Ideal S4x1024 .f32) (r : Fin 256) (q : Fin 1024) :
    k2_pay3 a w (ix2 r q)
      = (((0 + max (a (ix2 r q) * w (ix2 0 q)) 0) + max (a (ix2 r q) * w (ix2 1 q)) 0)
          + max (a (ix2 r q) * w (ix2 2 q)) 0) + max (a (ix2 r q) * w (ix2 3 q)) 0 := pay3_apply a w r q

/-- The sum of f over its first j + 1 blocks of 1024 terms, added block after block onto zero. -/
def chain2 (f : Fin 4096 → EReal) : (j : ℕ) → j < 4 → EReal
  | 0, _ => 0 + ∑ k : Fin 1024, f ⟨0 * 1024 + k.val, by have := k.isLt; omega⟩
  | j + 1, h => chain2 f j (Nat.lt_of_succ_lt h) + ∑ k : Fin 1024, f ⟨(j + 1) * 1024 + k.val, by have := k.isLt; omega⟩

theorem chain2_last (f : Fin 4096 → EReal) (h : 3 < 4) : chain2 f 3 h = ∑ k : Fin 4096, f k :=
  Cert.Scnn.sum_blocks4_mul f

/-- One step at (r, q): the accumulator gains the sum over column block j of signal (r, k) times operator (n, k), n the operator row the point's row block gives q. -/
theorem step2_apply (c : Dev nD) (t : Fin cfg2.N) (a : Vec Ideal S256x1024 .f32) (r : Fin 256) (q : Fin 1024)
    (nn : Fin 4096) (hn : nn.val = t.val / 4 * 1024 + q.val) (j : ℕ) (hj : j < 4) (hjt : t.val % 4 = j) :
    k2_pay2 (xblk2 V c t) (lblk2 V c t) a (ix2 r q)
      = a (ix2 r q) + ∑ k : Fin 1024, (fun kk : Fin 4096 => xarr2 V c (ix2 r kk) * larr2 V c (ix2 nn kk))
          ⟨j * 1024 + k.val, by have := k.isLt; omega⟩ := by
  refine (pay2_at2 (xblk2 V c t) (lblk2 V c t) a r q).trans ?_
  refine congrArg (a (ix2 r q) + ·) (Finset.sum_congr rfl fun k _ => ?_)
  rw [xblk2_apply V c t r k ⟨j * 1024 + k.val, by have := k.isLt; omega⟩ (by rw [hjt]),
    lblk2_apply V c t q k nn ⟨j * 1024 + k.val, by have := k.isLt; omega⟩ hn (by rw [hjt])]

/-- By induction on the point: after column block j the accumulator at (r, q) is the blocked sum over column blocks 0 … j. -/
theorem acc2_eq (c : Dev nD) : ∀ (n : ℕ) (hn : n < cfg2.N) (j : ℕ) (hj : j < 4), n % 4 = j →
    ∀ (r : Fin 256) (q : Fin 1024) (nn : Fin 4096), nn.val = n / 4 * 1024 + q.val →
      accAt2 V c n hn (ix2 r q) = chain2 (fun kk : Fin 4096 => xarr2 V c (ix2 r kk) * larr2 V c (ix2 nn kk)) j hj := by
  intro n
  induction n with
  | zero =>
    intro hn j hj hnj r q nn hnn
    obtain rfl : j = 0 := by omega
    refine (step2_apply V c ⟨0, hn⟩ (k2_pay1 (F := Ideal)) r q nn hnn 0 hj rfl).trans ?_
    rw [pay1_at2]
    rfl
  | succ m ih =>
    intro hn j hj hnj r q nn hnn
    show k2_pay2 _ _ (if (m + 1) % 4 = 0 then _ else _) (ix2 r q) = _
    by_cases h0 : (m + 1) % 4 = 0
    · obtain rfl : j = 0 := by omega
      rw [if_pos h0]
      refine (step2_apply V c ⟨m + 1, hn⟩ (k2_pay1 (F := Ideal)) r q nn hnn 0 hj h0).trans ?_
      rw [pay1_at2]
      rfl
    · obtain ⟨j', rfl⟩ : ∃ j', j = j' + 1 := ⟨j - 1, by omega⟩
      rw [if_neg h0]
      refine (step2_apply V c ⟨m + 1, hn⟩ (accAt2 V c m (Nat.lt_of_succ_lt hn)) r q nn hnn (j' + 1) hj hnj).trans ?_
      rw [ih (Nat.lt_of_succ_lt hn) j' (Nat.lt_of_succ_lt hj) (by omega) r q nn (by omega)]
      rfl

abbrev G2 (c : Dev nD) : Vec Ideal S256x4096 .f32 := Cert.Scnn.layer2 4096 (xarr2 V c) (larr2 V c) (warr2 V c)

/-- At a last step all column blocks are in, the blocked sum is the whole contraction, and the output block is the layer at (r, n). -/
theorem out2_apply (c : Dev nD) (t : Fin cfg2.N) (h1 : t.val % 4 = 3) (r : Fin 256) (q : Fin 1024)
    (nn : Fin 4096) (hn : nn.val = t.val / 4 * 1024 + q.val) :
    outAt2 V c t (ix2 r q) = G2 V c (ix2 r nn) := by
  have hacc := acc2_eq V c t.val t.isLt 3 (by decide) h1 r q nn hn
  rw [chain2_last] at hacc
  rw [show outAt2 V c t = k2_pay3 (accAt2 V c t.val t.isLt) (iblk2 V c 2 t) from if_pos h1]
  refine (pay3_at2 (accAt2 V c t.val t.isLt) (wblk2 V c t) r q).trans ?_
  rw [hacc, wblk2_apply V c t 0 q nn hn, wblk2_apply V c t 1 q nn hn, wblk2_apply V c t 2 q nn hn, wblk2_apply V c t 3 q nn hn]
  exact Cert.Scnn.filt_eq _ (fun f => warr2 V c (ix2 f nn))

theorem flushed_eq2 (c : Dev nD) (t : Fin cfg2.N) (hf : (cfg2.win 3).flush t = true) :
    (dat2 V c).flushed 3 t = ((cfg2.win 3).blk t).view.read (Elt Ideal) (G2 V c) := by
  have h1 : t.val % 4 = 3 := (flush2_3 t).mp hf
  have hN : cfg2.N = 16 := N_2
  have ht : t.val < 16 := hN ▸ t.isLt
  obtain ⟨-, -, -, -, -, -, e0, e1⟩ := idx_facts2 t
  show (cfg2.win 3).cut (grid2.coords t) ((dat2 V c).after 3 t) = _
  rw [after2_3 V c t]
  funext y
  rw [View.read_apply]
  have hy0 : (y 0).val < 256 := (y 0).isLt
  have hy1 : (y 1).val < 1024 := (y 1).isLt
  show outAt2 V c t y = G2 V c (((cfg2.win 3).blk t).view.emb y)
  have ey : y = ix2 (⟨(y 0).val, hy0⟩ : Fin 256) (⟨(y 1).val, hy1⟩ : Fin 1024) :=
    funext fun a => match a with | ⟨0, _⟩ => rfl | ⟨1, _⟩ => rfl
  have eemb : ((cfg2.win 3).blk t).view.emb y
      = ix2 (⟨(y 0).val, hy0⟩ : Fin 256) (⟨t.val / 4 * 1024 + (y 1).val, by omega⟩ : Fin 4096) :=
    funext fun a => Fin.ext (by
      match a with
      | ⟨0, _⟩ => show win2_3.index t (0 : Fin 2) * 256 + 1 * (y 0).val = (y 0).val; rw [e0]; omega
      | ⟨1, _⟩ => show win2_3.index t (1 : Fin 2) * 1024 + 1 * (y 1).val = t.val / 4 * 1024 + (y 1).val; rw [e1]; omega)
  rw [eemb]
  refine (congrArg (outAt2 V c t) ey).trans ?_
  exact out2_apply V c t h1 ⟨(y 0).val, hy0⟩ ⟨(y 1).val, hy1⟩ ⟨t.val / 4 * 1024 + (y 1).val, by omega⟩ rfl

theorem mem_blk2 (t : Fin cfg2.N) (i : S256x4096.Idx) :
    i ∈ ((cfg2.win 3).blk t).view.set ↔ ∀ a : Fin 2, win2_3.index t a * S256x1024.size a ≤ (i a).val ∧ (i a).val < win2_3.index t a * S256x1024.size a + S256x1024.size a := by
  show i ∈ ((View.whole main_v11).slice (win2_3.rect t)).set ↔ _
  rw [View.set_slice_whole, Rect.mem_set_unit]
  exact Iff.rfl

/-- Every column of the output lies in the block written at the last step of its row block. -/
theorem cover2 (i : S256x4096.Idx) : ∃ t : Fin cfg2.N, (cfg2.win 3).flush t = true ∧ i ∈ ((cfg2.win 3).blk t).view.set := by
  have hi0 : (i 0).val < 256 := (i 0).isLt
  have hi1 : (i 1).val < 4096 := (i 1).isLt
  have hN : cfg2.N = 16 := N_2
  obtain ⟨t, ht⟩ : ∃ t : Fin cfg2.N, t.val = 4 * ((i 1).val / 1024) + 3 := ⟨⟨4 * ((i 1).val / 1024) + 3, by omega⟩, rfl⟩
  obtain ⟨-, -, -, -, -, -, e0, e1⟩ := idx_facts2 t
  refine ⟨t, (flush2_3 t).mpr (by omega), ?_⟩
  rw [mem_blk2]
  intro a
  match a with
  | ⟨0, _⟩ => show win2_3.index t (0 : Fin 2) * 256 ≤ (i 0).val ∧ (i 0).val < win2_3.index t (0 : Fin 2) * 256 + 256; rw [e0]; omega
  | ⟨1, _⟩ => show win2_3.index t (1 : Fin 2) * 1024 ≤ (i 1).val ∧ (i 1).val < win2_3.index t (1 : Fin 2) * 1024 + 1024; rw [e1]; omega

/-- So the output array after the region is the layer of the three arrays the region was entered with. -/
theorem final2 (c : Dev nD) :
    (dat2 (F := Ideal) V c).arrAt 3 cfg2.N
      = Cert.Scnn.layer2 4096 (V c main_v8 : Vec Ideal S256x4096 .f32) (V c main_arg4 : Vec Ideal S4096x4096 .f32)
          (V c main_v10 : Vec Ideal S4x4096 .f32) :=
  (dat2 V c).arrAt_eq_of_cover 3 (G2 V c) (flushed_eq2 V c) cover2

end AtIdeal

end Cert.KernelIdeal.Reg

end
-- ==== Proof.RegVal3.lean ====

import proofs.«146132_j71485435675282_1_alg».proof.Proof.Reg3
import proofs.«146132_j71485435675282_1_alg».proof.Proof.Payload
import proofs.«146132_j71485435675282_1_alg».proof.Proof.Bridge
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

section AnyF

variable (V : (c : Dev nD) → (b : Ref sig .tc) → Buf (Elt F) ((c : Thread nD τ).loc b))

/-- The block indices of the four windows at point t, row block i = t / steps, column block j = t % steps: signal (0, j), operator (i, j), filters and output (0, i). -/
theorem idx_facts3 : ∀ t : Fin cfg3.N,
    win3_0.index t (0 : Fin 2) = 0 ∧ win3_0.index t (1 : Fin 2) = t.val % 4
    ∧ win3_1.index t (0 : Fin 2) = t.val / 4 ∧ win3_1.index t (1 : Fin 2) = t.val % 4
    ∧ win3_2.index t (0 : Fin 2) = 0 ∧ win3_2.index t (1 : Fin 2) = t.val / 4
    ∧ win3_3.index t (0 : Fin 2) = 0 ∧ win3_3.index t (1 : Fin 2) = t.val / 4 :=
  (by decide +kernel : ∀ t : Fin grid3.N, _)

abbrev xarr3 (c : Dev nD) : Vec F S256x4096 .f32 := V c main_v11
abbrev larr3 (c : Dev nD) : Vec F S4096x4096 .f32 := V c main_arg4
abbrev warr3 (c : Dev nD) : Vec F S4x4096 .f32 := V c main_v13
abbrev xblk3 (c : Dev nD) (t : Fin cfg3.N) : Vec F S256x1024 .f32 := iblk3 V c 0 t
abbrev lblk3 (c : Dev nD) (t : Fin cfg3.N) : Vec F S1024x1024 .f32 := iblk3 V c 1 t
abbrev wblk3 (c : Dev nD) (t : Fin cfg3.N) : Vec F S4x1024 .f32 := iblk3 V c 2 t

theorem xblk3_apply (c : Dev nD) (t : Fin cfg3.N) (r : Fin 256) (k : Fin 1024) (kk : Fin 4096)
    (hk : kk.val = t.val % 4 * 1024 + k.val) : xblk3 V c t (ix2 r k) = xarr3 V c (ix2 r kk) := by
  obtain ⟨e0, e1, -⟩ := idx_facts3 t
  unfold xblk3 iblk3
  rw [View.read_apply]
  show V c main_v11 _ = V c main_v11 _
  refine congrArg (V c main_v11) (funext fun a => Fin.ext ?_)
  match a with
  | ⟨0, _⟩ => show win3_0.index t (0 : Fin 2) * 256 + 1 * r.val = r.val; rw [e0]; omega
  | ⟨1, _⟩ => show win3_0.index t (1 : Fin 2) * 1024 + 1 * k.val = kk.val; rw [e1, hk]; omega

theorem lblk3_apply (c : Dev nD) (t : Fin cfg3.N) (q : Fin 1024) (k : Fin 1024) (nn kk : Fin 4096)
    (hn : nn.val = t.val / 4 * 1024 + q.val) (hk : kk.val = t.val % 4 * 1024 + k.val) :
    lblk3 V c t (ix2 q k) = larr3 V c (ix2 nn kk) := by
  obtain ⟨-, -, e0, e1, -⟩ := idx_facts3 t
  unfold lblk3 iblk3
  rw [View.read_apply]
  show V c main_arg4 _ = V c main_arg4 _
  refine congrArg (V c main_arg4) (funext fun a => Fin.ext ?_)
  match a with
  | ⟨0, _⟩ => show win3_1.index t (0 : Fin 2) * 1024 + 1 * q.val = nn.val; rw [e0, hn]; omega
  | ⟨1, _⟩ => show win3_1.index t (1 : Fin 2) * 1024 + 1 * k.val = kk.val; rw [e1, hk]; omega

theorem wblk3_apply (c : Dev nD) (t : Fin cfg3.N) (f : Fin 4) (q : Fin 1024) (nn : Fin 4096)
    (hn : nn.val = t.val / 4 * 1024 + q.val) : wblk3 V c t (ix2 f q) = warr3 V c (ix2 f nn) := by
  obtain ⟨-, -, -, -, e0, e1, -⟩ := idx_facts3 t
  unfold wblk3 iblk3
  rw [View.read_apply]
  show V c main_v13 _ = V c main_v13 _
  refine congrArg (V c main_v13) (funext fun a => Fin.ext ?_)
  match a with
  | ⟨0, _⟩ => show win3_2.index t (0 : Fin 2) * 4 + 1 * f.val = f.val; rw [e0]; omega
  | ⟨1, _⟩ => show win3_2.index t (1 : Fin 2) * 1024 + 1 * q.val = nn.val; rw [e1, hn]; omega

end AnyF

section AtIdeal

variable (V : (c : Dev nD) → (b : Ref sig .tc) → Buf (Elt Ideal) ((c : Thread nD τ).loc b))

theorem pay1_at3 (y : S256x1024.Idx) : k2_pay1 (F := Ideal) y = 0 := pay1_apply y
theorem pay2_at3 (x : Vec Ideal S256x1024 .f32) (l : Vec Ideal S1024x1024 .f32) (a : Vec Ideal S256x1024 .f32)
    (r : Fin 256) (q : Fin 1024) :
    k2_pay2 x l a (ix2 r q) = a (ix2 r q) + ∑ k : Fin 1024, x (ix2 r k) * l (ix2 q k) := pay2_apply x l a r q
theorem pay3_at3 (a : Vec Ideal S256x1024 .f32) (w : Vec Ideal S4x1024 .f32) (r : Fin 256) (q : Fin 1024) :
    k2_pay3 a w (ix2 r q)
      = (((0 + max (a (ix2 r q) * w (ix2 0 q)) 0) + max (a (ix2 r q) * w (ix2 1 q)) 0)
          + max (a (ix2 r q) * w (ix2 2 q)) 0) + max (a (ix2 r q) * w (ix2 3 q)) 0 := pay3_apply a w r q

/-- The sum of f over its first j + 1 blocks of 1024 terms, added block after block onto zero. -/
def chain3 (f : Fin 4096 → EReal) : (j : ℕ) → j < 4 → EReal
  | 0, _ => 0 + ∑ k : Fin 1024, f ⟨0 * 1024 + k.val, by have := k.isLt; omega⟩
  | j + 1, h => chain3 f j (Nat.lt_of_succ_lt h) + ∑ k : Fin 1024, f ⟨(j + 1) * 1024 + k.val, by have := k.isLt; omega⟩

theorem chain3_last (f : Fin 4096 → EReal) (h : 3 < 4) : chain3 f 3 h = ∑ k : Fin 4096, f k :=
  Cert.Scnn.sum_blocks4_mul f

/-- One step at (r, q): the accumulator gains the sum over column block j of signal (r, k) times operator (n, k), n the operator row the point's row block gives q. -/
theorem step3_apply (c : Dev nD) (t : Fin cfg3.N) (a : Vec Ideal S256x1024 .f32) (r : Fin 256) (q : Fin 1024)
    (nn : Fin 4096) (hn : nn.val = t.val / 4 * 1024 + q.val) (j : ℕ) (hj : j < 4) (hjt : t.val % 4 = j) :
    k2_pay2 (xblk3 V c t) (lblk3 V c t) a (ix2 r q)
      = a (ix2 r q) + ∑ k : Fin 1024, (fun kk : Fin 4096 => xarr3 V c (ix2 r kk) * larr3 V c (ix2 nn kk))
          ⟨j * 1024 + k.val, by have := k.isLt; omega⟩ := by
  refine (pay2_at3 (xblk3 V c t) (lblk3 V c t) a r q).trans ?_
  refine congrArg (a (ix2 r q) + ·) (Finset.sum_congr rfl fun k _ => ?_)
  rw [xblk3_apply V c t r k ⟨j * 1024 + k.val, by have := k.isLt; omega⟩ (by rw [hjt]),
    lblk3_apply V c t q k nn ⟨j * 1024 + k.val, by have := k.isLt; omega⟩ hn (by rw [hjt])]

/-- By induction on the point: after column block j the accumulator at (r, q) is the blocked sum over column blocks 0 … j. -/
theorem acc3_eq (c : Dev nD) : ∀ (n : ℕ) (hn : n < cfg3.N) (j : ℕ) (hj : j < 4), n % 4 = j →
    ∀ (r : Fin 256) (q : Fin 1024) (nn : Fin 4096), nn.val = n / 4 * 1024 + q.val →
      accAt3 V c n hn (ix2 r q) = chain3 (fun kk : Fin 4096 => xarr3 V c (ix2 r kk) * larr3 V c (ix2 nn kk)) j hj := by
  intro n
  induction n with
  | zero =>
    intro hn j hj hnj r q nn hnn
    obtain rfl : j = 0 := by omega
    refine (step3_apply V c ⟨0, hn⟩ (k2_pay1 (F := Ideal)) r q nn hnn 0 hj rfl).trans ?_
    rw [pay1_at3]
    rfl
  | succ m ih =>
    intro hn j hj hnj r q nn hnn
    show k2_pay2 _ _ (if (m + 1) % 4 = 0 then _ else _) (ix2 r q) = _
    by_cases h0 : (m + 1) % 4 = 0
    · obtain rfl : j = 0 := by omega
      rw [if_pos h0]
      refine (step3_apply V c ⟨m + 1, hn⟩ (k2_pay1 (F := Ideal)) r q nn hnn 0 hj h0).trans ?_
      rw [pay1_at3]
      rfl
    · obtain ⟨j', rfl⟩ : ∃ j', j = j' + 1 := ⟨j - 1, by omega⟩
      rw [if_neg h0]
      refine (step3_apply V c ⟨m + 1, hn⟩ (accAt3 V c m (Nat.lt_of_succ_lt hn)) r q nn hnn (j' + 1) hj hnj).trans ?_
      rw [ih (Nat.lt_of_succ_lt hn) j' (Nat.lt_of_succ_lt hj) (by omega) r q nn (by omega)]
      rfl

abbrev G3 (c : Dev nD) : Vec Ideal S256x4096 .f32 := Cert.Scnn.layer2 4096 (xarr3 V c) (larr3 V c) (warr3 V c)

/-- At a last step all column blocks are in, the blocked sum is the whole contraction, and the output block is the layer at (r, n). -/
theorem out3_apply (c : Dev nD) (t : Fin cfg3.N) (h1 : t.val % 4 = 3) (r : Fin 256) (q : Fin 1024)
    (nn : Fin 4096) (hn : nn.val = t.val / 4 * 1024 + q.val) :
    outAt3 V c t (ix2 r q) = G3 V c (ix2 r nn) := by
  have hacc := acc3_eq V c t.val t.isLt 3 (by decide) h1 r q nn hn
  rw [chain3_last] at hacc
  rw [show outAt3 V c t = k2_pay3 (accAt3 V c t.val t.isLt) (iblk3 V c 2 t) from if_pos h1]
  refine (pay3_at3 (accAt3 V c t.val t.isLt) (wblk3 V c t) r q).trans ?_
  rw [hacc, wblk3_apply V c t 0 q nn hn, wblk3_apply V c t 1 q nn hn, wblk3_apply V c t 2 q nn hn, wblk3_apply V c t 3 q nn hn]
  exact Cert.Scnn.filt_eq _ (fun f => warr3 V c (ix2 f nn))

theorem flushed_eq3 (c : Dev nD) (t : Fin cfg3.N) (hf : (cfg3.win 3).flush t = true) :
    (dat3 V c).flushed 3 t = ((cfg3.win 3).blk t).view.read (Elt Ideal) (G3 V c) := by
  have h1 : t.val % 4 = 3 := (flush3_3 t).mp hf
  have hN : cfg3.N = 16 := N_3
  have ht : t.val < 16 := hN ▸ t.isLt
  obtain ⟨-, -, -, -, -, -, e0, e1⟩ := idx_facts3 t
  show (cfg3.win 3).cut (grid3.coords t) ((dat3 V c).after 3 t) = _
  rw [after3_3 V c t]
  funext y
  rw [View.read_apply]
  have hy0 : (y 0).val < 256 := (y 0).isLt
  have hy1 : (y 1).val < 1024 := (y 1).isLt
  show outAt3 V c t y = G3 V c (((cfg3.win 3).blk t).view.emb y)
  have ey : y = ix2 (⟨(y 0).val, hy0⟩ : Fin 256) (⟨(y 1).val, hy1⟩ : Fin 1024) :=
    funext fun a => match a with | ⟨0, _⟩ => rfl | ⟨1, _⟩ => rfl
  have eemb : ((cfg3.win 3).blk t).view.emb y
      = ix2 (⟨(y 0).val, hy0⟩ : Fin 256) (⟨t.val / 4 * 1024 + (y 1).val, by omega⟩ : Fin 4096) :=
    funext fun a => Fin.ext (by
      match a with
      | ⟨0, _⟩ => show win3_3.index t (0 : Fin 2) * 256 + 1 * (y 0).val = (y 0).val; rw [e0]; omega
      | ⟨1, _⟩ => show win3_3.index t (1 : Fin 2) * 1024 + 1 * (y 1).val = t.val / 4 * 1024 + (y 1).val; rw [e1]; omega)
  rw [eemb]
  refine (congrArg (outAt3 V c t) ey).trans ?_
  exact out3_apply V c t h1 ⟨(y 0).val, hy0⟩ ⟨(y 1).val, hy1⟩ ⟨t.val / 4 * 1024 + (y 1).val, by omega⟩ rfl

theorem mem_blk3 (t : Fin cfg3.N) (i : S256x4096.Idx) :
    i ∈ ((cfg3.win 3).blk t).view.set ↔ ∀ a : Fin 2, win3_3.index t a * S256x1024.size a ≤ (i a).val ∧ (i a).val < win3_3.index t a * S256x1024.size a + S256x1024.size a := by
  show i ∈ ((View.whole main_v14).slice (win3_3.rect t)).set ↔ _
  rw [View.set_slice_whole, Rect.mem_set_unit]
  exact Iff.rfl

/-- Every column of the output lies in the block written at the last step of its row block. -/
theorem cover3 (i : S256x4096.Idx) : ∃ t : Fin cfg3.N, (cfg3.win 3).flush t = true ∧ i ∈ ((cfg3.win 3).blk t).view.set := by
  have hi0 : (i 0).val < 256 := (i 0).isLt
  have hi1 : (i 1).val < 4096 := (i 1).isLt
  have hN : cfg3.N = 16 := N_3
  obtain ⟨t, ht⟩ : ∃ t : Fin cfg3.N, t.val = 4 * ((i 1).val / 1024) + 3 := ⟨⟨4 * ((i 1).val / 1024) + 3, by omega⟩, rfl⟩
  obtain ⟨-, -, -, -, -, -, e0, e1⟩ := idx_facts3 t
  refine ⟨t, (flush3_3 t).mpr (by omega), ?_⟩
  rw [mem_blk3]
  intro a
  match a with
  | ⟨0, _⟩ => show win3_3.index t (0 : Fin 2) * 256 ≤ (i 0).val ∧ (i 0).val < win3_3.index t (0 : Fin 2) * 256 + 256; rw [e0]; omega
  | ⟨1, _⟩ => show win3_3.index t (1 : Fin 2) * 1024 ≤ (i 1).val ∧ (i 1).val < win3_3.index t (1 : Fin 2) * 1024 + 1024; rw [e1]; omega

/-- So the output array after the region is the layer of the three arrays the region was entered with. -/
theorem final3 (c : Dev nD) :
    (dat3 (F := Ideal) V c).arrAt 3 cfg3.N
      = Cert.Scnn.layer2 4096 (V c main_v11 : Vec Ideal S256x4096 .f32) (V c main_arg4 : Vec Ideal S4096x4096 .f32)
          (V c main_v13 : Vec Ideal S4x4096 .f32) :=
  (dat3 V c).arrAt_eq_of_cover 3 (G3 V c) (flushed_eq3 V c) cover3

end AtIdeal

end Cert.KernelIdeal.Reg

end
-- ==== Proof.RegVal4.lean ====

import proofs.«146132_j71485435675282_1_alg».proof.Proof.Reg4
import proofs.«146132_j71485435675282_1_alg».proof.Proof.Payload
import proofs.«146132_j71485435675282_1_alg».proof.Proof.Bridge
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

section AnyF

variable (V : (c : Dev nD) → (b : Ref sig .tc) → Buf (Elt F) ((c : Thread nD τ).loc b))

/-- The block indices of the four windows at point t, row block i = t / steps, column block j = t % steps: signal (0, j), operator (i, j), filters and output (0, i). -/
theorem idx_facts4 : ∀ t : Fin cfg4.N,
    win4_0.index t (0 : Fin 2) = 0 ∧ win4_0.index t (1 : Fin 2) = t.val % 2
    ∧ win4_1.index t (0 : Fin 2) = t.val / 2 ∧ win4_1.index t (1 : Fin 2) = t.val % 2
    ∧ win4_2.index t (0 : Fin 2) = 0 ∧ win4_2.index t (1 : Fin 2) = t.val / 2
    ∧ win4_3.index t (0 : Fin 2) = 0 ∧ win4_3.index t (1 : Fin 2) = t.val / 2 :=
  (by decide +kernel : ∀ t : Fin grid4.N, _)

abbrev xarr4 (c : Dev nD) : Vec F S256x2048 .f32 := V c main_v16
abbrev larr4 (c : Dev nD) : Vec F S2048x2048 .f32 := V c main_arg5
abbrev warr4 (c : Dev nD) : Vec F S4x2048 .f32 := V c main_v18
abbrev xblk4 (c : Dev nD) (t : Fin cfg4.N) : Vec F S256x1024 .f32 := iblk4 V c 0 t
abbrev lblk4 (c : Dev nD) (t : Fin cfg4.N) : Vec F S1024x1024 .f32 := iblk4 V c 1 t
abbrev wblk4 (c : Dev nD) (t : Fin cfg4.N) : Vec F S4x1024 .f32 := iblk4 V c 2 t

theorem xblk4_apply (c : Dev nD) (t : Fin cfg4.N) (r : Fin 256) (k : Fin 1024) (kk : Fin 2048)
    (hk : kk.val = t.val % 2 * 1024 + k.val) : xblk4 V c t (ix2 r k) = xarr4 V c (ix2 r kk) := by
  obtain ⟨e0, e1, -⟩ := idx_facts4 t
  unfold xblk4 iblk4
  rw [View.read_apply]
  show V c main_v16 _ = V c main_v16 _
  refine congrArg (V c main_v16) (funext fun a => Fin.ext ?_)
  match a with
  | ⟨0, _⟩ => show win4_0.index t (0 : Fin 2) * 256 + 1 * r.val = r.val; rw [e0]; omega
  | ⟨1, _⟩ => show win4_0.index t (1 : Fin 2) * 1024 + 1 * k.val = kk.val; rw [e1, hk]; omega

theorem lblk4_apply (c : Dev nD) (t : Fin cfg4.N) (q : Fin 1024) (k : Fin 1024) (nn kk : Fin 2048)
    (hn : nn.val = t.val / 2 * 1024 + q.val) (hk : kk.val = t.val % 2 * 1024 + k.val) :
    lblk4 V c t (ix2 q k) = larr4 V c (ix2 nn kk) := by
  obtain ⟨-, -, e0, e1, -⟩ := idx_facts4 t
  unfold lblk4 iblk4
  rw [View.read_apply]
  show V c main_arg5 _ = V c main_arg5 _
  refine congrArg (V c main_arg5) (funext fun a => Fin.ext ?_)
  match a with
  | ⟨0, _⟩ => show win4_1.index t (0 : Fin 2) * 1024 + 1 * q.val = nn.val; rw [e0, hn]; omega
  | ⟨1, _⟩ => show win4_1.index t (1 : Fin 2) * 1024 + 1 * k.val = kk.val; rw [e1, hk]; omega

theorem wblk4_apply (c : Dev nD) (t : Fin cfg4.N) (f : Fin 4) (q : Fin 1024) (nn : Fin 2048)
    (hn : nn.val = t.val / 2 * 1024 + q.val) : wblk4 V c t (ix2 f q) = warr4 V c (ix2 f nn) := by
  obtain ⟨-, -, -, -, e0, e1, -⟩ := idx_facts4 t
  unfold wblk4 iblk4
  rw [View.read_apply]
  show V c main_v18 _ = V c main_v18 _
  refine congrArg (V c main_v18) (funext fun a => Fin.ext ?_)
  match a with
  | ⟨0, _⟩ => show win4_2.index t (0 : Fin 2) * 4 + 1 * f.val = f.val; rw [e0]; omega
  | ⟨1, _⟩ => show win4_2.index t (1 : Fin 2) * 1024 + 1 * q.val = nn.val; rw [e1, hn]; omega

end AnyF

section AtIdeal

variable (V : (c : Dev nD) → (b : Ref sig .tc) → Buf (Elt Ideal) ((c : Thread nD τ).loc b))

theorem pay1_at4 (y : S256x1024.Idx) : k0_pay1 (F := Ideal) y = 0 := pay1_apply y
theorem pay2_at4 (x : Vec Ideal S256x1024 .f32) (l : Vec Ideal S1024x1024 .f32) (a : Vec Ideal S256x1024 .f32)
    (r : Fin 256) (q : Fin 1024) :
    k0_pay2 x l a (ix2 r q) = a (ix2 r q) + ∑ k : Fin 1024, x (ix2 r k) * l (ix2 q k) := pay2_apply x l a r q
theorem pay3_at4 (a : Vec Ideal S256x1024 .f32) (w : Vec Ideal S4x1024 .f32) (r : Fin 256) (q : Fin 1024) :
    k0_pay3 a w (ix2 r q)
      = (((0 + max (a (ix2 r q) * w (ix2 0 q)) 0) + max (a (ix2 r q) * w (ix2 1 q)) 0)
          + max (a (ix2 r q) * w (ix2 2 q)) 0) + max (a (ix2 r q) * w (ix2 3 q)) 0 := pay3_apply a w r q

/-- The sum of f over its first j + 1 blocks of 1024 terms, added block after block onto zero. -/
def chain4 (f : Fin 2048 → EReal) : (j : ℕ) → j < 2 → EReal
  | 0, _ => 0 + ∑ k : Fin 1024, f ⟨0 * 1024 + k.val, by have := k.isLt; omega⟩
  | j + 1, h => chain4 f j (Nat.lt_of_succ_lt h) + ∑ k : Fin 1024, f ⟨(j + 1) * 1024 + k.val, by have := k.isLt; omega⟩

theorem chain4_last (f : Fin 2048 → EReal) (h : 1 < 2) : chain4 f 1 h = ∑ k : Fin 2048, f k :=
  Cert.Scnn.sum_blocks2_mul f

/-- One step at (r, q): the accumulator gains the sum over column block j of signal (r, k) times operator (n, k), n the operator row the point's row block gives q. -/
theorem step4_apply (c : Dev nD) (t : Fin cfg4.N) (a : Vec Ideal S256x1024 .f32) (r : Fin 256) (q : Fin 1024)
    (nn : Fin 2048) (hn : nn.val = t.val / 2 * 1024 + q.val) (j : ℕ) (hj : j < 2) (hjt : t.val % 2 = j) :
    k0_pay2 (xblk4 V c t) (lblk4 V c t) a (ix2 r q)
      = a (ix2 r q) + ∑ k : Fin 1024, (fun kk : Fin 2048 => xarr4 V c (ix2 r kk) * larr4 V c (ix2 nn kk))
          ⟨j * 1024 + k.val, by have := k.isLt; omega⟩ := by
  refine (pay2_at4 (xblk4 V c t) (lblk4 V c t) a r q).trans ?_
  refine congrArg (a (ix2 r q) + ·) (Finset.sum_congr rfl fun k _ => ?_)
  rw [xblk4_apply V c t r k ⟨j * 1024 + k.val, by have := k.isLt; omega⟩ (by rw [hjt]),
    lblk4_apply V c t q k nn ⟨j * 1024 + k.val, by have := k.isLt; omega⟩ hn (by rw [hjt])]

/-- By induction on the point: after column block j the accumulator at (r, q) is the blocked sum over column blocks 0 … j. -/
theorem acc4_eq (c : Dev nD) : ∀ (n : ℕ) (hn : n < cfg4.N) (j : ℕ) (hj : j < 2), n % 2 = j →
    ∀ (r : Fin 256) (q : Fin 1024) (nn : Fin 2048), nn.val = n / 2 * 1024 + q.val →
      accAt4 V c n hn (ix2 r q) = chain4 (fun kk : Fin 2048 => xarr4 V c (ix2 r kk) * larr4 V c (ix2 nn kk)) j hj := by
  intro n
  induction n with
  | zero =>
    intro hn j hj hnj r q nn hnn
    obtain rfl : j = 0 := by omega
    refine (step4_apply V c ⟨0, hn⟩ (k0_pay1 (F := Ideal)) r q nn hnn 0 hj rfl).trans ?_
    rw [pay1_at4]
    rfl
  | succ m ih =>
    intro hn j hj hnj r q nn hnn
    show k0_pay2 _ _ (if (m + 1) % 2 = 0 then _ else _) (ix2 r q) = _
    by_cases h0 : (m + 1) % 2 = 0
    · obtain rfl : j = 0 := by omega
      rw [if_pos h0]
      refine (step4_apply V c ⟨m + 1, hn⟩ (k0_pay1 (F := Ideal)) r q nn hnn 0 hj h0).trans ?_
      rw [pay1_at4]
      rfl
    · obtain ⟨j', rfl⟩ : ∃ j', j = j' + 1 := ⟨j - 1, by omega⟩
      rw [if_neg h0]
      refine (step4_apply V c ⟨m + 1, hn⟩ (accAt4 V c m (Nat.lt_of_succ_lt hn)) r q nn hnn (j' + 1) hj hnj).trans ?_
      rw [ih (Nat.lt_of_succ_lt hn) j' (Nat.lt_of_succ_lt hj) (by omega) r q nn (by omega)]
      rfl

abbrev G4 (c : Dev nD) : Vec Ideal S256x2048 .f32 := Cert.Scnn.layer2 2048 (xarr4 V c) (larr4 V c) (warr4 V c)

/-- At a last step all column blocks are in, the blocked sum is the whole contraction, and the output block is the layer at (r, n). -/
theorem out4_apply (c : Dev nD) (t : Fin cfg4.N) (h1 : t.val % 2 = 1) (r : Fin 256) (q : Fin 1024)
    (nn : Fin 2048) (hn : nn.val = t.val / 2 * 1024 + q.val) :
    outAt4 V c t (ix2 r q) = G4 V c (ix2 r nn) := by
  have hacc := acc4_eq V c t.val t.isLt 1 (by decide) h1 r q nn hn
  rw [chain4_last] at hacc
  rw [show outAt4 V c t = k0_pay3 (accAt4 V c t.val t.isLt) (iblk4 V c 2 t) from if_pos h1]
  refine (pay3_at4 (accAt4 V c t.val t.isLt) (wblk4 V c t) r q).trans ?_
  rw [hacc, wblk4_apply V c t 0 q nn hn, wblk4_apply V c t 1 q nn hn, wblk4_apply V c t 2 q nn hn, wblk4_apply V c t 3 q nn hn]
  exact Cert.Scnn.filt_eq _ (fun f => warr4 V c (ix2 f nn))

theorem flushed_eq4 (c : Dev nD) (t : Fin cfg4.N) (hf : (cfg4.win 3).flush t = true) :
    (dat4 V c).flushed 3 t = ((cfg4.win 3).blk t).view.read (Elt Ideal) (G4 V c) := by
  have h1 : t.val % 2 = 1 := (flush4_3 t).mp hf
  have hN : cfg4.N = 4 := N_4
  have ht : t.val < 4 := hN ▸ t.isLt
  obtain ⟨-, -, -, -, -, -, e0, e1⟩ := idx_facts4 t
  show (cfg4.win 3).cut (grid4.coords t) ((dat4 V c).after 3 t) = _
  rw [after4_3 V c t]
  funext y
  rw [View.read_apply]
  have hy0 : (y 0).val < 256 := (y 0).isLt
  have hy1 : (y 1).val < 1024 := (y 1).isLt
  show outAt4 V c t y = G4 V c (((cfg4.win 3).blk t).view.emb y)
  have ey : y = ix2 (⟨(y 0).val, hy0⟩ : Fin 256) (⟨(y 1).val, hy1⟩ : Fin 1024) :=
    funext fun a => match a with | ⟨0, _⟩ => rfl | ⟨1, _⟩ => rfl
  have eemb : ((cfg4.win 3).blk t).view.emb y
      = ix2 (⟨(y 0).val, hy0⟩ : Fin 256) (⟨t.val / 2 * 1024 + (y 1).val, by omega⟩ : Fin 2048) :=
    funext fun a => Fin.ext (by
      match a with
      | ⟨0, _⟩ => show win4_3.index t (0 : Fin 2) * 256 + 1 * (y 0).val = (y 0).val; rw [e0]; omega
      | ⟨1, _⟩ => show win4_3.index t (1 : Fin 2) * 1024 + 1 * (y 1).val = t.val / 2 * 1024 + (y 1).val; rw [e1]; omega)
  rw [eemb]
  refine (congrArg (outAt4 V c t) ey).trans ?_
  exact out4_apply V c t h1 ⟨(y 0).val, hy0⟩ ⟨(y 1).val, hy1⟩ ⟨t.val / 2 * 1024 + (y 1).val, by omega⟩ rfl

theorem mem_blk4 (t : Fin cfg4.N) (i : S256x2048.Idx) :
    i ∈ ((cfg4.win 3).blk t).view.set ↔ ∀ a : Fin 2, win4_3.index t a * S256x1024.size a ≤ (i a).val ∧ (i a).val < win4_3.index t a * S256x1024.size a + S256x1024.size a := by
  show i ∈ ((View.whole main_v19).slice (win4_3.rect t)).set ↔ _
  rw [View.set_slice_whole, Rect.mem_set_unit]
  exact Iff.rfl

/-- Every column of the output lies in the block written at the last step of its row block. -/
theorem cover4 (i : S256x2048.Idx) : ∃ t : Fin cfg4.N, (cfg4.win 3).flush t = true ∧ i ∈ ((cfg4.win 3).blk t).view.set := by
  have hi0 : (i 0).val < 256 := (i 0).isLt
  have hi1 : (i 1).val < 2048 := (i 1).isLt
  have hN : cfg4.N = 4 := N_4
  obtain ⟨t, ht⟩ : ∃ t : Fin cfg4.N, t.val = 2 * ((i 1).val / 1024) + 1 := ⟨⟨2 * ((i 1).val / 1024) + 1, by omega⟩, rfl⟩
  obtain ⟨-, -, -, -, -, -, e0, e1⟩ := idx_facts4 t
  refine ⟨t, (flush4_3 t).mpr (by omega), ?_⟩
  rw [mem_blk4]
  intro a
  match a with
  | ⟨0, _⟩ => show win4_3.index t (0 : Fin 2) * 256 ≤ (i 0).val ∧ (i 0).val < win4_3.index t (0 : Fin 2) * 256 + 256; rw [e0]; omega
  | ⟨1, _⟩ => show win4_3.index t (1 : Fin 2) * 1024 ≤ (i 1).val ∧ (i 1).val < win4_3.index t (1 : Fin 2) * 1024 + 1024; rw [e1]; omega

/-- So the output array after the region is the layer of the three arrays the region was entered with. -/
theorem final4 (c : Dev nD) :
    (dat4 (F := Ideal) V c).arrAt 3 cfg4.N
      = Cert.Scnn.layer2 2048 (V c main_v16 : Vec Ideal S256x2048 .f32) (V c main_arg5 : Vec Ideal S2048x2048 .f32)
          (V c main_v18 : Vec Ideal S4x2048 .f32) :=
  (dat4 V c).arrAt_eq_of_cover 3 (G4 V c) (flushed_eq4 V c) cover4

end AtIdeal

end Cert.KernelIdeal.Reg

end
-- ==== Proof.RegVal5.lean ====

import proofs.«146132_j71485435675282_1_alg».proof.Proof.Reg5
import proofs.«146132_j71485435675282_1_alg».proof.Proof.Payload
import proofs.«146132_j71485435675282_1_alg».proof.Proof.Bridge
import Idealize.ShloMosaic.Lib.Pipeline.Value
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

section AnyF

variable (V : (c : Dev nD) → (b : Ref sig .tc) → Buf (Elt F) ((c : Thread nD τ).loc b))

/-- The block indices of the four windows at point t, row block i = t / steps, column block j = t % steps: signal (0, j), operator (i, j), filters and output (0, i). -/
theorem idx_facts5 : ∀ t : Fin cfg5.N,
    win5_0.index t (0 : Fin 2) = 0 ∧ win5_0.index t (1 : Fin 2) = t.val % 2
    ∧ win5_1.index t (0 : Fin 2) = t.val / 2 ∧ win5_1.index t (1 : Fin 2) = t.val % 2
    ∧ win5_2.index t (0 : Fin 2) = 0 ∧ win5_2.index t (1 : Fin 2) = t.val / 2
    ∧ win5_3.index t (0 : Fin 2) = 0 ∧ win5_3.index t (1 : Fin 2) = t.val / 2 :=
  (by decide +kernel : ∀ t : Fin grid5.N, _)

abbrev xarr5 (c : Dev nD) : Vec F S256x2048 .f32 := V c main_v19
abbrev larr5 (c : Dev nD) : Vec F S2048x2048 .f32 := V c main_arg5
abbrev warr5 (c : Dev nD) : Vec F S4x2048 .f32 := V c main_v21
abbrev xblk5 (c : Dev nD) (t : Fin cfg5.N) : Vec F S256x1024 .f32 := iblk5 V c 0 t
abbrev lblk5 (c : Dev nD) (t : Fin cfg5.N) : Vec F S1024x1024 .f32 := iblk5 V c 1 t
abbrev wblk5 (c : Dev nD) (t : Fin cfg5.N) : Vec F S4x1024 .f32 := iblk5 V c 2 t

theorem xblk5_apply (c : Dev nD) (t : Fin cfg5.N) (r : Fin 256) (k : Fin 1024) (kk : Fin 2048)
    (hk : kk.val = t.val % 2 * 1024 + k.val) : xblk5 V c t (ix2 r k) = xarr5 V c (ix2 r kk) := by
  obtain ⟨e0, e1, -⟩ := idx_facts5 t
  unfold xblk5 iblk5
  rw [View.read_apply]
  show V c main_v19 _ = V c main_v19 _
  refine congrArg (V c main_v19) (funext fun a => Fin.ext ?_)
  match a with
  | ⟨0, _⟩ => show win5_0.index t (0 : Fin 2) * 256 + 1 * r.val = r.val; rw [e0]; omega
  | ⟨1, _⟩ => show win5_0.index t (1 : Fin 2) * 1024 + 1 * k.val = kk.val; rw [e1, hk]; omega

theorem lblk5_apply (c : Dev nD) (t : Fin cfg5.N) (q : Fin 1024) (k : Fin 1024) (nn kk : Fin 2048)
    (hn : nn.val = t.val / 2 * 1024 + q.val) (hk : kk.val = t.val % 2 * 1024 + k.val) :
    lblk5 V c t (ix2 q k) = larr5 V c (ix2 nn kk) := by
  obtain ⟨-, -, e0, e1, -⟩ := idx_facts5 t
  unfold lblk5 iblk5
  rw [View.read_apply]
  show V c main_arg5 _ = V c main_arg5 _
  refine congrArg (V c main_arg5) (funext fun a => Fin.ext ?_)
  match a with
  | ⟨0, _⟩ => show win5_1.index t (0 : Fin 2) * 1024 + 1 * q.val = nn.val; rw [e0, hn]; omega
  | ⟨1, _⟩ => show win5_1.index t (1 : Fin 2) * 1024 + 1 * k.val = kk.val; rw [e1, hk]; omega

theorem wblk5_apply (c : Dev nD) (t : Fin cfg5.N) (f : Fin 4) (q : Fin 1024) (nn : Fin 2048)
    (hn : nn.val = t.val / 2 * 1024 + q.val) : wblk5 V c t (ix2 f q) = warr5 V c (ix2 f nn) := by
  obtain ⟨-, -, -, -, e0, e1, -⟩ := idx_facts5 t
  unfold wblk5 iblk5
  rw [View.read_apply]
  show V c main_v21 _ = V c main_v21 _
  refine congrArg (V c main_v21) (funext fun a => Fin.ext ?_)
  match a with
  | ⟨0, _⟩ => show win5_2.index t (0 : Fin 2) * 4 + 1 * f.val = f.val; rw [e0]; omega
  | ⟨1, _⟩ => show win5_2.index t (1 : Fin 2) * 1024 + 1 * q.val = nn.val; rw [e1, hn]; omega

end AnyF

section AtIdeal

variable (V : (c : Dev nD) → (b : Ref sig .tc) → Buf (Elt Ideal) ((c : Thread nD τ).loc b))

theorem pay1_at5 (y : S256x1024.Idx) : k0_pay1 (F := Ideal) y = 0 := pay1_apply y
theorem pay2_at5 (x : Vec Ideal S256x1024 .f32) (l : Vec Ideal S1024x1024 .f32) (a : Vec Ideal S256x1024 .f32)
    (r : Fin 256) (q : Fin 1024) :
    k0_pay2 x l a (ix2 r q) = a (ix2 r q) + ∑ k : Fin 1024, x (ix2 r k) * l (ix2 q k) := pay2_apply x l a r q
theorem pay3_at5 (a : Vec Ideal S256x1024 .f32) (w : Vec Ideal S4x1024 .f32) (r : Fin 256) (q : Fin 1024) :
    k0_pay3 a w (ix2 r q)
      = (((0 + max (a (ix2 r q) * w (ix2 0 q)) 0) + max (a (ix2 r q) * w (ix2 1 q)) 0)
          + max (a (ix2 r q) * w (ix2 2 q)) 0) + max (a (ix2 r q) * w (ix2 3 q)) 0 := pay3_apply a w r q

/-- The sum of f over its first j + 1 blocks of 1024 terms, added block after block onto zero. -/
def chain5 (f : Fin 2048 → EReal) : (j : ℕ) → j < 2 → EReal
  | 0, _ => 0 + ∑ k : Fin 1024, f ⟨0 * 1024 + k.val, by have := k.isLt; omega⟩
  | j + 1, h => chain5 f j (Nat.lt_of_succ_lt h) + ∑ k : Fin 1024, f ⟨(j + 1) * 1024 + k.val, by have := k.isLt; omega⟩

theorem chain5_last (f : Fin 2048 → EReal) (h : 1 < 2) : chain5 f 1 h = ∑ k : Fin 2048, f k :=
  Cert.Scnn.sum_blocks2_mul f

/-- One step at (r, q): the accumulator gains the sum over column block j of signal (r, k) times operator (n, k), n the operator row the point's row block gives q. -/
theorem step5_apply (c : Dev nD) (t : Fin cfg5.N) (a : Vec Ideal S256x1024 .f32) (r : Fin 256) (q : Fin 1024)
    (nn : Fin 2048) (hn : nn.val = t.val / 2 * 1024 + q.val) (j : ℕ) (hj : j < 2) (hjt : t.val % 2 = j) :
    k0_pay2 (xblk5 V c t) (lblk5 V c t) a (ix2 r q)
      = a (ix2 r q) + ∑ k : Fin 1024, (fun kk : Fin 2048 => xarr5 V c (ix2 r kk) * larr5 V c (ix2 nn kk))
          ⟨j * 1024 + k.val, by have := k.isLt; omega⟩ := by
  refine (pay2_at5 (xblk5 V c t) (lblk5 V c t) a r q).trans ?_
  refine congrArg (a (ix2 r q) + ·) (Finset.sum_congr rfl fun k _ => ?_)
  rw [xblk5_apply V c t r k ⟨j * 1024 + k.val, by have := k.isLt; omega⟩ (by rw [hjt]),
    lblk5_apply V c t q k nn ⟨j * 1024 + k.val, by have := k.isLt; omega⟩ hn (by rw [hjt])]

/-- By induction on the point: after column block j the accumulator at (r, q) is the blocked sum over column blocks 0 … j. -/
theorem acc5_eq (c : Dev nD) : ∀ (n : ℕ) (hn : n < cfg5.N) (j : ℕ) (hj : j < 2), n % 2 = j →
    ∀ (r : Fin 256) (q : Fin 1024) (nn : Fin 2048), nn.val = n / 2 * 1024 + q.val →
      accAt5 V c n hn (ix2 r q) = chain5 (fun kk : Fin 2048 => xarr5 V c (ix2 r kk) * larr5 V c (ix2 nn kk)) j hj := by
  intro n
  induction n with
  | zero =>
    intro hn j hj hnj r q nn hnn
    obtain rfl : j = 0 := by omega
    refine (step5_apply V c ⟨0, hn⟩ (k0_pay1 (F := Ideal)) r q nn hnn 0 hj rfl).trans ?_
    rw [pay1_at5]
    rfl
  | succ m ih =>
    intro hn j hj hnj r q nn hnn
    show k0_pay2 _ _ (if (m + 1) % 2 = 0 then _ else _) (ix2 r q) = _
    by_cases h0 : (m + 1) % 2 = 0
    · obtain rfl : j = 0 := by omega
      rw [if_pos h0]
      refine (step5_apply V c ⟨m + 1, hn⟩ (k0_pay1 (F := Ideal)) r q nn hnn 0 hj h0).trans ?_
      rw [pay1_at5]
      rfl
    · obtain ⟨j', rfl⟩ : ∃ j', j = j' + 1 := ⟨j - 1, by omega⟩
      rw [if_neg h0]
      refine (step5_apply V c ⟨m + 1, hn⟩ (accAt5 V c m (Nat.lt_of_succ_lt hn)) r q nn hnn (j' + 1) hj hnj).trans ?_
      rw [ih (Nat.lt_of_succ_lt hn) j' (Nat.lt_of_succ_lt hj) (by omega) r q nn (by omega)]
      rfl

abbrev G5 (c : Dev nD) : Vec Ideal S256x2048 .f32 := Cert.Scnn.layer2 2048 (xarr5 V c) (larr5 V c) (warr5 V c)

/-- At a last step all column blocks are in, the blocked sum is the whole contraction, and the output block is the layer at (r, n). -/
theorem out5_apply (c : Dev nD) (t : Fin cfg5.N) (h1 : t.val % 2 = 1) (r : Fin 256) (q : Fin 1024)
    (nn : Fin 2048) (hn : nn.val = t.val / 2 * 1024 + q.val) :
    outAt5 V c t (ix2 r q) = G5 V c (ix2 r nn) := by
  have hacc := acc5_eq V c t.val t.isLt 1 (by decide) h1 r q nn hn
  rw [chain5_last] at hacc
  rw [show outAt5 V c t = k0_pay3 (accAt5 V c t.val t.isLt) (iblk5 V c 2 t) from if_pos h1]
  refine (pay3_at5 (accAt5 V c t.val t.isLt) (wblk5 V c t) r q).trans ?_
  rw [hacc, wblk5_apply V c t 0 q nn hn, wblk5_apply V c t 1 q nn hn, wblk5_apply V c t 2 q nn hn, wblk5_apply V c t 3 q nn hn]
  exact Cert.Scnn.filt_eq _ (fun f => warr5 V c (ix2 f nn))

theorem flushed_eq5 (c : Dev nD) (t : Fin cfg5.N) (hf : (cfg5.win 3).flush t = true) :
    (dat5 V c).flushed 3 t = ((cfg5.win 3).blk t).view.read (Elt Ideal) (G5 V c) := by
  have h1 : t.val % 2 = 1 := (flush5_3 t).mp hf
  have hN : cfg5.N = 4 := N_5
  have ht : t.val < 4 := hN ▸ t.isLt
  obtain ⟨-, -, -, -, -, -, e0, e1⟩ := idx_facts5 t
  show (cfg5.win 3).cut (grid5.coords t) ((dat5 V c).after 3 t) = _
  rw [after5_3 V c t]
  funext y
  rw [View.read_apply]
  have hy0 : (y 0).val < 256 := (y 0).isLt
  have hy1 : (y 1).val < 1024 := (y 1).isLt
  show outAt5 V c t y = G5 V c (((cfg5.win 3).blk t).view.emb y)
  have ey : y = ix2 (⟨(y 0).val, hy0⟩ : Fin 256) (⟨(y 1).val, hy1⟩ : Fin 1024) :=
    funext fun a => match a with | ⟨0, _⟩ => rfl | ⟨1, _⟩ => rfl
  have eemb : ((cfg5.win 3).blk t).view.emb y
      = ix2 (⟨(y 0).val, hy0⟩ : Fin 256) (⟨t.val / 2 * 1024 + (y 1).val, by omega⟩ : Fin 2048) :=
    funext fun a => Fin.ext (by
      match a with
      | ⟨0, _⟩ => show win5_3.index t (0 : Fin 2) * 256 + 1 * (y 0).val = (y 0).val; rw [e0]; omega
      | ⟨1, _⟩ => show win5_3.index t (1 : Fin 2) * 1024 + 1 * (y 1).val = t.val / 2 * 1024 + (y 1).val; rw [e1]; omega)
  rw [eemb]
  refine (congrArg (outAt5 V c t) ey).trans ?_
  exact out5_apply V c t h1 ⟨(y 0).val, hy0⟩ ⟨(y 1).val, hy1⟩ ⟨t.val / 2 * 1024 + (y 1).val, by omega⟩ rfl

theorem mem_blk5 (t : Fin cfg5.N) (i : S256x2048.Idx) :
    i ∈ ((cfg5.win 3).blk t).view.set ↔ ∀ a : Fin 2, win5_3.index t a * S256x1024.size a ≤ (i a).val ∧ (i a).val < win5_3.index t a * S256x1024.size a + S256x1024.size a := by
  show i ∈ ((View.whole main_v22).slice (win5_3.rect t)).set ↔ _
  rw [View.set_slice_whole, Rect.mem_set_unit]
  exact Iff.rfl

/-- Every column of the output lies in the block written at the last step of its row block. -/
theorem cover5 (i : S256x2048.Idx) : ∃ t : Fin cfg5.N, (cfg5.win 3).flush t = true ∧ i ∈ ((cfg5.win 3).blk t).view.set := by
  have hi0 : (i 0).val < 256 := (i 0).isLt
  have hi1 : (i 1).val < 2048 := (i 1).isLt
  have hN : cfg5.N = 4 := N_5
  obtain ⟨t, ht⟩ : ∃ t : Fin cfg5.N, t.val = 2 * ((i 1).val / 1024) + 1 := ⟨⟨2 * ((i 1).val / 1024) + 1, by omega⟩, rfl⟩
  obtain ⟨-, -, -, -, -, -, e0, e1⟩ := idx_facts5 t
  refine ⟨t, (flush5_3 t).mpr (by omega), ?_⟩
  rw [mem_blk5]
  intro a
  match a with
  | ⟨0, _⟩ => show win5_3.index t (0 : Fin 2) * 256 ≤ (i 0).val ∧ (i 0).val < win5_3.index t (0 : Fin 2) * 256 + 256; rw [e0]; omega
  | ⟨1, _⟩ => show win5_3.index t (1 : Fin 2) * 1024 ≤ (i 1).val ∧ (i 1).val < win5_3.index t (1 : Fin 2) * 1024 + 1024; rw [e1]; omega

/-- So the output array after the region is the layer of the three arrays the region was entered with. -/
theorem final5 (c : Dev nD) :
    (dat5 (F := Ideal) V c).arrAt 3 cfg5.N
      = Cert.Scnn.layer2 2048 (V c main_v19 : Vec Ideal S256x2048 .f32) (V c main_arg5 : Vec Ideal S2048x2048 .f32)
          (V c main_v21 : Vec Ideal S4x2048 .f32) :=
  (dat5 V c).arrAt_eq_of_cover 3 (G5 V c) (flushed_eq5 V c) cover5

end AtIdeal

end Cert.KernelIdeal.Reg

end
-- ==== Proof.Chain.lean ====
import proofs.«146132_j71485435675282_1_alg».proof.Proof.Outs
import Idealize.ShloMosaic.Lib.StableHlo.Run
import Idealize.ShloMosaic.Lib.ValueIdx
import Idealize.ShloMosaic.Lib.Pipeline.Value

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]

/-- The kernel program's last host stretches as functions: three branches side by side, then the sum over positions and the three dense layers. -/
def kerCat (a : FVec F S32x8x2048 .f32) (b : FVec F S32x8x4096 .f32) (c : FVec F S32x8x2048 .f32) :
    FVec F S32x8x8192 .f32 :=
  concatenate S32x8x8192 2 [⟨S32x8x2048, a⟩, ⟨S32x8x4096, b⟩, ⟨S32x8x2048, c⟩]
    concatenates_S32x8x2048_S32x8x4096_S32x8x2048_S32x8x8192_d2

def kerTail (x : FVec F S32x8x8192 .f32)
    (w1 : FVec F S8192x1024 .f32) (b1 : FVec F S1024 .f32)
    (w2 : FVec F S1024x1024 .f32) (b2 : FVec F S1024 .f32)
    (w3 : FVec F S1024x256 .f32) (b3 : FVec F S256 .f32) : FVec F S32x256 .f32 :=
  addf
    (Host.dotGeneral dot_S32x1024_S1024x256_S32x256_1_0_0_1_n_n none
      (maximumf
        (addf
          (Host.dotGeneral dot_S32x1024_S1024x1024_S32x1024_1_0_0_1_n_n none
            (maximumf
              (addf
                (Host.dotGeneral dot_S32x8192_S8192x1024_S32x1024_1_0_0_1_n_n none
                  (Host.reduceAdd x (constant S_ .f32 0x00000000#32) reducesTo_S32x8x8192_S32x8192_d1 h_S_) w1)
                (broadcastInDim S32x1024 ![0, 1] bcast_S1x1024_S32x1024_0_1
                  (broadcastInDim S1x1024 ![1] bcast_S1024_S1x1024_1 b1)))
              (broadcastInDim S32x1024 ![] bcast_S_S32x1024 (constant S_ .f32 0x00000000#32)))
            w2)
          (broadcastInDim S32x1024 ![0, 1] bcast_S1x1024_S32x1024_0_1
            (broadcastInDim S1x1024 ![1] bcast_S1024_S1x1024_1 b2)))
        (broadcastInDim S32x1024 ![] bcast_S_S32x1024 (constant S_ .f32 0x00000000#32)))
      w3)
    (broadcastInDim S32x256 ![0, 1] bcast_S1x256_S32x256_0_1
      (broadcastInDim S1x256 ![1] bcast_S256_S1x256_1 b3))

section Stretch

variable (W : Valuation τ sig (Elt F))

theorem after6_4_v39 :
    StableHlo.after hostOps6_4 W main_v39
      = addf (Host.dotGeneral dot_S32x1024_S1024x256_S32x256_1_0_0_1_n_n none
            (W main_v35 : FVec F S32x1024 .f32) (W main_arg13 : FVec F S1024x256 .f32))
          (broadcastInDim S32x256 ![0, 1] bcast_S1x256_S32x256_0_1
            (broadcastInDim S1x256 ![1] bcast_S256_S1x256_1 (W main_arg14 : FVec F S256 .f32))) := by
  dsimp only [hostOps6_4]
  after_results

theorem after6_3_v35 :
    StableHlo.after hostOps6_3 W main_v35
      = maximumf (W main_v34 : FVec F S32x1024 .f32)
          (broadcastInDim S32x1024 ![] bcast_S_S32x1024 (constant S_ .f32 0x00000000#32)) := by
  dsimp only [hostOps6_3]
  after_results
  rfl

theorem after6_2_v34 :
    StableHlo.after hostOps6_2 W main_v34
      = addf (Host.dotGeneral dot_S32x1024_S1024x1024_S32x1024_1_0_0_1_n_n none
            (W main_v30 : FVec F S32x1024 .f32) (W main_arg11 : FVec F S1024x1024 .f32))
          (broadcastInDim S32x1024 ![0, 1] bcast_S1x1024_S32x1024_0_1
            (broadcastInDim S1x1024 ![1] bcast_S1024_S1x1024_1 (W main_arg12 : FVec F S1024 .f32))) := by
  dsimp only [hostOps6_2]
  after_results

theorem after6_1_v30 :
    StableHlo.after hostOps6_1 W main_v30
      = maximumf (W main_v29 : FVec F S32x1024 .f32)
          (broadcastInDim S32x1024 ![] bcast_S_S32x1024 (constant S_ .f32 0x00000000#32)) := by
  dsimp only [hostOps6_1]
  after_results
  rfl

theorem after6_v29 :
    StableHlo.after hostOps6 W main_v29
      = addf (Host.dotGeneral dot_S32x8192_S8192x1024_S32x1024_1_0_0_1_n_n none
            (Host.reduceAdd
              (kerCat (W main_v7 : FVec F S32x8x2048 .f32) (W main_v15 : FVec F S32x8x4096 .f32)
                (shapeCast S32x8x2048 (W main_v22 : FVec F S256x2048 .f32) shapeCasts_S256x2048_S32x8x2048))
              (constant S_ .f32 0x00000000#32) reducesTo_S32x8x8192_S32x8192_d1 h_S_)
            (W main_arg9 : FVec F S8192x1024 .f32))
          (broadcastInDim S32x1024 ![0, 1] bcast_S1x1024_S32x1024_0_1
            (broadcastInDim S1x1024 ![1] bcast_S1024_S1x1024_1 (W main_arg10 : FVec F S1024 .f32))) := by
  dsimp only [hostOps6]
  after_results
  rfl

end Stretch

section StretchIn

variable (W : Valuation τ sig (Elt F))

theorem after0_v0 :
    StableHlo.after hostOps0 W main_v0
      = shapeCast S256x2048 (W main_arg0 : FVec F S32x8x2048 .f32) shapeCasts_S32x8x2048_S256x2048 := by
  dsimp only [hostOps0]
  after_results
  rfl

theorem after0_v2 :
    StableHlo.after hostOps0 W main_v2
      = shapeCast S4x2048
          (extractStridedSlice S1x4x2048 ![0, 0, 0] (W main_arg6 : FVec F S2x4x2048 .f32)
            slices_S2x4x2048_S1x4x2048_0_0_0)
          shapeCasts_S1x4x2048_S4x2048 := by
  dsimp only [hostOps0]
  after_results
  rfl

theorem after1_v5 :
    StableHlo.after hostOps1 W main_v5
      = shapeCast S4x2048
          (extractStridedSlice S1x4x2048 ![1, 0, 0] (W main_arg6 : FVec F S2x4x2048 .f32)
            slices_S2x4x2048_S1x4x2048_1_0_0)
          shapeCasts_S1x4x2048_S4x2048 := by
  dsimp only [hostOps1]
  after_results
  rfl

theorem after2_v7 :
    StableHlo.after hostOps2 W main_v7
      = shapeCast S32x8x2048 (W main_v6 : FVec F S256x2048 .f32) shapeCasts_S256x2048_S32x8x2048 := by
  dsimp only [hostOps2]
  after_results
  rfl

theorem after2_v8 :
    StableHlo.after hostOps2 W main_v8
      = shapeCast S256x4096 (W main_arg1 : FVec F S32x8x4096 .f32) shapeCasts_S32x8x4096_S256x4096 := by
  dsimp only [hostOps2]
  after_results
  rfl

theorem after2_v10 :
    StableHlo.after hostOps2 W main_v10
      = shapeCast S4x4096
          (extractStridedSlice S1x4x4096 ![0, 0, 0] (W main_arg7 : FVec F S2x4x4096 .f32)
            slices_S2x4x4096_S1x4x4096_0_0_0)
          shapeCasts_S1x4x4096_S4x4096 := by
  dsimp only [hostOps2]
  after_results
  rfl

theorem after3_v13 :
    StableHlo.after hostOps3 W main_v13
      = shapeCast S4x4096
          (extractStridedSlice S1x4x4096 ![1, 0, 0] (W main_arg7 : FVec F S2x4x4096 .f32)
            slices_S2x4x4096_S1x4x4096_1_0_0)
          shapeCasts_S1x4x4096_S4x4096 := by
  dsimp only [hostOps3]
  after_results
  rfl

theorem after4_v15 :
    StableHlo.after hostOps4 W main_v15
      = shapeCast S32x8x4096 (W main_v14 : FVec F S256x4096 .f32) shapeCasts_S256x4096_S32x8x4096 := by
  dsimp only [hostOps4]
  after_results
  rfl

theorem after4_v16 :
    StableHlo.after hostOps4 W main_v16
      = shapeCast S256x2048 (W main_arg2 : FVec F S32x8x2048 .f32) shapeCasts_S32x8x2048_S256x2048 := by
  dsimp only [hostOps4]
  after_results
  rfl

theorem after4_v18 :
    StableHlo.after hostOps4 W main_v18
      = shapeCast S4x2048
          (extractStridedSlice S1x4x2048 ![0, 0, 0] (W main_arg8 : FVec F S2x4x2048 .f32)
            slices_S2x4x2048_S1x4x2048_0_0_0)
          shapeCasts_S1x4x2048_S4x2048 := by
  dsimp only [hostOps4]
  after_results
  rfl

theorem after5_v21 :
    StableHlo.after hostOps5 W main_v21
      = shapeCast S4x2048
          (extractStridedSlice S1x4x2048 ![1, 0, 0] (W main_arg8 : FVec F S2x4x2048 .f32)
            slices_S2x4x2048_S1x4x2048_1_0_0)
          shapeCasts_S1x4x2048_S4x2048 := by
  dsimp only [hostOps5]
  after_results
  rfl

end StretchIn

/-- Every buffer some item writes; a buffer outside the list keeps its launch contents through every item. -/
abbrev written : List (Ref sig .tc) :=
  [main_v0, main_v1, main_v2, main_v3, main_v4, main_v5, main_v6, main_v7, main_v8, main_v9, main_v10, main_v11,
   main_v12, main_v13, main_v14, main_v15, main_v16, main_v17, main_v18, main_v19, main_v20, main_v21, main_v22,
   main_v23, main_v24, main_cst, main_v25, main_v26, main_v27, main_v28, main_v29, main_call0_cst, main_call0_v0,
   main_v30, main_v31, main_v32, main_v33, main_v34, main_call1_cst, main_call1_v0, main_v35, main_v36, main_v37,
   main_v38, main_v39]

section Keep

variable (m : (ℓ : Loc nD τ sig) → Buf (Elt F) ℓ) (outs : Gen.Outs (F := F)) (c : Dev nD)
variable (r : Ref sig .tc) (h : r ∉ written)
include h

theorem keep1 : Gen.V1 m c r = m ((c : Thread nD τ).loc r) :=
  (Gen.V1_of m c r fun hh => h ((by decide : hostOps0_W ⊆ written) hh)).trans rfl
theorem keep2 : Gen.V2 m outs c r = m ((c : Thread nD τ).loc r) :=
  (Gen.V2_of m outs c r fun hh => h ((by decide : [main_v3] ⊆ written) hh)).trans (keep1 m c r h)
theorem keep3 : Gen.V3 m outs c r = m ((c : Thread nD τ).loc r) :=
  (Gen.V3_of m outs c r fun hh => h ((by decide : hostOps1_W ⊆ written) hh)).trans (keep2 m outs c r h)
theorem keep4 : Gen.V4 m outs c r = m ((c : Thread nD τ).loc r) :=
  (Gen.V4_of m outs c r fun hh => h ((by decide : [main_v6] ⊆ written) hh)).trans (keep3 m outs c r h)
theorem keep5 : Gen.V5 m outs c r = m ((c : Thread nD τ).loc r) :=
  (Gen.V5_of m outs c r fun hh => h ((by decide : hostOps2_W ⊆ written) hh)).trans (keep4 m outs c r h)
theorem keep6 : Gen.V6 m outs c r = m ((c : Thread nD τ).loc r) :=
  (Gen.V6_of m outs c r fun hh => h ((by decide : [main_v11] ⊆ written) hh)).trans (keep5 m outs c r h)
theorem keep7 : Gen.V7 m outs c r = m ((c : Thread nD τ).loc r) :=
  (Gen.V7_of m outs c r fun hh => h ((by decide : hostOps3_W ⊆ written) hh)).trans (keep6 m outs c r h)
theorem keep8 : Gen.V8 m outs c r = m ((c : Thread nD τ).loc r) :=
  (Gen.V8_of m outs c r fun hh => h ((by decide : [main_v14] ⊆ written) hh)).trans (keep7 m outs c r h)
theorem keep9 : Gen.V9 m outs c r = m ((c : Thread nD τ).loc r) :=
  (Gen.V9_of m outs c r fun hh => h ((by decide : hostOps4_W ⊆ written) hh)).trans (keep8 m outs c r h)
theorem keep10 : Gen.V10 m outs c r = m ((c : Thread nD τ).loc r) :=
  (Gen.V10_of m outs c r fun hh => h ((by decide : [main_v19] ⊆ written) hh)).trans (keep9 m outs c r h)
theorem keep11 : Gen.V11 m outs c r = m ((c : Thread nD τ).loc r) :=
  (Gen.V11_of m outs c r fun hh => h ((by decide : hostOps5_W ⊆ written) hh)).trans (keep10 m outs c r h)
theorem keep12 : Gen.V12 m outs c r = m ((c : Thread nD τ).loc r) :=
  (Gen.V12_of m outs c r fun hh => h ((by decide : [main_v22] ⊆ written) hh)).trans (keep11 m outs c r h)
theorem keep13 : Gen.V13 m outs c r = m ((c : Thread nD τ).loc r) :=
  (Gen.V13_of m outs c r fun hh => h ((by decide : hostOps6_W ⊆ written) hh)).trans (keep12 m outs c r h)
theorem keep14 : Gen.V14 m outs c r = m ((c : Thread nD τ).loc r) :=
  (Gen.V14_of m outs c r fun hh => h ((by decide : hostOps6_1_W ⊆ written) hh)).trans (keep13 m outs c r h)
theorem keep15 : Gen.V15 m outs c r = m ((c : Thread nD τ).loc r) :=
  (Gen.V15_of m outs c r fun hh => h ((by decide : hostOps6_2_W ⊆ written) hh)).trans (keep14 m outs c r h)
theorem keep16 : Gen.V16 m outs c r = m ((c : Thread nD τ).loc r) :=
  (Gen.V16_of m outs c r fun hh => h ((by decide : hostOps6_3_W ⊆ written) hh)).trans (keep15 m outs c r h)

end Keep

section Facts

variable (m : (ℓ : Loc nD τ sig) → Buf (Elt F) ℓ) (outs : Gen.Outs (F := F)) (c : Dev nD)

theorem V1_main_v0 :
    Gen.V1 m c main_v0
      = shapeCast S256x2048 (m ((c : Thread nD τ).loc main_arg0) : FVec F S32x8x2048 .f32)
          shapeCasts_S32x8x2048_S256x2048 :=
  after0_v0 (Gen.V0 m c)

theorem V1_main_arg3 : Gen.V1 m c main_arg3 = m ((c : Thread nD τ).loc main_arg3) :=
  keep1 m c main_arg3 (by decide)

theorem V1_main_v2 :
    Gen.V1 m c main_v2
      = shapeCast S4x2048
          (extractStridedSlice S1x4x2048 ![0, 0, 0] (m ((c : Thread nD τ).loc main_arg6) : FVec F S2x4x2048 .f32)
            slices_S2x4x2048_S1x4x2048_0_0_0)
          shapeCasts_S1x4x2048_S4x2048 :=
  after0_v2 (Gen.V0 m c)

theorem V3_main_v3 : Gen.V3 m outs c main_v3 = outs 2 main_v3 c :=
  (Gen.V3_of m outs c main_v3 (by decide)).trans (Function.update_self _ _ _)

theorem V3_main_arg3 : Gen.V3 m outs c main_arg3 = m ((c : Thread nD τ).loc main_arg3) :=
  keep3 m outs c main_arg3 (by decide)

theorem V3_main_v5 :
    Gen.V3 m outs c main_v5
      = shapeCast S4x2048
          (extractStridedSlice S1x4x2048 ![1, 0, 0] (m ((c : Thread nD τ).loc main_arg6) : FVec F S2x4x2048 .f32)
            slices_S2x4x2048_S1x4x2048_1_0_0)
          shapeCasts_S1x4x2048_S4x2048 := by
  have e : Gen.V3 m outs c main_v5 = _ := after1_v5 (Gen.V2 m outs c)
  rw [e, keep2 m outs c main_arg6 (by decide)]

theorem V5_main_v8 :
    Gen.V5 m outs c main_v8
      = shapeCast S256x4096 (m ((c : Thread nD τ).loc main_arg1) : FVec F S32x8x4096 .f32)
          shapeCasts_S32x8x4096_S256x4096 := by
  have e : Gen.V5 m outs c main_v8 = _ := after2_v8 (Gen.V4 m outs c)
  rw [e, keep4 m outs c main_arg1 (by decide)]

theorem V5_main_arg4 : Gen.V5 m outs c main_arg4 = m ((c : Thread nD τ).loc main_arg4) :=
  keep5 m outs c main_arg4 (by decide)

theorem V5_main_v10 :
    Gen.V5 m outs c main_v10
      = shapeCast S4x4096
          (extractStridedSlice S1x4x4096 ![0, 0, 0] (m ((c : Thread nD τ).loc main_arg7) : FVec F S2x4x4096 .f32)
            slices_S2x4x4096_S1x4x4096_0_0_0)
          shapeCasts_S1x4x4096_S4x4096 := by
  have e : Gen.V5 m outs c main_v10 = _ := after2_v10 (Gen.V4 m outs c)
  rw [e, keep4 m outs c main_arg7 (by decide)]

theorem V7_main_v11 : Gen.V7 m outs c main_v11 = outs 6 main_v11 c :=
  (Gen.V7_of m outs c main_v11 (by decide)).trans (Function.update_self _ _ _)

theorem V7_main_arg4 : Gen.V7 m outs c main_arg4 = m ((c : Thread nD τ).loc main_arg4) :=
  keep7 m outs c main_arg4 (by decide)

theorem V7_main_v13 :
    Gen.V7 m outs c main_v13
      = shapeCast S4x4096
          (extractStridedSlice S1x4x4096 ![1, 0, 0] (m ((c : Thread nD τ).loc main_arg7) : FVec F S2x4x4096 .f32)
            slices_S2x4x4096_S1x4x4096_1_0_0)
          shapeCasts_S1x4x4096_S4x4096 := by
  have e : Gen.V7 m outs c main_v13 = _ := after3_v13 (Gen.V6 m outs c)
  rw [e, keep6 m outs c main_arg7 (by decide)]

theorem V9_main_v16 :
    Gen.V9 m outs c main_v16
      = shapeCast S256x2048 (m ((c : Thread nD τ).loc main_arg2) : FVec F S32x8x2048 .f32)
          shapeCasts_S32x8x2048_S256x2048 := by
  have e : Gen.V9 m outs c main_v16 = _ := after4_v16 (Gen.V8 m outs c)
  rw [e, keep8 m outs c main_arg2 (by decide)]

theorem V9_main_arg5 : Gen.V9 m outs c main_arg5 = m ((c : Thread nD τ).loc main_arg5) :=
  keep9 m outs c main_arg5 (by decide)

theorem V9_main_v18 :
    Gen.V9 m outs c main_v18
      = shapeCast S4x2048
          (extractStridedSlice S1x4x2048 ![0, 0, 0] (m ((c : Thread nD τ).loc main_arg8) : FVec F S2x4x2048 .f32)
            slices_S2x4x2048_S1x4x2048_0_0_0)
          shapeCasts_S1x4x2048_S4x2048 := by
  have e : Gen.V9 m outs c main_v18 = _ := after4_v18 (Gen.V8 m outs c)
  rw [e, keep8 m outs c main_arg8 (by decide)]

theorem V11_main_v19 : Gen.V11 m outs c main_v19 = outs 10 main_v19 c :=
  (Gen.V11_of m outs c main_v19 (by decide)).trans (Function.update_self _ _ _)

theorem V11_main_arg5 : Gen.V11 m outs c main_arg5 = m ((c : Thread nD τ).loc main_arg5) :=
  keep11 m outs c main_arg5 (by decide)

theorem V11_main_v21 :
    Gen.V11 m outs c main_v21
      = shapeCast S4x2048
          (extractStridedSlice S1x4x2048 ![1, 0, 0] (m ((c : Thread nD τ).loc main_arg8) : FVec F S2x4x2048 .f32)
            slices_S2x4x2048_S1x4x2048_1_0_0)
          shapeCasts_S1x4x2048_S4x2048 := by
  have e : Gen.V11 m outs c main_v21 = _ := after5_v21 (Gen.V10 m outs c)
  rw [e, keep10 m outs c main_arg8 (by decide)]

theorem V12_main_v7 :
    Gen.V12 m outs c main_v7
      = shapeCast S32x8x2048 (outs 4 main_v6 c : FVec F S256x2048 .f32) shapeCasts_S256x2048_S32x8x2048 := by
  have e : Gen.V5 m outs c main_v7 = _ := after2_v7 (Gen.V4 m outs c)
  have e6 : Gen.V4 m outs c main_v6 = outs 4 main_v6 c := Function.update_self _ _ _
  rw [Gen.V12_of m outs c main_v7 (by decide), Gen.V11_of m outs c main_v7 (by decide),
    Gen.V10_of m outs c main_v7 (by decide), Gen.V9_of m outs c main_v7 (by decide),
    Gen.V8_of m outs c main_v7 (by decide), Gen.V7_of m outs c main_v7 (by decide),
    Gen.V6_of m outs c main_v7 (by decide), e, e6]

theorem V12_main_v15 :
    Gen.V12 m outs c main_v15
      = shapeCast S32x8x4096 (outs 8 main_v14 c : FVec F S256x4096 .f32) shapeCasts_S256x4096_S32x8x4096 := by
  have e : Gen.V9 m outs c main_v15 = _ := after4_v15 (Gen.V8 m outs c)
  have e14 : Gen.V8 m outs c main_v14 = outs 8 main_v14 c := Function.update_self _ _ _
  rw [Gen.V12_of m outs c main_v15 (by decide), Gen.V11_of m outs c main_v15 (by decide),
    Gen.V10_of m outs c main_v15 (by decide), e, e14]

theorem V12_main_v22 : Gen.V12 m outs c main_v22 = outs 12 main_v22 c :=
  Function.update_self _ _ _

theorem v39_eq :
    Gen.V17 m outs c main_v39
      = kerTail
          (kerCat
            (shapeCast S32x8x2048 (outs 4 main_v6 c : FVec F S256x2048 .f32) shapeCasts_S256x2048_S32x8x2048)
            (shapeCast S32x8x4096 (outs 8 main_v14 c : FVec F S256x4096 .f32) shapeCasts_S256x4096_S32x8x4096)
            (shapeCast S32x8x2048 (outs 12 main_v22 c : FVec F S256x2048 .f32) shapeCasts_S256x2048_S32x8x2048))
          (m ((c : Thread nD τ).loc main_arg9)) (m ((c : Thread nD τ).loc main_arg10))
          (m ((c : Thread nD τ).loc main_arg11)) (m ((c : Thread nD τ).loc main_arg12))
          (m ((c : Thread nD τ).loc main_arg13)) (m ((c : Thread nD τ).loc main_arg14)) := by
  have e39 : Gen.V17 m outs c main_v39 = _ := after6_4_v39 (Gen.V16 m outs c)
  have e35 : Gen.V16 m outs c main_v35 = _ := after6_3_v35 (Gen.V15 m outs c)
  have e34 : Gen.V15 m outs c main_v34 = _ := after6_2_v34 (Gen.V14 m outs c)
  have e30 : Gen.V14 m outs c main_v30 = _ := after6_1_v30 (Gen.V13 m outs c)
  have e29 : Gen.V13 m outs c main_v29 = _ := after6_v29 (Gen.V12 m outs c)
  rw [e39, e35, e34, e30, e29, V12_main_v7, V12_main_v15, V12_main_v22,
    keep16 m outs c main_arg13 (by decide), keep16 m outs c main_arg14 (by decide),
    keep14 m outs c main_arg11 (by decide), keep14 m outs c main_arg12 (by decide),
    keep12 m outs c main_arg9 (by decide), keep12 m outs c main_arg10 (by decide)]
  rfl

end Facts

end Cert.KernelIdeal.Run

end
-- ==== Proof.RefValue.lean ====
import proofs.«146132_j71485435675282_1_alg».proof.Proof.Gen.ReferenceIdeal.Run
import proofs.«146132_j71485435675282_1_alg».proof.Proof.Gen.ReferenceIdeal.Read
import proofs.«146132_j71485435675282_1_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx Cert.Scnn

/-- One layer of the reference read at an entry: the filter sum of the contraction. -/
theorem layer_entry (N : Nat) (y : (⟨3, ![32, 8, N]⟩ : Shape).Idx → EReal) (L : (⟨2, ![N, N]⟩ : Shape).Idx → EReal)
    (Wc : (⟨3, ![2, 4, N]⟩ : Shape).Idx → EReal) (l : Fin 2) (i : (⟨3, ![32, 8, N]⟩ : Shape).Idx) (z : EReal) (hz : z = 0)
    (A : Fin 4 → Fin N → (⟨3, ![32, 8, N]⟩ : Shape).Idx) (B : Fin 4 → Fin N → (⟨2, ![N, N]⟩ : Shape).Idx)
    (C : Fin 4 → (⟨3, ![2, 4, N]⟩ : Shape).Idx)
    (hA : ∀ f k, A f k = ix3 (i 0) (i 1) k) (hB : ∀ f k, B f k = ix2 (i 2) k) (hC : ∀ f, C f = ix3 l f (i 2)) :
    z + ∑ f : Fin 4, max ((∑ k : Fin N, y (A f k) * L (B f k)) * Wc (C f)) z = layer3 N y L (wsel N Wc l) i := by
  subst hz
  rw [zero_add]
  show _ = ∑ f : Fin 4, max ((∑ k : Fin N, y (ix3 (i 0) (i 1) k) * L (ix2 (i 2) k)) * Wc (ix3 l f (i 2))) (0 : EReal)
  refine Finset.sum_congr rfl fun f _ => ?_
  rw [hC f]
  refine congrArg (fun t => max (t * Wc (ix3 l f (i 2))) 0) (Finset.sum_congr rfl fun k _ => ?_)
  rw [hA f k, hB f k]
  rfl

theorem layer1_b0 (x0 : (⟨S32x8x2048, .f32⟩ : BufTy).Contents (Elt Ideal)) (x3 : (⟨S2048x2048, .f32⟩ : BufTy).Contents (Elt Ideal))
    (x6 : (⟨S2x4x2048, .f32⟩ : BufTy).Contents (Elt Ideal)) :
    val_main_v9 (F := Ideal) x0 x3 x6 = layer3 2048 x0 x3 (wsel 2048 x6 0) := by
  funext i
  rw [val_main_v9_apply]
  simp only [val_main_v8_apply, val_main_v7_apply, val_main_v5_apply, val_main_v1_apply, val_main_v0_apply, val_main_v6_apply, val_main_v4_apply, val_main_v3_apply, val_main_v2_apply,
    val_main_call0_v0_apply, val_main_call0_cst_apply, val_main_cst_apply]
  have hf : ∀ f : Fin 4, f.val < 4 := fun f => f.isLt
  have h2 : (i 2).val < 2048 := (i 2).isLt
  exact layer_entry 2048 x0 x3 x6 0 i _ Ideal.ofBits_zero_f32 _ _ _
    (fun f k => funext fun a => Fin.ext (by match a with | ⟨0, _⟩ => rfl | ⟨1, _⟩ => rfl | ⟨2, _⟩ => rfl))
    (fun f k => funext fun a => Fin.ext (by match a with | ⟨0, _⟩ => rfl | ⟨1, _⟩ => rfl))
    (fun f => funext fun a => Fin.ext (by
      match a with
      | ⟨0, _⟩ => rfl
      | ⟨1, _⟩ => show (f.val * 2048 + (i 2).val) / 2048 % 4 = f.val; have := hf f; omega
      | ⟨2, _⟩ => show (f.val * 2048 + (i 2).val) % 2048 = (i 2).val; have := hf f; omega))

theorem layer2_b0 (x0 : (⟨S32x8x2048, .f32⟩ : BufTy).Contents (Elt Ideal)) (x3 : (⟨S2048x2048, .f32⟩ : BufTy).Contents (Elt Ideal))
    (x6 : (⟨S2x4x2048, .f32⟩ : BufTy).Contents (Elt Ideal)) :
    val_main_v19 (F := Ideal) x0 x3 x6 = layer3 2048 (val_main_v9 (F := Ideal) x0 x3 x6) x3 (wsel 2048 x6 1) := by
  funext i
  rw [val_main_v19_apply]
  simp only [val_main_v18_apply, val_main_v17_apply, val_main_v15_apply, val_main_v11_apply, val_main_v10_apply, val_main_v16_apply, val_main_v14_apply, val_main_v13_apply, val_main_v12_apply,
    val_main_call1_v0_apply, val_main_call1_cst_apply, val_main_cst_0_apply]
  have hf : ∀ f : Fin 4, f.val < 4 := fun f => f.isLt
  have h2 : (i 2).val < 2048 := (i 2).isLt
  exact layer_entry 2048 (val_main_v9 (F := Ideal) x0 x3 x6) x3 x6 1 i _ Ideal.ofBits_zero_f32 _ _ _
    (fun f k => funext fun a => Fin.ext (by match a with | ⟨0, _⟩ => rfl | ⟨1, _⟩ => rfl | ⟨2, _⟩ => rfl))
    (fun f k => funext fun a => Fin.ext (by match a with | ⟨0, _⟩ => rfl | ⟨1, _⟩ => rfl))
    (fun f => funext fun a => Fin.ext (by
      match a with
      | ⟨0, _⟩ => rfl
      | ⟨1, _⟩ => show (f.val * 2048 + (i 2).val) / 2048 % 4 = f.val; have := hf f; omega
      | ⟨2, _⟩ => show (f.val * 2048 + (i 2).val) % 2048 = (i 2).val; have := hf f; omega))

theorem branch0 (x0 : (⟨S32x8x2048, .f32⟩ : BufTy).Contents (Elt Ideal)) (x3 : (⟨S2048x2048, .f32⟩ : BufTy).Contents (Elt Ideal))
    (x6 : (⟨S2x4x2048, .f32⟩ : BufTy).Contents (Elt Ideal)) :
    val_main_v19 (F := Ideal) x0 x3 x6
      = layer3 2048 (layer3 2048 x0 x3 (wsel 2048 x6 0)) x3 (wsel 2048 x6 1) := by
  rw [layer2_b0, layer1_b0]

theorem layer1_b1 (x1 : (⟨S32x8x4096, .f32⟩ : BufTy).Contents (Elt Ideal)) (x4 : (⟨S4096x4096, .f32⟩ : BufTy).Contents (Elt Ideal))
    (x7 : (⟨S2x4x4096, .f32⟩ : BufTy).Contents (Elt Ideal)) :
    val_main_v29 (F := Ideal) x1 x4 x7 = layer3 4096 x1 x4 (wsel 4096 x7 0) := by
  funext i
  rw [val_main_v29_apply]
  simp only [val_main_v28_apply, val_main_v27_apply, val_main_v25_apply, val_main_v21_apply, val_main_v20_apply, val_main_v26_apply, val_main_v24_apply, val_main_v23_apply, val_main_v22_apply,
    val_main_call2_v0_apply, val_main_call2_cst_apply, val_main_cst_1_apply]
  have hf : ∀ f : Fin 4, f.val < 4 := fun f => f.isLt
  have h2 : (i 2).val < 4096 := (i 2).isLt
  exact layer_entry 4096 x1 x4 x7 0 i _ Ideal.ofBits_zero_f32 _ _ _
    (fun f k => funext fun a => Fin.ext (by match a with | ⟨0, _⟩ => rfl | ⟨1, _⟩ => rfl | ⟨2, _⟩ => rfl))
    (fun f k => funext fun a => Fin.ext (by match a with | ⟨0, _⟩ => rfl | ⟨1, _⟩ => rfl))
    (fun f => funext fun a => Fin.ext (by
      match a with
      | ⟨0, _⟩ => rfl
      | ⟨1, _⟩ => show (f.val * 4096 + (i 2).val) / 4096 % 4 = f.val; have := hf f; omega
      | ⟨2, _⟩ => show (f.val * 4096 + (i 2).val) % 4096 = (i 2).val; have := hf f; omega))

theorem layer2_b1 (x1 : (⟨S32x8x4096, .f32⟩ : BufTy).Contents (Elt Ideal)) (x4 : (⟨S4096x4096, .f32⟩ : BufTy).Contents (Elt Ideal))
    (x7 : (⟨S2x4x4096, .f32⟩ : BufTy).Contents (Elt Ideal)) :
    val_main_v39 (F := Ideal) x1 x4 x7 = layer3 4096 (val_main_v29 (F := Ideal) x1 x4 x7) x4 (wsel 4096 x7 1) := by
  funext i
  rw [val_main_v39_apply]
  simp only [val_main_v38_apply, val_main_v37_apply, val_main_v35_apply, val_main_v31_apply, val_main_v30_apply, val_main_v36_apply, val_main_v34_apply, val_main_v33_apply, val_main_v32_apply,
    val_main_call3_v0_apply, val_main_call3_cst_apply, val_main_cst_2_apply]
  have hf : ∀ f : Fin 4, f.val < 4 := fun f => f.isLt
  have h2 : (i 2).val < 4096 := (i 2).isLt
  exact layer_entry 4096 (val_main_v29 (F := Ideal) x1 x4 x7) x4 x7 1 i _ Ideal.ofBits_zero_f32 _ _ _
    (fun f k => funext fun a => Fin.ext (by match a with | ⟨0, _⟩ => rfl | ⟨1, _⟩ => rfl | ⟨2, _⟩ => rfl))
    (fun f k => funext fun a => Fin.ext (by match a with | ⟨0, _⟩ => rfl | ⟨1, _⟩ => rfl))
    (fun f => funext fun a => Fin.ext (by
      match a with
      | ⟨0, _⟩ => rfl
      | ⟨1, _⟩ => show (f.val * 4096 + (i 2).val) / 4096 % 4 = f.val; have := hf f; omega
      | ⟨2, _⟩ => show (f.val * 4096 + (i 2).val) % 4096 = (i 2).val; have := hf f; omega))

theorem branch1 (x1 : (⟨S32x8x4096, .f32⟩ : BufTy).Contents (Elt Ideal)) (x4 : (⟨S4096x4096, .f32⟩ : BufTy).Contents (Elt Ideal))
    (x7 : (⟨S2x4x4096, .f32⟩ : BufTy).Contents (Elt Ideal)) :
    val_main_v39 (F := Ideal) x1 x4 x7
      = layer3 4096 (layer3 4096 x1 x4 (wsel 4096 x7 0)) x4 (wsel 4096 x7 1) := by
  rw [layer2_b1, layer1_b1]

theorem layer1_b2 (x2 : (⟨S32x8x2048, .f32⟩ : BufTy).Contents (Elt Ideal)) (x5 : (⟨S2048x2048, .f32⟩ : BufTy).Contents (Elt Ideal))
    (x8 : (⟨S2x4x2048, .f32⟩ : BufTy).Contents (Elt Ideal)) :
    val_main_v49 (F := Ideal) x2 x5 x8 = layer3 2048 x2 x5 (wsel 2048 x8 0) := by
  funext i
  rw [val_main_v49_apply]
  simp only [val_main_v48_apply, val_main_v47_apply, val_main_v45_apply, val_main_v41_apply, val_main_v40_apply, val_main_v46_apply, val_main_v44_apply, val_main_v43_apply, val_main_v42_apply,
    val_main_call4_v0_apply, val_main_call4_cst_apply, val_main_cst_3_apply]
  have hf : ∀ f : Fin 4, f.val < 4 := fun f => f.isLt
  have h2 : (i 2).val < 2048 := (i 2).isLt
  exact layer_entry 2048 x2 x5 x8 0 i _ Ideal.ofBits_zero_f32 _ _ _
    (fun f k => funext fun a => Fin.ext (by match a with | ⟨0, _⟩ => rfl | ⟨1, _⟩ => rfl | ⟨2, _⟩ => rfl))
    (fun f k => funext fun a => Fin.ext (by match a with | ⟨0, _⟩ => rfl | ⟨1, _⟩ => rfl))
    (fun f => funext fun a => Fin.ext (by
      match a with
      | ⟨0, _⟩ => rfl
      | ⟨1, _⟩ => show (f.val * 2048 + (i 2).val) / 2048 % 4 = f.val; have := hf f; omega
      | ⟨2, _⟩ => show (f.val * 2048 + (i 2).val) % 2048 = (i 2).val; have := hf f; omega))

theorem layer2_b2 (x2 : (⟨S32x8x2048, .f32⟩ : BufTy).Contents (Elt Ideal)) (x5 : (⟨S2048x2048, .f32⟩ : BufTy).Contents (Elt Ideal))
    (x8 : (⟨S2x4x2048, .f32⟩ : BufTy).Contents (Elt Ideal)) :
    val_main_v59 (F := Ideal) x2 x5 x8 = layer3 2048 (val_main_v49 (F := Ideal) x2 x5 x8) x5 (wsel 2048 x8 1) := by
  funext i
  rw [val_main_v59_apply]
  simp only [val_main_v58_apply, val_main_v57_apply, val_main_v55_apply, val_main_v51_apply, val_main_v50_apply, val_main_v56_apply, val_main_v54_apply, val_main_v53_apply, val_main_v52_apply,
    val_main_call5_v0_apply, val_main_call5_cst_apply, val_main_cst_4_apply]
  have hf : ∀ f : Fin 4, f.val < 4 := fun f => f.isLt
  have h2 : (i 2).val < 2048 := (i 2).isLt
  exact layer_entry 2048 (val_main_v49 (F := Ideal) x2 x5 x8) x5 x8 1 i _ Ideal.ofBits_zero_f32 _ _ _
    (fun f k => funext fun a => Fin.ext (by match a with | ⟨0, _⟩ => rfl | ⟨1, _⟩ => rfl | ⟨2, _⟩ => rfl))
    (fun f k => funext fun a => Fin.ext (by match a with | ⟨0, _⟩ => rfl | ⟨1, _⟩ => rfl))
    (fun f => funext fun a => Fin.ext (by
      match a with
      | ⟨0, _⟩ => rfl
      | ⟨1, _⟩ => show (f.val * 2048 + (i 2).val) / 2048 % 4 = f.val; have := hf f; omega
      | ⟨2, _⟩ => show (f.val * 2048 + (i 2).val) % 2048 = (i 2).val; have := hf f; omega))

theorem branch2 (x2 : (⟨S32x8x2048, .f32⟩ : BufTy).Contents (Elt Ideal)) (x5 : (⟨S2048x2048, .f32⟩ : BufTy).Contents (Elt Ideal))
    (x8 : (⟨S2x4x2048, .f32⟩ : BufTy).Contents (Elt Ideal)) :
    val_main_v59 (F := Ideal) x2 x5 x8
      = layer3 2048 (layer3 2048 x2 x5 (wsel 2048 x8 0)) x5 (wsel 2048 x8 1) := by
  rw [layer2_b2, layer1_b2]

def refCat (a : (⟨S32x8x2048, .f32⟩ : BufTy).Contents (Elt Ideal)) (b : (⟨S32x8x4096, .f32⟩ : BufTy).Contents (Elt Ideal))
    (c : (⟨S32x8x2048, .f32⟩ : BufTy).Contents (Elt Ideal)) : (⟨S32x8x8192, .f32⟩ : BufTy).Contents (Elt Ideal) :=
  concatenate S32x8x8192 2 [⟨S32x8x2048, a⟩, ⟨S32x8x4096, b⟩, ⟨S32x8x2048, c⟩]
    concatenates_S32x8x2048_S32x8x4096_S32x8x2048_S32x8x8192_d2

def refTail (h : (⟨S32x8x8192, .f32⟩ : BufTy).Contents (Elt Ideal)) (x9 : (⟨S8192x1024, .f32⟩ : BufTy).Contents (Elt Ideal))
    (x10 : (⟨S1024, .f32⟩ : BufTy).Contents (Elt Ideal)) (x11 : (⟨S1024x1024, .f32⟩ : BufTy).Contents (Elt Ideal))
    (x12 : (⟨S1024, .f32⟩ : BufTy).Contents (Elt Ideal)) (x13 : (⟨S1024x256, .f32⟩ : BufTy).Contents (Elt Ideal))
    (x14 : (⟨S256, .f32⟩ : BufTy).Contents (Elt Ideal)) : (⟨S32x256, .f32⟩ : BufTy).Contents (Elt Ideal) :=
  addf
    (Host.dotGeneral (F := Ideal) (φ₁ := .f32) (φ₂ := .f32) dot_S32x1024_S1024x256_S32x256_1_0_0_1_n_n none
      (maximumf
        (addf
          (Host.dotGeneral (F := Ideal) (φ₁ := .f32) (φ₂ := .f32) dot_S32x1024_S1024x1024_S32x1024_1_0_0_1_n_n none
            (maximumf
              (addf
                (Host.dotGeneral (F := Ideal) (φ₁ := .f32) (φ₂ := .f32) dot_S32x8192_S8192x1024_S32x1024_1_0_0_1_n_n none
                  (Host.reduceAdd (F := Ideal) h (constant (F := Ideal) S_ .f32 0x00000000#32) reducesTo_S32x8x8192_S32x8192_d1 h_S_)
                  x9)
                (broadcastInDim S32x1024 ![0, 1] bcast_S1x1024_S32x1024_0_1 (broadcastInDim S1x1024 ![1] bcast_S1024_S1x1024_1 x10)))
              (broadcastInDim S32x1024 ![] bcast_S_S32x1024 (constant (F := Ideal) S_ .f32 0x00000000#32)))
            x11)
          (broadcastInDim S32x1024 ![0, 1] bcast_S1x1024_S32x1024_0_1 (broadcastInDim S1x1024 ![1] bcast_S1024_S1x1024_1 x12)))
        (broadcastInDim S32x1024 ![] bcast_S_S32x1024 (constant (F := Ideal) S_ .f32 0x00000000#32)))
      x13)
    (broadcastInDim S32x256 ![0, 1] bcast_S1x256_S32x256_0_1 (broadcastInDim S1x256 ![1] bcast_S256_S1x256_1 x14))

theorem tail_of_branches (x0 : (⟨S32x8x2048, .f32⟩ : BufTy).Contents (Elt Ideal)) (x1 : (⟨S32x8x4096, .f32⟩ : BufTy).Contents (Elt Ideal))
    (x2 : (⟨S32x8x2048, .f32⟩ : BufTy).Contents (Elt Ideal)) (x3 : (⟨S2048x2048, .f32⟩ : BufTy).Contents (Elt Ideal))
    (x4 : (⟨S4096x4096, .f32⟩ : BufTy).Contents (Elt Ideal)) (x5 : (⟨S2048x2048, .f32⟩ : BufTy).Contents (Elt Ideal))
    (x6 : (⟨S2x4x2048, .f32⟩ : BufTy).Contents (Elt Ideal)) (x7 : (⟨S2x4x4096, .f32⟩ : BufTy).Contents (Elt Ideal))
    (x8 : (⟨S2x4x2048, .f32⟩ : BufTy).Contents (Elt Ideal)) (x9 : (⟨S8192x1024, .f32⟩ : BufTy).Contents (Elt Ideal))
    (x10 : (⟨S1024, .f32⟩ : BufTy).Contents (Elt Ideal)) (x11 : (⟨S1024x1024, .f32⟩ : BufTy).Contents (Elt Ideal))
    (x12 : (⟨S1024, .f32⟩ : BufTy).Contents (Elt Ideal)) (x13 : (⟨S1024x256, .f32⟩ : BufTy).Contents (Elt Ideal))
    (x14 : (⟨S256, .f32⟩ : BufTy).Contents (Elt Ideal)) :
    val_main_v75 (F := Ideal) x0 x1 x2 x3 x4 x5 x6 x7 x8 x9 x10 x11 x12 x13 x14
      = refTail (refCat (val_main_v19 (F := Ideal) x0 x3 x6) (val_main_v39 (F := Ideal) x1 x4 x7) (val_main_v59 (F := Ideal) x2 x5 x8))
          x9 x10 x11 x12 x13 x14 := by
  unfold val_main_v75 val_main_v74 val_main_v73 val_main_v72 val_main_v71 val_main_call7_v0 val_main_call7_cst val_main_v70
    val_main_v69 val_main_v68 val_main_v67 val_main_v66 val_main_call6_v0 val_main_call6_cst val_main_v65 val_main_v64
    val_main_v63 val_main_v62 val_main_v61 val_main_cst_5 val_main_v60 refTail refCat
  rfl

/-- The reference's result is the dense tail of the three twice-layered branches of its arguments. -/
theorem result_eq (m : (ℓ : Loc nD τ sig) → Buf (Elt Ideal) ℓ) (c : Dev nD) :
    Cert.ReferenceIdeal.Value.res_out0 (F := Ideal) m c
      = refTail
          (refCat
            (layer3 2048 (layer3 2048 (m ((c.tc : Thread nD τ).loc main_arg0)) (m ((c.tc : Thread nD τ).loc main_arg3))
                (wsel 2048 (m ((c.tc : Thread nD τ).loc main_arg6)) 0))
              (m ((c.tc : Thread nD τ).loc main_arg3)) (wsel 2048 (m ((c.tc : Thread nD τ).loc main_arg6)) 1))
            (layer3 4096 (layer3 4096 (m ((c.tc : Thread nD τ).loc main_arg1)) (m ((c.tc : Thread nD τ).loc main_arg4))
                (wsel 4096 (m ((c.tc : Thread nD τ).loc main_arg7)) 0))
              (m ((c.tc : Thread nD τ).loc main_arg4)) (wsel 4096 (m ((c.tc : Thread nD τ).loc main_arg7)) 1))
            (layer3 2048 (layer3 2048 (m ((c.tc : Thread nD τ).loc main_arg2)) (m ((c.tc : Thread nD τ).loc main_arg5))
                (wsel 2048 (m ((c.tc : Thread nD τ).loc main_arg8)) 0))
              (m ((c.tc : Thread nD τ).loc main_arg5)) (wsel 2048 (m ((c.tc : Thread nD τ).loc main_arg8)) 1)))
          (m ((c.tc : Thread nD τ).loc main_arg9)) (m ((c.tc : Thread nD τ).loc main_arg10))
          (m ((c.tc : Thread nD τ).loc main_arg11)) (m ((c.tc : Thread nD τ).loc main_arg12))
          (m ((c.tc : Thread nD τ).loc main_arg13)) (m ((c.tc : Thread nD τ).loc main_arg14)) := by
  refine (val_main_v75_eq (F := Ideal) m c).trans ?_
  rw [tail_of_branches, branch0, branch1, branch2]

end Cert.ReferenceIdeal.RefValue
end
-- ==== Proof.KernelValue.lean ====
import proofs.«146132_j71485435675282_1_alg».proof.Proof.Chain
import proofs.«146132_j71485435675282_1_alg».proof.Proof.Bridge
import proofs.«146132_j71485435675282_1_alg».proof.Proof.RefValue
import proofs.«146132_j71485435675282_1_alg».proof.Proof.Outs

noncomputable section

namespace Cert.KernelIdeal.Run

open Cert.KernelIdeal Cert.KernelIdeal.Gen
open Idealize.ShloMosaic Idealize.ShloMosaic.TcCoe
open Idealize.SL Idealize.SL.Sem
open Cert.Scnn

theorem layer2_congr (N : Nat) {x x' : (⟨2, ![256, N]⟩ : Shape).Idx → EReal} {L L' : (⟨2, ![N, N]⟩ : Shape).Idx → EReal}
    {w w' : (⟨2, ![4, N]⟩ : Shape).Idx → EReal} (hx : x = x') (hL : L = L') (hw : w = w') :
    layer2 N x L w = layer2 N x' L' w' := by
  subst hx hL hw; rfl

theorem kerTail_eq_refTail (a : FVec Ideal S32x8x2048 .f32) (b : FVec Ideal S32x8x4096 .f32) (c : FVec Ideal S32x8x2048 .f32)
    (x9 : FVec Ideal S8192x1024 .f32) (x10 : FVec Ideal S1024 .f32) (x11 : FVec Ideal S1024x1024 .f32)
    (x12 : FVec Ideal S1024 .f32) (x13 : FVec Ideal S1024x256 .f32) (x14 : FVec Ideal S256 .f32) :
    kerTail (F := Ideal) (kerCat (F := Ideal) a b c) x9 x10 x11 x12 x13 x14
      = Cert.ReferenceIdeal.RefValue.refTail (Cert.ReferenceIdeal.RefValue.refCat a b c) x9 x10 x11 x12 x13 x14 := by
  unfold kerTail kerCat Cert.ReferenceIdeal.RefValue.refTail Cert.ReferenceIdeal.RefValue.refCat
  rfl

/-- A branch: the second region's output, reshaped, is two layers of the branch's argument, because each region leaves one layer of what it was entered with. -/
theorem branch_first (m : (ℓ : Loc nD τ sig) → Buf (Elt Ideal) ℓ) (outs : Gen.Outs (F := Ideal)) (hO : OutsOk m outs) (c : Dev nD)
    (f0 : (Reg.dat0 (E0 m) c).arrAt 3 cfg0.N = layer2 2048 (E0 m c main_v0) (E0 m c main_arg3) (E0 m c main_v2))
    (f1 : (Reg.dat1 (E1 m outs) c).arrAt 3 cfg1.N = layer2 2048 (E1 m outs c main_v3) (E1 m outs c main_arg3) (E1 m outs c main_v5)) :
    shapeCast S32x8x2048 (outs 4 main_v6 c : FVec Ideal S256x2048 .f32) shapeCasts_S256x2048_S32x8x2048
      = layer3 2048 (layer3 2048 (m ((c : Thread nD τ).loc main_arg0)) (m ((c : Thread nD τ).loc main_arg3)) (wsel 2048 (m ((c : Thread nD τ).loc main_arg6)) 0)) (m ((c : Thread nD τ).loc main_arg3)) (wsel 2048 (m ((c : Thread nD τ).loc main_arg6)) 1) := by
  have a0 : E0 m c main_v0 = flat 2048 (m ((c : Thread nD τ).loc main_arg0)) :=
    (V1_main_v0 m c).trans (shapeCast_flat 2048 _ _)
  have a1 : E0 m c main_arg3 = (m ((c : Thread nD τ).loc main_arg3)) := V1_main_arg3 m c
  have a2 : E0 m c main_v2 = wsel 2048 (m ((c : Thread nD τ).loc main_arg6)) 0 :=
    (V1_main_v2 m c).trans (shapeCast_slice_wsel0 2048 _ _ _)
  have b0 : E1 m outs c main_v3 = layer2 2048 (flat 2048 (m ((c : Thread nD τ).loc main_arg0))) (m ((c : Thread nD τ).loc main_arg3)) (wsel 2048 (m ((c : Thread nD τ).loc main_arg6)) 0) :=
    (V3_main_v3 m outs c).trans ((hO.h0 c).symm.trans (f0.trans (layer2_congr 2048 a0 a1 a2)))
  have b1 : E1 m outs c main_arg3 = (m ((c : Thread nD τ).loc main_arg3)) := V3_main_arg3 m outs c
  have b2 : E1 m outs c main_v5 = wsel 2048 (m ((c : Thread nD τ).loc main_arg6)) 1 :=
    (V3_main_v5 m outs c).trans (shapeCast_slice_wsel1 2048 _ _ _)
  have e : outs 4 main_v6 c
      = layer2 2048 (layer2 2048 (flat 2048 (m ((c : Thread nD τ).loc main_arg0))) (m ((c : Thread nD τ).loc main_arg3)) (wsel 2048 (m ((c : Thread nD τ).loc main_arg6)) 0)) (m ((c : Thread nD τ).loc main_arg3)) (wsel 2048 (m ((c : Thread nD τ).loc main_arg6)) 1) :=
    (hO.h1 c).symm.trans (f1.trans (layer2_congr 2048 b0 b1 b2))
  rw [e]
  exact (shapeCast_unflat 2048 _ _).trans (two_layers 2048 _ _ _ _)

theorem branch_second (m : (ℓ : Loc nD τ sig) → Buf (Elt Ideal) ℓ) (outs : Gen.Outs (F := Ideal)) (hO : OutsOk m outs) (c : Dev nD)
    (f2 : (Reg.dat2 (E2 m outs) c).arrAt 3 cfg2.N = layer2 4096 (E2 m outs c main_v8) (E2 m outs c main_arg4) (E2 m outs c main_v10))
    (f3 : (Reg.dat3 (E3 m outs) c).arrAt 3 cfg3.N = layer2 4096 (E3 m outs c main_v11) (E3 m outs c main_arg4) (E3 m outs c main_v13)) :
    shapeCast S32x8x4096 (outs 8 main_v14 c : FVec Ideal S256x4096 .f32) shapeCasts_S256x4096_S32x8x4096
      = layer3 4096 (layer3 4096 (m ((c : Thread nD τ).loc main_arg1)) (m ((c : Thread nD τ).loc main_arg4)) (wsel 4096 (m ((c : Thread nD τ).loc main_arg7)) 0)) (m ((c : Thread nD τ).loc main_arg4)) (wsel 4096 (m ((c : Thread nD τ).loc main_arg7)) 1) := by
  have a0 : E2 m outs c main_v8 = flat 4096 (m ((c : Thread nD τ).loc main_arg1)) :=
    (V5_main_v8 m outs c).trans (shapeCast_flat 4096 _ _)
  have a1 : E2 m outs c main_arg4 = (m ((c : Thread nD τ).loc main_arg4)) := V5_main_arg4 m outs c
  have a2 : E2 m outs c main_v10 = wsel 4096 (m ((c : Thread nD τ).loc main_arg7)) 0 :=
    (V5_main_v10 m outs c).trans (shapeCast_slice_wsel0 4096 _ _ _)
  have b0 : E3 m outs c main_v11 = layer2 4096 (flat 4096 (m ((c : Thread nD τ).loc main_arg1))) (m ((c : Thread nD τ).loc main_arg4)) (wsel 4096 (m ((c : Thread nD τ).loc main_arg7)) 0) :=
    (V7_main_v11 m outs c).trans ((hO.h2 c).symm.trans (f2.trans (layer2_congr 4096 a0 a1 a2)))
  have b1 : E3 m outs c main_arg4 = (m ((c : Thread nD τ).loc main_arg4)) := V7_main_arg4 m outs c
  have b2 : E3 m outs c main_v13 = wsel 4096 (m ((c : Thread nD τ).loc main_arg7)) 1 :=
    (V7_main_v13 m outs c).trans (shapeCast_slice_wsel1 4096 _ _ _)
  have e : outs 8 main_v14 c
      = layer2 4096 (layer2 4096 (flat 4096 (m ((c : Thread nD τ).loc main_arg1))) (m ((c : Thread nD τ).loc main_arg4)) (wsel 4096 (m ((c : Thread nD τ).loc main_arg7)) 0)) (m ((c : Thread nD τ).loc main_arg4)) (wsel 4096 (m ((c : Thread nD τ).loc main_arg7)) 1) :=
    (hO.h3 c).symm.trans (f3.trans (layer2_congr 4096 b0 b1 b2))
  rw [e]
  exact (shapeCast_unflat 4096 _ _).trans (two_layers 4096 _ _ _ _)

theorem branch_third (m : (ℓ : Loc nD τ sig) → Buf (Elt Ideal) ℓ) (outs : Gen.Outs (F := Ideal)) (hO : OutsOk m outs) (c : Dev nD)
    (f4 : (Reg.dat4 (E4 m outs) c).arrAt 3 cfg4.N = layer2 2048 (E4 m outs c main_v16) (E4 m outs c main_arg5) (E4 m outs c main_v18))
    (f5 : (Reg.dat5 (E5 m outs) c).arrAt 3 cfg5.N = layer2 2048 (E5 m outs c main_v19) (E5 m outs c main_arg5) (E5 m outs c main_v21)) :
    shapeCast S32x8x2048 (outs 12 main_v22 c : FVec Ideal S256x2048 .f32) shapeCasts_S256x2048_S32x8x2048
      = layer3 2048 (layer3 2048 (m ((c : Thread nD τ).loc main_arg2)) (m ((c : Thread nD τ).loc main_arg5)) (wsel 2048 (m ((c : Thread nD τ).loc main_arg8)) 0)) (m ((c : Thread nD τ).loc main_arg5)) (wsel 2048 (m ((c : Thread nD τ).loc main_arg8)) 1) := by
  have a0 : E4 m outs c main_v16 = flat 2048 (m ((c : Thread nD τ).loc main_arg2)) :=
    (V9_main_v16 m outs c).trans (shapeCast_flat 2048 _ _)
  have a1 : E4 m outs c main_arg5 = (m ((c : Thread nD τ).loc main_arg5)) := V9_main_arg5 m outs c
  have a2 : E4 m outs c main_v18 = wsel 2048 (m ((c : Thread nD τ).loc main_arg8)) 0 :=
    (V9_main_v18 m outs c).trans (shapeCast_slice_wsel0 2048 _ _ _)
  have b0 : E5 m outs c main_v19 = layer2 2048 (flat 2048 (m ((c : Thread nD τ).loc main_arg2))) (m ((c : Thread nD τ).loc main_arg5)) (wsel 2048 (m ((c : Thread nD τ).loc main_arg8)) 0) :=
    (V11_main_v19 m outs c).trans ((hO.h4 c).symm.trans (f4.trans (layer2_congr 2048 a0 a1 a2)))
  have b1 : E5 m outs c main_arg5 = (m ((c : Thread nD τ).loc main_arg5)) := V11_main_arg5 m outs c
  have b2 : E5 m outs c main_v21 = wsel 2048 (m ((c : Thread nD τ).loc main_arg8)) 1 :=
    (V11_main_v21 m outs c).trans (shapeCast_slice_wsel1 2048 _ _ _)
  have e : outs 12 main_v22 c
      = layer2 2048 (layer2 2048 (flat 2048 (m ((c : Thread nD τ).loc main_arg2))) (m ((c : Thread nD τ).loc main_arg5)) (wsel 2048 (m ((c : Thread nD τ).loc main_arg8)) 0)) (m ((c : Thread nD τ).loc main_arg5)) (wsel 2048 (m ((c : Thread nD τ).loc main_arg8)) 1) :=
    (hO.h5 c).symm.trans (f5.trans (layer2_congr 2048 b0 b1 b2))
  rw [e]
  exact (shapeCast_unflat 2048 _ _).trans (two_layers 2048 _ _ _ _)

/-- The kernel program's last array is the dense tail of the three twice-layered branches of its arguments. -/
theorem v39_spec (m : (ℓ : Loc nD τ sig) → Buf (Elt Ideal) ℓ) (outs : Gen.Outs (F := Ideal)) (hO : OutsOk m outs) (c : Dev nD)
    (f0 : (Reg.dat0 (E0 m) c).arrAt 3 cfg0.N = layer2 2048 (E0 m c main_v0) (E0 m c main_arg3) (E0 m c main_v2))
    (f1 : (Reg.dat1 (E1 m outs) c).arrAt 3 cfg1.N = layer2 2048 (E1 m outs c main_v3) (E1 m outs c main_arg3) (E1 m outs c main_v5))
    (f2 : (Reg.dat2 (E2 m outs) c).arrAt 3 cfg2.N = layer2 4096 (E2 m outs c main_v8) (E2 m outs c main_arg4) (E2 m outs c main_v10))
    (f3 : (Reg.dat3 (E3 m outs) c).arrAt 3 cfg3.N = layer2 4096 (E3 m outs c main_v11) (E3 m outs c main_arg4) (E3 m outs c main_v13))
    (f4 : (Reg.dat4 (E4 m outs) c).arrAt 3 cfg4.N = layer2 2048 (E4 m outs c main_v16) (E4 m outs c main_arg5) (E4 m outs c main_v18))
    (f5 : (Reg.dat5 (E5 m outs) c).arrAt 3 cfg5.N = layer2 2048 (E5 m outs c main_v19) (E5 m outs c main_arg5) (E5 m outs c main_v21)) :
    Gen.V17 m outs c main_v39
      = Cert.ReferenceIdeal.RefValue.refTail
          (Cert.ReferenceIdeal.RefValue.refCat
            (layer3 2048 (layer3 2048 (m ((c : Thread nD τ).loc main_arg0)) (m ((c : Thread nD τ).loc main_arg3)) (wsel 2048 (m ((c : Thread nD τ).loc main_arg6)) 0)) (m ((c : Thread nD τ).loc main_arg3)) (wsel 2048 (m ((c : Thread nD τ).loc main_arg6)) 1))
            (layer3 4096 (layer3 4096 (m ((c : Thread nD τ).loc main_arg1)) (m ((c : Thread nD τ).loc main_arg4)) (wsel 4096 (m ((c : Thread nD τ).loc main_arg7)) 0)) (m ((c : Thread nD τ).loc main_arg4)) (wsel 4096 (m ((c : Thread nD τ).loc main_arg7)) 1))
            (layer3 2048 (layer3 2048 (m ((c : Thread nD τ).loc main_arg2)) (m ((c : Thread nD τ).loc main_arg5)) (wsel 2048 (m ((c : Thread nD τ).loc main_arg8)) 0)) (m ((c : Thread nD τ).loc main_arg5)) (wsel 2048 (m ((c : Thread nD τ).loc main_arg8)) 1)))
          (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  rw [v39_eq m outs c, branch_first m outs hO c f0 f1, branch_second m outs hO c f2 f3, branch_third m outs hO c f4 f5]
  exact kerTail_eq_refTail _ _ _ _ _ _ _ _ _

end Cert.KernelIdeal.Run

end
-- ==== Proof.lean ====
import proofs.«146132_j71485435675282_1_alg».proof.Defs
import proofs.«146132_j71485435675282_1_alg».proof.Proof.Gen.Kernel
import proofs.«146132_j71485435675282_1_alg».proof.Proof.Gen.Kernel.Regions
import proofs.«146132_j71485435675282_1_alg».proof.Proof.Gen.KernelIdeal
import proofs.«146132_j71485435675282_1_alg».proof.Proof.Gen.KernelIdeal.Skeleton
import proofs.«146132_j71485435675282_1_alg».proof.Proof.Gen.KernelIdeal.Launch
import proofs.«146132_j71485435675282_1_alg».proof.Proof.Gen.KernelIdeal.Regions
import proofs.«146132_j71485435675282_1_alg».proof.Proof.Gen.KernelIdeal.Points
import proofs.«146132_j71485435675282_1_alg».proof.Proof.Gen.ReferenceIdeal
import proofs.«146132_j71485435675282_1_alg».proof.Proof.Gen.ReferenceIdeal.Run
import proofs.«146132_j71485435675282_1_alg».proof.Proof.Gen.Pre_finite_inputs
import proofs.«146132_j71485435675282_1_alg».proof.Proof.RunAll
import proofs.«146132_j71485435675282_1_alg».proof.Proof.KRunAll
import proofs.«146132_j71485435675282_1_alg».proof.Proof.OutsDef
import proofs.«146132_j71485435675282_1_alg».proof.Proof.KOutsDef
import proofs.«146132_j71485435675282_1_alg».proof.Proof.RegVal0
import proofs.«146132_j71485435675282_1_alg».proof.Proof.RegVal1
import proofs.«146132_j71485435675282_1_alg».proof.Proof.RegVal2
import proofs.«146132_j71485435675282_1_alg».proof.Proof.RegVal3
import proofs.«146132_j71485435675282_1_alg».proof.Proof.RegVal4
import proofs.«146132_j71485435675282_1_alg».proof.Proof.RegVal5
import proofs.«146132_j71485435675282_1_alg».proof.Proof.KernelValue
import proofs.«146132_j71485435675282_1_alg».proof.Proof.RefValue
import Idealize.ShloMosaic.Adequacy
import Idealize.ShloMosaic.Init

noncomputable section

namespace Cert.Proof

open Idealize.ShloMosaic Idealize.ShloMosaic.TcCoe Idealize.SL.Sem

/-- Each kernel program's run ends with its arguments as launched: its run with the result forgotten. -/
theorem frame_k : Cert.frame_Kernel := fun m ρ _ =>
  (θ_run Cert.Kernel.defs _ _).mono (fun _ h c => (h c).2)
    (Cert.Kernel.Run.run_value m (Cert.Kernel.Run.outs m) (Cert.Kernel.Run.outsOk m) ρ)

theorem frame_ki : Cert.frame_KernelIdeal := fun m ρ _ =>
  (θ_run Cert.KernelIdeal.defs _ _).mono (fun _ h c => (h c).2)
    (Cert.KernelIdeal.Run.run_value m (Cert.KernelIdeal.Run.outs m) (Cert.KernelIdeal.Run.outsOk m) ρ)

/-- The same for the reference, whose run is a straight line of array operations. -/
theorem frame_ri : Cert.frame_ReferenceIdeal := fun m ρ _ =>
  (θ_run Cert.ReferenceIdeal.defs _ _).mono (fun _ h c => (h c).2)
    (Cert.ReferenceIdeal.Value.run (F := Ideal) m ρ)

/-- Reading the kernel program over the extended reals rewrote no operation. -/
theorem preserves : Cert.preserves_Kernel_KernelIdeal := trivial

/-- Over the extended reals both programs end at the dense tail of three twice-layered branches of the arguments: the reference by its operations, the kernel program because each of its six regions leaves one layer of what it was entered with. -/
theorem algebraic : Cert.algebraic_KernelIdeal_ReferenceIdeal := by
  intro m ρ m' ρ' hpre hagree
  refine ⟨fun c => Cert.KernelIdeal.Gen.V17 m (Cert.KernelIdeal.Run.outs m) c Cert.KernelIdeal.main_v39,
    Cert.KernelIdeal.Run.run_value m (Cert.KernelIdeal.Run.outs m) (Cert.KernelIdeal.Run.outsOk m) ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq m' c).trans ?_
  obtain ⟨a0, a1, a2, a3, a4, a5, a6, a7, a8, a9, a10, a11, a12, a13, a14⟩ := hagree c
  rw [a0, a1, a2, a3, a4, a5, a6, a7, a8, a9, a10, a11, a12, a13, a14]
  exact (Cert.KernelIdeal.Run.v39_spec m (Cert.KernelIdeal.Run.outs m) (Cert.KernelIdeal.Run.outsOk m) c
    (Cert.KernelIdeal.Reg.final0 (Cert.KernelIdeal.Run.E0 m) c)
    (Cert.KernelIdeal.Reg.final1 (Cert.KernelIdeal.Run.E1 m (Cert.KernelIdeal.Run.outs m)) c)
    (Cert.KernelIdeal.Reg.final2 (Cert.KernelIdeal.Run.E2 m (Cert.KernelIdeal.Run.outs m)) c)
    (Cert.KernelIdeal.Reg.final3 (Cert.KernelIdeal.Run.E3 m (Cert.KernelIdeal.Run.outs m)) c)
    (Cert.KernelIdeal.Reg.final4 (Cert.KernelIdeal.Run.E4 m (Cert.KernelIdeal.Run.outs m)) c)
    (Cert.KernelIdeal.Reg.final5 (Cert.KernelIdeal.Run.E5 m (Cert.KernelIdeal.Run.outs m)) c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
